-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part3 {F : FTy → Type} [FloatOps F] (main_v43 : IVec S_ 1) (main_v47 : IVec S800000 1) (main_v51 : IVec S800000 1) : IVec S_ 1 :=
  let main_v52 : IVec S800000 1 := andi main_v47 main_v51
  let main_c_18 : IVec S_ 1 := constantI S_ 1 1#1
  let main_v53 : IVec S_ 1 := (fun x v => Host.reduce IntOp.andi x v reducesTo_S800000_S_d0 h_S_) main_v52 main_c_18
  let main_v54 : IVec S_ 1 := andi main_v43 main_v53
  main_v54

def fn_part2 {F : FTy → Type} [FloatOps F] (main_arg1 : IVec S2x800000 32) (main_arg8 : FVec F S64x40 .f32) (main_arg9 : FVec F S40 .f32) (main_v33 : IVec S_ 1) : IVec S_ 1 :=
  let main_v34 : FVec F S64x40 .f32 := Host.absf main_arg8
  let main_cst_12 : FVec F S_ .f32 := constant S_ .f32 0x7F800000#32
  let main_v35 : FVec F S64x40 .f32 := broadcastInDim S64x40 ![] bcast_S_S64x40 main_cst_12
  let main_v36 : IVec S64x40 1 := cmpf .olt main_v34 main_v35
  let main_c_13 : IVec S_ 1 := constantI S_ 1 1#1
  let main_v37 : IVec S_ 1 := (fun x v => Host.reduce IntOp.andi x v reducesTo_S64x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  let main_v44 : IVec S1x800000 32 := (extractStridedSlice S1x800000 ![0, 0] · slices_S2x800000_S1x800000_0_0) main_arg1
  let main_v45 : IVec S800000 32 := shapeCast S800000 main_v44 shapeCasts_S1x800000_S800000
  let main_c_16 : IVec S_ 32 := constantI S_ 32 0#32
  let main_v46 : IVec S800000 32 := broadcastInDim S800000 ![] bcast_S_S800000 main_c_16
  let main_v47 : IVec S800000 1 := cmpi .sge main_v45 main_v46
  let main_v48 : IVec S1x800000 32 := (extractStridedSlice S1x800000 ![0, 0] · slices_S2x800000_S1x800000_0_0) main_arg1
  let main_v49 : IVec S800000 32 := shapeCast S800000 main_v48 shapeCasts_S1x800000_S800000
  let main_c_17 : IVec S_ 32 := constantI S_ 32 50000#32
  let main_v50 : IVec S800000 32 := broadcastInDim S800000 ![] bcast_S_S800000 main_c_17
  let main_v51 : IVec S800000 1 := cmpi .slt main_v49 main_v50
  fn_part3 (F := F) main_v43 main_v47 main_v51

def fn_part1 {F : FTy → Type} [FloatOps F] (main_arg1 : IVec S2x800000 32) (main_arg5 : FVec F S64 .f32) (main_arg6 : FVec F S64x64 .f32) (main_arg7 : FVec F S64 .f32) (main_arg8 : FVec F S64x40 .f32) (main_arg9 : FVec F S40 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_v33

def fn {F : FTy → Type} [FloatOps F] (main_arg0 : FVec F S50000x128 .f32) (main_arg1 : IVec S2x800000 32) (main_arg2 : FVec F S128x64 .f32) (main_arg3 : FVec F S64 .f32) (main_arg4 : FVec F S64x64 .f32) (main_arg5 : FVec F S64 .f32) (main_arg6 : FVec F S64x64 .f32) (main_arg7 : FVec F S64 .f32) (main_arg8 : FVec F S64x40 .f32) (main_arg9 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S851968 : Shape := ⟨1, ![851968]⟩
abbrev S1x851968 : Shape := ⟨2, ![1, 851968]⟩
abbrev S50000x64 : Shape := ⟨2, ![50000, 64]⟩
abbrev S851968x64 : Shape := ⟨2, ![851968, 64]⟩
abbrev S1x4096 : Shape := ⟨2, ![1, 4096]⟩
abbrev S2000x64 : Shape := ⟨2, ![2000, 64]⟩
abbrev S4096x64 : Shape := ⟨2, ![4096, 64]⟩
abbrev S2000x1 : Shape := ⟨2, ![2000, 1]⟩
abbrev S2000x4096 : Shape := ⟨2, ![2000, 4096]⟩
abbrev S1x64 : Shape := ⟨2, ![1, 64]⟩
abbrev S50000x40 : Shape := ⟨2, ![50000, 40]⟩
abbrev S1x40 : Shape := ⟨2, ![1, 40]⟩

abbrev nBuf : Space → Nat
  | .hbm => 114
  | .vmem => 48
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x40, .f32⟩
  | .hbm, ⟨9, _⟩ => ⟨S40, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S50000, .i32⟩
  | .hbm, ⟨15, _⟩ => ⟨S850000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S_, .i32⟩
  | .hbm, ⟨51, _⟩ => ⟨S_, .i32⟩
  | .hbm, ⟨52, _⟩ => ⟨S851968, .i32⟩
  | .hbm, ⟨53, _⟩ => ⟨S_, .i32⟩
  | .hbm, ⟨54, _⟩ => ⟨S_, .i32⟩
  | .hbm, ⟨55, _⟩ => ⟨S851968, .i32⟩
  | .hbm, ⟨56, _⟩ => ⟨S_, .f32⟩
  | .hbm, ⟨57, _⟩ => ⟨S_, .f32⟩
  | .hbm, ⟨58, _⟩ => ⟨S851968, .f32⟩
  | .hbm, ⟨59, _⟩ => ⟨S1x851968, .i32⟩
  | .hbm, ⟨60, _⟩ => ⟨S1x851968, .i32⟩
  | .hbm, ⟨61, _⟩ => ⟨S1x851968, .f32⟩
  | .hbm, ⟨62, _⟩ => ⟨S50000x64, .f32⟩
  | .hbm, ⟨63, _⟩ => ⟨S851968x64, .bf16⟩
  | .hbm, ⟨64, _⟩ => ⟨S50000x64, .f32⟩
  | .hbm, ⟨65, _⟩ => ⟨S1x64, .f32⟩
  | .hbm, ⟨66, _⟩ => ⟨S50000x64, .f32⟩
  | .hbm, ⟨67, _⟩ => ⟨S50000x64, .f32⟩
  | .hbm, ⟨68, _⟩ => ⟨S_, .f32⟩
  | .hbm, ⟨69, _⟩ => ⟨S50000x64, .f32⟩
  | .hbm, ⟨70, _⟩ => ⟨S50000x64, .i1⟩
  | .hbm, ⟨71, _⟩ => ⟨S_, .f32⟩
  | .hbm, ⟨72, _⟩ => ⟨S50000x64, .f32⟩
  | .hbm, ⟨73, _⟩ => ⟨S50000x64, .i1⟩
  | .hbm, ⟨74, _⟩ => ⟨S_, .f32⟩
  | .hbm, ⟨75, _⟩ => ⟨S_, .f32⟩
  | .hbm, ⟨76, _⟩ => ⟨S50000x64, .f32⟩
  | .hbm, ⟨77, _⟩ => ⟨S50000x64, .f32⟩
  | .hbm, ⟨78, _⟩ => ⟨S50000x64, .f32⟩
  | .hbm, ⟨79, _⟩ => ⟨S_, .f32⟩
  | .hbm, ⟨80, _⟩ => ⟨S50000x64, .f32⟩
  | .hbm, ⟨81, _⟩ => ⟨S50000x64, .f32⟩
  | .hbm, ⟨82, _⟩ => ⟨S50000x64, .f32⟩
  | .hbm, ⟨83, _⟩ => ⟨S50000x64, .f32⟩
  | .hbm, ⟨84, _⟩ => ⟨S851968x64, .bf16⟩
  | .hbm, ⟨85, _⟩ => ⟨S50000x64, .f32⟩
  | .hbm, ⟨86, _⟩ => ⟨S1x64, .f32⟩
  | .hbm, ⟨87, _⟩ => ⟨S50000x64, .f32⟩
  | .hbm, ⟨88, _⟩ => ⟨S50000x64, .f32⟩
  | .hbm, ⟨89, _⟩ => ⟨S_, .f32⟩
  | .hbm, ⟨90, _⟩ => ⟨S50000x64, .f32⟩
  | .hbm, ⟨91, _⟩ => ⟨S50000x64, .i1⟩
  | .hbm, ⟨92, _⟩ => ⟨S_, .f32⟩
  | .hbm, ⟨93, _⟩ => ⟨S50000x64, .f32⟩
  | .hbm, ⟨94, _⟩ => ⟨S50000x64, .i1⟩
  | .hbm, ⟨95, _⟩ => ⟨S_, .f32⟩
  | .hbm, ⟨96, _⟩ => ⟨S_, .f32⟩
  | .hbm, ⟨97, _⟩ => ⟨S50000x64, .f32⟩
  | .hbm, ⟨98, _⟩ => ⟨S50000x64, .f32⟩
  | .hbm, ⟨99, _⟩ => ⟨S50000x64, .f32⟩
  | .hbm, ⟨100, _⟩ => ⟨S_, .f32⟩
  | .hbm, ⟨101, _⟩ => ⟨S50000x64, .f32⟩
  | .hbm, ⟨102, _⟩ => ⟨S50000x64, .f32⟩
  | .hbm, ⟨103, _⟩ => ⟨S50000x64, .f32⟩
  | .hbm, ⟨104, _⟩ => ⟨S50000x64, .f32⟩
  | .hbm, ⟨105, _⟩ => ⟨S851968x64, .bf16⟩
  | .hbm, ⟨106, _⟩ => ⟨S50000x64, .f32⟩
  | .hbm, ⟨107, _⟩ => ⟨S1x64, .f32⟩
  | .hbm, ⟨108, _⟩ => ⟨S50000x64, .f32⟩
  | .hbm, ⟨109, _⟩ => ⟨S50000x64, .f32⟩
  | .hbm, ⟨110, _⟩ => ⟨S50000x40, .f32⟩
  | .hbm, ⟨111, _⟩ => ⟨S1x40, .f32⟩
  | .hbm, ⟨112, _⟩ => ⟨S50000x40, .f32⟩
  | .hbm, ⟨113, _⟩ => ⟨S50000x40, .f32⟩
  | .local _ .vmem, ⟨0, _⟩ => ⟨S1x4096, .i32⟩
  | .local _ .vmem, ⟨1, _⟩ => ⟨S1x4096, .i32⟩
  | .local _ .vmem, ⟨2, _⟩ => ⟨S1x4096, .f32⟩
  | .local _ .vmem, ⟨3, _⟩ => ⟨S1x4096, .f32⟩
  | .local _ .vmem, ⟨4, _⟩ => ⟨S2000x64, .f32⟩
  | .local _ .vmem, ⟨5, _⟩ => ⟨S2000x64, .f32⟩
  | .local _ .vmem, ⟨6, _⟩ => ⟨S4096x64, .bf16⟩
  | .local _ .vmem, ⟨7, _⟩ => ⟨S4096x64, .bf16⟩
  | .local _ .vmem, ⟨8, _⟩ => ⟨S4096x64, .f32⟩
  | .local _ .vmem, ⟨9, _⟩ => ⟨S1x4096, .i32⟩
  | .local _ .vmem, ⟨10, _⟩ => ⟨S1x4096, .i32⟩
  | .local _ .vmem, ⟨11, _⟩ => ⟨S4096x64, .bf16⟩
  | .local _ .vmem, ⟨12, _⟩ => ⟨S4096x64, .bf16⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S1x4096, .i32⟩
  | .local _ .vmem, ⟨17, _⟩ => ⟨S1x4096, .i32⟩
  | .local _ .vmem, ⟨18, _⟩ => ⟨S1x4096, .f32⟩
  | .local _ .vmem, ⟨19, _⟩ => ⟨S1x4096, .f32⟩
  | .local _ .vmem, ⟨20, _⟩ => ⟨S2000x64, .f32⟩
  | .local _ .vmem, ⟨21, _⟩ => ⟨S2000x64, .f32⟩
  | .local _ .vmem, ⟨22, _⟩ => ⟨S4096x64, .bf16⟩
  | .local _ .vmem, ⟨23, _⟩ => ⟨S4096x64, .bf16⟩
  | .local _ .vmem, ⟨24, _⟩ => ⟨S4096x64, .f32⟩
  | .local _ .vmem, ⟨25, _⟩ => ⟨S1x4096, .i32⟩
  | .local _ .vmem, ⟨26, _⟩ => ⟨S1x4096, .i32⟩
  | .local _ .vmem, ⟨27, _⟩ => ⟨S4096x64, .bf16⟩
  | .local _ .vmem, ⟨28, _⟩ => ⟨S4096x64, .bf16⟩
  | .local _ .vmem, ⟨29, _⟩ => ⟨S2000x64, .f32⟩
  | .local _ .vmem, ⟨30, _⟩ => ⟨S2000x64, .f32⟩
  | .local _ .vmem, ⟨31, _⟩ => ⟨S2000x64, .f32⟩
  | .local _ .vmem, ⟨32, _⟩ => ⟨S1x4096, .i32⟩
  | .local _ .vmem, ⟨33, _⟩ => ⟨S1x4096, .i32⟩
  | .local _ .vmem, ⟨34, _⟩ => ⟨S1x4096, .f32⟩
  | .local _ .vmem, ⟨35, _⟩ => ⟨S1x4096, .f32⟩
  | .local _ .vmem, ⟨36, _⟩ => ⟨S2000x64, .f32⟩
  | .local _ .vmem, ⟨37, _⟩ => ⟨S2000x64, .f32⟩
  | .local _ .vmem, ⟨38, _⟩ => ⟨S4096x64, .bf16⟩
  | .local _ .vmem, ⟨39, _⟩ => ⟨S4096x64, .bf16⟩
  | .local _ .vmem, ⟨40, _⟩ => ⟨S4096x64, .f32⟩
  | .local _ .vmem, ⟨41, _⟩ => ⟨S1x4096, .i32⟩
  | .local _ .vmem, ⟨42, _⟩ => ⟨S1x4096, .i32⟩
  | .local _ .vmem, ⟨43, _⟩ => ⟨S4096x64, .bf16⟩
  | .local _ .vmem, ⟨44, _⟩ => ⟨S4096x64, .bf16⟩
  | .local _ .vmem, ⟨45, _⟩ => ⟨S2000x64, .f32⟩
  | .local _ .vmem, ⟨46, _⟩ => ⟨S2000x64, .f32⟩
  | .local _ .vmem, ⟨47, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_call1_v0 : Ref sig .tc := ⟨.hbm, 51, rfl⟩
abbrev main_v30 : Ref sig .tc := ⟨.hbm, 52, rfl⟩
abbrev main_c_7 : Ref sig .tc := ⟨.hbm, 53, rfl⟩
abbrev main_call2_v0 : Ref sig .tc := ⟨.hbm, 54, rfl⟩
abbrev main_v31 : Ref sig .tc := ⟨.hbm, 55, rfl⟩
abbrev main_cst_8 : Ref sig .tc := ⟨.hbm, 56, rfl⟩
abbrev main_call3_v0 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_call4_cst : Ref sig .tc := ⟨.hbm, 68, rfl⟩
abbrev main_call4_v0 : Ref sig .tc := ⟨.hbm, 69, rfl⟩
abbrev main_call4_v1 : Ref sig .tc := ⟨.hbm, 70, rfl⟩
abbrev main_call4_cst_0 : Ref sig .tc := ⟨.hbm, 71, rfl⟩
abbrev main_call4_v2 : Ref sig .tc := ⟨.hbm, 72, rfl⟩
abbrev main_call4_v3 : Ref sig .tc := ⟨.hbm, 73, rfl⟩
abbrev main_call4_cst_1 : Ref sig .tc := ⟨.hbm, 74, rfl⟩
abbrev main_call4_call0_v0 : Ref sig .tc := ⟨.hbm, 75, rfl⟩
abbrev main_call4_call0_v1 : Ref sig .tc := ⟨.hbm, 76, rfl⟩
abbrev main_call4_v4 : Ref sig .tc := ⟨.hbm, 77, rfl⟩
abbrev main_call4_v5 : Ref sig .tc := ⟨.hbm, 78, rfl⟩
abbrev main_call4_cst_2 : Ref sig .tc := ⟨.hbm, 79, rfl⟩
abbrev main_call4_v6 : Ref sig .tc := ⟨.hbm, 80, rfl⟩
abbrev main_call4_v7 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_call5_cst : Ref sig .tc := ⟨.hbm, 89, rfl⟩
abbrev main_call5_v0 : Ref sig .tc := ⟨.hbm, 90, rfl⟩
abbrev main_call5_v1 : Ref sig .tc := ⟨.hbm, 91, rfl⟩
abbrev main_call5_cst_0 : Ref sig .tc := ⟨.hbm, 92, rfl⟩
abbrev main_call5_v2 : Ref sig .tc := ⟨.hbm, 93, rfl⟩
abbrev main_call5_v3 : Ref sig .tc := ⟨.hbm, 94, rfl⟩
abbrev main_call5_cst_1 : Ref sig .tc := ⟨.hbm, 95, rfl⟩
abbrev main_call5_call0_v0 : Ref sig .tc := ⟨.hbm, 96, rfl⟩
abbrev main_call5_call0_v1 : Ref sig .tc := ⟨.hbm, 97, rfl⟩
abbrev main_call5_v4 : Ref sig .tc := ⟨.hbm, 98, rfl⟩
abbrev main_call5_v5 : Ref sig .tc := ⟨.hbm, 99, rfl⟩
abbrev main_call5_cst_2 : Ref sig .tc := ⟨.hbm, 100, rfl⟩
abbrev main_call5_v6 : Ref sig .tc := ⟨.hbm, 101, rfl⟩
abbrev main_call5_v7 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_scratch0 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_scratch0 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg3_1 : Ref sig .tc := ⟨.vmem, 39, rfl⟩
abbrev cc4_scratch0 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg2_1 : Ref sig .tc := ⟨.vmem, 46, rfl⟩
abbrev cc5_scratch0 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc4_sem3_0 : DmaSem sig := 34
abbrev cc4_sem3_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem2_1 : DmaSem sig := 41

abbrev nD : Nat := 1
abbrev τ : Topo := Topo.v7x

variable {F : FTy → Type} [FloatOps F]

abbrev grid0 : Pipeline.Grid := ⟨2, ![208, 25], ![false, false]⟩

def k0_cond2 (i : grid0.Coords) : BitVec 1 :=
  let arg1 : BitVec 32 := BitVec.ofNat 32 (i 1).val
  let c24_i32 : BitVec 32 := 24#32
  let v28 : BitVec 1 := Scalar.cmpi .eq arg1 c24_i32
  let v29 : BitVec 32 := Scalar.extui v28
  let c0_i32_11 : BitVec 32 := 0#32
  let v30 : BitVec 1 := Scalar.cmpi .ne v29 c0_i32_11
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![25, 208], ![false, false]⟩

def k1_cond2 (i : grid1.Coords) : BitVec 1 :=
  let arg1 : BitVec 32 := BitVec.ofNat 32 (i 1).val
  let c207_i32 : BitVec 32 := 207#32
  let v23 : BitVec 1 := Scalar.cmpi .eq arg1 c207_i32
  let v24 : BitVec 32 := Scalar.extui v23
  let c0_i32_8 : BitVec 32 := 0#32
  let v25 : BitVec 1 := Scalar.cmpi .ne v24 c0_i32_8
  v25

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![208, 25], ![false, false]⟩

def k2_cond2 (i : grid2.Coords) : BitVec 1 :=
  let arg1 : BitVec 32 := BitVec.ofNat 32 (i 1).val
  let c24_i32 : BitVec 32 := 24#32
  let v28 : BitVec 1 := Scalar.cmpi .eq arg1 c24_i32
  let v29 : BitVec 32 := Scalar.extui v28
  let c0_i32_11 : BitVec 32 := 0#32
  let v30 : BitVec 1 := Scalar.cmpi .ne v29 c0_i32_11
  v30

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x4096 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S4096x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![25, 208], ![false, false]⟩

def k3_cond2 (i : grid3.Coords) : BitVec 1 :=
  let arg1 : BitVec 32 := BitVec.ofNat 32 (i 1).val
  let c207_i32 : BitVec 32 := 207#32
  let v23 : BitVec 1 := Scalar.cmpi .eq arg1 c207_i32
  let v24 : BitVec 32 := Scalar.extui v23
  let c0_i32_8 : BitVec 32 := 0#32
  let v25 : BitVec 1 := Scalar.cmpi .ne v24 c0_i32_8
  v25

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1x4096 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S4096x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![208, 25], ![false, false]⟩

def k4_cond2 (i : grid4.Coords) : BitVec 1 :=
  let arg1 : BitVec 32 := BitVec.ofNat 32 (i 1).val
  let c24_i32 : BitVec 32 := 24#32
  let v28 : BitVec 1 := Scalar.cmpi .eq arg1 c24_i32
  let v29 : BitVec 32 := Scalar.extui v28
  let c0_i32_11 : BitVec 32 := 0#32
  let v30 : BitVec 1 := Scalar.cmpi .ne v29 c0_i32_11
  v30

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1x4096 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1x4096 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S2000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S4096x64 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![25, 208], ![false, false]⟩

def k5_cond2 (i : grid5.Coords) : BitVec 1 :=
  let arg1 : BitVec 32 := BitVec.ofNat 32 (i 1).val
  let c207_i32 : BitVec 32 := 207#32
  let v23 : BitVec 1 := Scalar.cmpi .eq arg1 c207_i32
  let v24 : BitVec 32 := Scalar.extui v23
  let c0_i32_8 : BitVec 32 := 0#32
  let v25 : BitVec 1 := Scalar.cmpi .ne v24 c0_i32_8
  v25

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1x4096 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S4096x64 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S2000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  pads_S850000_S851968_019680 : S850000.Pads (![0] : Fin 1 → Nat) ![1968] ![0] S851968
  h_S_ : 0 < S_.numel
  shapeCasts_S851968_S1x851968 : S851968.ShapeCasts S1x851968
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  iota_S2000x1_d0_w32 : S2000x1.Iotas .tc 32 [0]
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S2000x1_S2000x4096 : S2000x1.Broadcasts S2000x4096
  broadcasts_S1x4096_S2000x4096 : S1x4096.Broadcasts S2000x4096
  bitsLt_bf16_f32 : FTy.bits .bf16 < FTy.bits .f32
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  packedbf16_S4096x64_S4096x64_0_0 : (Rect.unit (s := S4096x64) ![0, 0] S4096x64.size inb_S4096x64_S4096x64_0_0).PackedRows (EltTy.packing .bf16)
  natLt_1_32 : 1 < 32
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  dot_S2000x4096_S2000x64_S4096x64_0_0_1_1_n_n_wf : DotDims.WF S2000x4096 S2000x64 S4096x64 [0] [0] [1] [1] [] []
  dot_S2000x4096_S4096x64_S2000x64_1_0_0_1_n_n_wf : DotDims.WF S2000x4096 S4096x64 S2000x64 [1] [0] [0] [1] [] []
  dot_S50000x64_S64x64_S50000x64_1_0_0_1_n_n_wf : DotDims.WF S50000x64 S64x64 S50000x64 [1] [0] [0] [1] [] []
  dot_S50000x64_S64x40_S50000x40_1_0_0_1_n_n_wf : DotDims.WF S50000x64 S64x40 S50000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096.size a ≤ S1x851968.size a
  hwx0_0 : ∀ i : grid0.Coords, EltTy.bits .i32 = 32 ∨ (Rect.block (s := S1x851968) S1x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x851968.size a
  hwx0_1 : ∀ i : grid0.Coords, EltTy.bits .f32 = 32 ∨ (Rect.block (s := S1x851968) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .f32 = 32 ∨ (Rect.block (s := S50000x64) S2000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S851968x64.size a
  hwx0_3 : ∀ i : grid0.Coords, EltTy.bits .bf16 = 32 ∨ (Rect.block (s := S851968x64) S4096x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4096.size a ≤ S1x851968.size a
  hwx1_0 : ∀ i : grid1.Coords, EltTy.bits .i32 = 32 ∨ (Rect.block (s := S1x851968) S1x4096.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x64.size a ≤ S851968x64.size a
  hwx1_1 : ∀ i : grid1.Coords, EltTy.bits .bf16 = 32 ∨ (Rect.block (s := S851968x64) S4096x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S50000x64.size a
  hwx1_2 : ∀ i : grid1.Coords, EltTy.bits .f32 = 32 ∨ (Rect.block (s := S50000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x4096.size a ≤ S1x851968.size a
  hwx2_0 : ∀ i : grid2.Coords, EltTy.bits .i32 = 32 ∨ (Rect.block (s := S1x851968) S1x4096.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x4096.size a ≤ S1x851968.size a
  hwx2_1 : ∀ i : grid2.Coords, EltTy.bits .f32 = 32 ∨ (Rect.block (s := S1x851968) S1x4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4096x64.size a ≤ S851968x64.size a
  hwx2_3 : ∀ i : grid2.Coords, EltTy.bits .bf16 = 32 ∨ (Rect.block (s := S851968x64) S4096x64.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x4096.size a ≤ S1x851968.size a
  hwx3_0 : ∀ i : grid3.Coords, EltTy.bits .i32 = 32 ∨ (Rect.block (s := S1x851968) S1x4096.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x64.size a ≤ S851968x64.size a
  hwx3_1 : ∀ i : grid3.Coords, EltTy.bits .bf16 = 32 ∨ (Rect.block (s := S851968x64) S4096x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1x4096.size a ≤ S1x851968.size a
  hwx4_0 : ∀ i : grid4.Coords, EltTy.bits .i32 = 32 ∨ (Rect.block (s := S1x851968) S1x4096.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x4096.size a ≤ S1x851968.size a
  hwx4_1 : ∀ i : grid4.Coords, EltTy.bits .f32 = 32 ∨ (Rect.block (s := S1x851968) S1x4096.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x64.size a ≤ S50000x64.size a
  hwx4_2 : ∀ i : grid4.Coords, EltTy.bits .f32 = 32 ∨ (Rect.block (s := S50000x64) S2000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4096x64.size a ≤ S851968x64.size a
  hwx4_3 : ∀ i : grid4.Coords, EltTy.bits .bf16 = 32 ∨ (Rect.block (s := S851968x64) S4096x64.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1x4096.size a ≤ S1x851968.size a
  hwx5_0 : ∀ i : grid5.Coords, EltTy.bits .i32 = 32 ∨ (Rect.block (s := S1x851968) S1x4096.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4096x64.size a ≤ S851968x64.size a
  hwx5_1 : ∀ i : grid5.Coords, EltTy.bits .bf16 = 32 ∨ (Rect.block (s := S851968x64) S4096x64.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x64.size a ≤ S50000x64.size a
  hwx5_2 : ∀ i : grid5.Coords, EltTy.bits .f32 = 32 ∨ (Rect.block (s := S50000x64) S2000x64.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S2000x4096_S2000x64_S4096x64_0_0_1_1_n_n : DotDims S2000x4096 S2000x64 S4096x64 where
  lhsContracting := [0]
  rhsContracting := [0]
  lhsNonContracting := [1]
  rhsNonContracting := [1]
  lhsBatch := []
  rhsBatch := []
  wf := dot_S2000x4096_S2000x64_S4096x64_0_0_1_1_n_n_wf
def dot_S2000x4096_S4096x64_S2000x64_1_0_0_1_n_n : DotDims S2000x4096 S4096x64 S2000x64 where
  lhsContracting := [1]
  rhsContracting := [0]
  lhsNonContracting := [0]
  rhsNonContracting := [1]
  lhsBatch := []
  rhsBatch := []
  wf := dot_S2000x4096_S4096x64_S2000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x40_S50000x40_1_0_0_1_n_n : DotDims S50000x64 S64x40 S50000x40 where
  lhsContracting := [1]
  rhsContracting := [0]
  lhsNonContracting := [0]
  rhsNonContracting := [1]
  lhsBatch := []
  rhsBatch := []
  wf := dot_S50000x64_S64x40_S50000x40_1_0_0_1_n_n_wf

abbrev win0_0 : Pipeline.Window sig grid0 :=
  Pipeline.Window.ofSpec (Memref.whole main_v33) S1x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v36) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v37) S4096x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v34) S1x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v33) S1x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S1x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v43) S2000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v44) S4096x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v34) S1x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S4096x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v45) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v33) S1x4096.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v35) S1x4096.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v50) S2000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v51) S4096x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v34) S1x4096.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v51) S4096x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v52) S2000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S50000x40 : Shape := ⟨2, ![50000, 40]⟩
abbrev S1x40 : Shape := ⟨2, ![1, 40]⟩

abbrev nBuf : Space → Nat
  | .hbm => 144
  | .vmem => 0
  | .smem => 0
  | _ => 0

abbrev hbmTy0_0 (i : Nat) : BufTy := match i % 128 with
  | 0 => ⟨S50000x128, .f32⟩
  | 1 => ⟨S2x800000, .i32⟩
  | 2 => ⟨S128x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x40, .f32⟩
  | 9 => ⟨S40, .f32⟩
  | 10 => ⟨S1x800000, .i32⟩
  | 11 => ⟨S800000, .i32⟩
  | 12 => ⟨S1x800000, .i32⟩
  | 13 => ⟨S800000, .i32⟩
  | 14 => ⟨S50000, .i32⟩
  | 15 => ⟨S850000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S50000x64, .f32⟩
  | 51 => ⟨S850000x1, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x64, .f32⟩
  | 61 => ⟨S850000x64, .f32⟩
  | 62 => ⟨S850000x64, .f32⟩
  | 63 => ⟨S_, .f32⟩
  | 64 => ⟨S50000x64, .f32⟩
  | 65 => ⟨S850000x1, .i32⟩
  | 66 => ⟨S50000x64, .f32⟩
  | 67 => ⟨S1x64, .f32⟩
  | 68 => ⟨S50000x64, .f32⟩
  | 69 => ⟨S50000x64, .f32⟩
  | 70 => ⟨S_, .f32⟩
  | 71 => ⟨S50000x64, .f32⟩
  | 72 => ⟨S50000x64, .i1⟩
  | 73 => ⟨S_, .f32⟩
  | 74 => ⟨S50000x64, .f32⟩
  | 75 => ⟨S50000x64, .i1⟩
  | 76 => ⟨S_, .f32⟩
  | 77 => ⟨S_, .f32⟩
  | 78 => ⟨S50000x64, .f32⟩
  | 79 => ⟨S50000x64, .f32⟩
  | 80 => ⟨S50000x64, .f32⟩
  | 81 => ⟨S_, .f32⟩
  | 82 => ⟨S50000x64, .f32⟩
  | 83 => ⟨S50000x64, .f32⟩
  | 84 => ⟨S50000x64, .f32⟩
  | 85 => ⟨S50000x64, .f32⟩
  | 86 => ⟨S850000x1, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000x64, .f32⟩
  | 96 => ⟨S850000x64, .f32⟩
  | 97 => ⟨S850000x64, .f32⟩
  | 98 => ⟨S_, .f32⟩
  | 99 => ⟨S50000x64, .f32⟩
  | 100 => ⟨S850000x1, .i32⟩
  | 101 => ⟨S50000x64, .f32⟩
  | 102 => ⟨S1x64, .f32⟩
  | 103 => ⟨S50000x64, .f32⟩
  | 104 => ⟨S50000x64, .f32⟩
  | 105 => ⟨S_, .f32⟩
  | 106 => ⟨S50000x64, .f32⟩
  | 107 => ⟨S50000x64, .i1⟩
  | 108 => ⟨S_, .f32⟩
  | 109 => ⟨S50000x64, .f32⟩
  | 110 => ⟨S50000x64, .i1⟩
  | 111 => ⟨S_, .f32⟩
  | 112 => ⟨S_, .f32⟩
  | 113 => ⟨S50000x64, .f32⟩
  | 114 => ⟨S50000x64, .f32⟩
  | 115 => ⟨S50000x64, .f32⟩
  | 116 => ⟨S_, .f32⟩
  | 117 => ⟨S50000x64, .f32⟩
  | 118 => ⟨S50000x64, .f32⟩
  | 119 => ⟨S50000x64, .f32⟩
  | 120 => ⟨S50000x64, .f32⟩
  | 121 => ⟨S850000x1, .f32⟩
  | 122 => ⟨S_, .i32⟩
  | 123 => ⟨S850000, .i32⟩
  | 124 => ⟨S850000, .i1⟩
  | 125 => ⟨S_, .i32⟩
  | 126 => ⟨S850000, .i32⟩
  | 127 => ⟨S850000, .i32⟩
  | _ => ⟨S50000x128, .f32⟩

abbrev hbmTy0_1 (i : Nat) : BufTy := match i % 128 with
  | 0 => ⟨S850000, .i32⟩
  | 1 => ⟨S850000x1, .i32⟩
  | 2 => ⟨S850000x64, .f32⟩
  | 3 => ⟨S850000x64, .f32⟩
  | 4 => ⟨S850000x64, .f32⟩
  | 5 => ⟨S_, .f32⟩
  | 6 => ⟨S50000x64, .f32⟩
  | 7 => ⟨S850000x1, .i32⟩
  | 8 => ⟨S50000x64, .f32⟩
  | 9 => ⟨S1x64, .f32⟩
  | 10 => ⟨S50000x64, .f32⟩
  | 11 => ⟨S50000x64, .f32⟩
  | 12 => ⟨S50000x40, .f32⟩
  | 13 => ⟨S1x40, .f32⟩
  | 14 => ⟨S50000x40, .f32⟩
  | 15 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_call1_v1 : Ref sig .tc := ⟨.hbm, 72, rfl⟩
abbrev main_call1_cst_0 : Ref sig .tc := ⟨.hbm, 73, rfl⟩
abbrev main_call1_v2 : Ref sig .tc := ⟨.hbm, 74, rfl⟩
abbrev main_call1_v3 : Ref sig .tc := ⟨.hbm, 75, rfl⟩
abbrev main_call1_cst_1 : Ref sig .tc := ⟨.hbm, 76, rfl⟩
abbrev main_call1_call0_v0 : Ref sig .tc := ⟨.hbm, 77, rfl⟩
abbrev main_call1_call0_v1 : Ref sig .tc := ⟨.hbm, 78, rfl⟩
abbrev main_call1_v4 : Ref sig .tc := ⟨.hbm, 79, rfl⟩
abbrev main_call1_v5 : Ref sig .tc := ⟨.hbm, 80, rfl⟩
abbrev main_call1_cst_2 : Ref sig .tc := ⟨.hbm, 81, rfl⟩
abbrev main_call1_v6 : Ref sig .tc := ⟨.hbm, 82, rfl⟩
abbrev main_call1_v7 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_c_9 : Ref sig .tc := ⟨.hbm, 87, rfl⟩
abbrev main_v50 : Ref sig .tc := ⟨.hbm, 88, rfl⟩
abbrev main_v51 : Ref sig .tc := ⟨.hbm, 89, rfl⟩
abbrev main_c_10 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_11 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_call2_cst : Ref sig .tc := ⟨.hbm, 105, rfl⟩
abbrev main_call2_v0 : Ref sig .tc := ⟨.hbm, 106, rfl⟩
abbrev main_call2_v1 : Ref sig .tc := ⟨.hbm, 107, rfl⟩
abbrev main_call2_cst_0 : Ref sig .tc := ⟨.hbm, 108, rfl⟩
abbrev main_call2_v2 : Ref sig .tc := ⟨.hbm, 109, rfl⟩
abbrev main_call2_v3 : Ref sig .tc := ⟨.hbm, 110, rfl⟩
abbrev main_call2_cst_1 : Ref sig .tc := ⟨.hbm, 111, rfl⟩
abbrev main_call2_call0_v0 : Ref sig .tc := ⟨.hbm, 112, rfl⟩
abbrev main_call2_call0_v1 : Ref sig .tc := ⟨.hbm, 113, rfl⟩
abbrev main_call2_v4 : Ref sig .tc := ⟨.hbm, 114, rfl⟩
abbrev main_call2_v5 : Ref sig .tc := ⟨.hbm, 115, rfl⟩
abbrev main_call2_cst_2 : Ref sig .tc := ⟨.hbm, 116, rfl⟩
abbrev main_call2_v6 : Ref sig .tc := ⟨.hbm, 117, rfl⟩
abbrev main_call2_v7 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_c_12 : Ref sig .tc := ⟨.hbm, 122, rfl⟩
abbrev main_v68 : Ref sig .tc := ⟨.hbm, 123, rfl⟩
abbrev main_v69 : Ref sig .tc := ⟨.hbm, 124, rfl⟩
abbrev main_c_13 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_cst_14 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []
  dot_S50000x64_S64x40_S50000x40_1_0_0_1_n_n_wf : DotDims.WF S50000x64 S64x40 S50000x40 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x40_S50000x40_1_0_0_1_n_n : DotDims S50000x64 S64x40 S50000x40 where
  lhsContracting := [1]
  rhsContracting := [0]
  lhsNonContracting := [0]
  rhsNonContracting := [1]
  lhsBatch := []
  rhsBatch := []
  wf := dot_S50000x64_S64x40_S50000x40_1_0_0_1_n_n_wf

class Facts : Prop extends Facts₀ where

variable [Facts]
-- ==== Proof.RefRun.lean ====
import proofs.«139829_j5566277616457_1_alg».proof.Proof.Gen.ReferenceIdeal
import Idealize.ShloMosaic.Lib.StableHlo.Run
import Idealize.ShloMosaic.Lib.Pipeline.Frame
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

def src2 (a1 : IVec S2x800000 32) : IVec S850000 32 :=
  concatenate S850000 0 [⟨S800000, shapeCast S800000 (extractStridedSlice S1x800000 ![0, 0] a1 slices_S2x800000_S1x800000_0_0) shapeCasts_S1x800000_S800000⟩, ⟨S50000, iotaInDim S50000 32 0⟩] concatenates_S800000_S50000_S850000_d0

def dst2 (a1 : IVec S2x800000 32) : IVec S850000 32 :=
  concatenate S850000 0 [⟨S800000, shapeCast S800000 (extractStridedSlice S1x800000 ![1, 0] a1 slices_S2x800000_S1x800000_1_0) shapeCasts_S1x800000_S800000⟩, ⟨S50000, iotaInDim S50000 32 0⟩] concatenates_S800000_S50000_S850000_d0

def wrap (x : IVec S850000 32) : IVec S850000x1 32 :=
  broadcastInDim S850000x1 ![0] bcast_S850000_S850000x1_0
    (select (cmpi .slt x (broadcastInDim S850000 ![] bcast_S_S850000 (constantI S_ 32 0#32)))
      (addi x (broadcastInDim S850000 ![] bcast_S_S850000 (constantI S_ 32 50000#32))) x)

def deg (a1 : IVec S2x800000 32) : FVec F S50000 .f32 :=
  Host.scatterAdd scatter_S50000_S850000x1_S850000_n_0_0_1
    (broadcastInDim S50000 ![] bcast_S_S50000 (constant S_ .f32 0x00000000#32))
    (broadcastInDim S850000x1 ![0] bcast_S850000_S850000x1_0 (dst2 a1))
    (broadcastInDim S850000 ![] bcast_S_S850000 (constant S_ .f32 0x3F800000#32))

def dinv (a1 : IVec S2x800000 32) : FVec F S50000 .f32 :=
  select (cmpf .ogt (deg (F := F) a1) (broadcastInDim S50000 ![] bcast_S_S50000 (constant S_ .f32 0x00000000#32)))
    (Host.rsqrt (deg (F := F) a1))
    (broadcastInDim S50000 ![] bcast_S_S50000 (constant S_ .f32 0x00000000#32))

def norm (a1 : IVec S2x800000 32) : FVec F S850000 .f32 :=
  mulf (Host.gather gather_S50000_S850000x1_S850000_n_0_n_n_0_1_1 (dinv (F := F) a1) (wrap (src2 a1)))
    (Host.gather gather_S50000_S850000x1_S850000_n_0_n_n_0_1_1 (dinv (F := F) a1) (wrap (dst2 a1)))

def conv (a1 : IVec S2x800000 32) (h : FVec F S50000x64 .f32) (b : FVec F S64 .f32) : FVec F S50000x64 .f32 :=
  addf
    (Host.scatterAdd scatter_S50000x64_S850000x1_S850000x64_1_0_0_1
      (broadcastInDim S50000x64 ![] bcast_S_S50000x64 (constant S_ .f32 0x00000000#32))
      (broadcastInDim S850000x1 ![0] bcast_S850000_S850000x1_0 (dst2 a1))
      (mulf
        (broadcastInDim S850000x64 ![0, 1] bcast_S850000x1_S850000x64_0_1
          (broadcastInDim S850000x1 ![0] bcast_S850000_S850000x1_0 (norm (F := F) a1)))
        (Host.gather gather_S50000x64_S850000x1_S850000x64_1_0_n_n_0_1_164 h (wrap (src2 a1)))))
    (broadcastInDim S50000x64 ![0, 1] bcast_S1x64_S50000x64_0_1 (broadcastInDim S1x64 ![1] bcast_S64_S1x64_1 b))

def elu (x : FVec F S50000x64 .f32) : FVec F S50000x64 .f32 :=
  select (cmpf .ogt x (broadcastInDim S50000x64 ![] bcast_S_S50000x64 (constant S_ .f32 0x00000000#32)))
    x
    (mulf (broadcastInDim S50000x64 ![] bcast_S_S50000x64 (constant S_ .f32 0x3F800000#32))
      (Host.expm1
        (select (cmpf .ogt x (broadcastInDim S50000x64 ![] bcast_S_S50000x64 (constant S_ .f32 0x00000000#32)))
          (broadcastInDim S50000x64 ![] bcast_S_S50000x64 (constant S_ .f32 0x00000000#32)) x)))

def res (a0 : FVec F S50000x128 .f32) (a1 : IVec S2x800000 32) (a2 : FVec F S128x64 .f32) (a3 : FVec F S64 .f32) (a4 : FVec F S64x64 .f32) (a5 : FVec F S64 .f32) (a6 : FVec F S64x64 .f32) (a7 : FVec F S64 .f32) (a8 : FVec F S64x40 .f32) (a9 : FVec F S40 .f32) : FVec F S50000x40 .f32 :=
  addf
    (Host.dotGeneral dot_S50000x64_S64x40_S50000x40_1_0_0_1_n_n none
      (conv a1 (Host.dotGeneral dot_S50000x64_S64x64_S50000x64_1_0_0_1_n_n none
        (elu (conv a1 (Host.dotGeneral dot_S50000x64_S64x64_S50000x64_1_0_0_1_n_n none
          (elu (conv a1 (Host.dotGeneral dot_S50000x128_S128x64_S50000x64_1_0_0_1_n_n none a0 a2) a3)) a4) a5)) a6) a7) a8)
    (broadcastInDim S50000x40 ![0, 1] bcast_S1x40_S50000x40_0_1 (broadcastInDim S1x40 ![1] bcast_S40_S1x40_1 a9))

abbrev opsA : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_v4 (iotaInDim S50000 32 0),
    StableHlo.binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32),
    StableHlo.TRef.unary (.of main_cst_2) main_call0.v0 id,
    StableHlo.TRef.unary main_call0.v0 main_call0.v1 (broadcastInDim S50000 ![] bcast_S_S50000),
    StableHlo.TRef.ternary (.of main_v12) (.of main_v13) main_call0.v1 main_call0.v2 select,
    StableHlo.nullary main_c (constantI S_ 32 0#32),
    StableHlo.unary main_c main_v15 (broadcastInDim S850000 ![] bcast_S_S850000 : (⟨S_, .i32⟩ : BufTy).Contents (Elt F) → (⟨S850000, .i32⟩ : BufTy).Contents (Elt F)),
    StableHlo.binary main_v5 main_v15 main_v16 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v17 (broadcastInDim S850000 ![] bcast_S_S850000 : (⟨S_, .i32⟩ : BufTy).Contents (Elt F) → (⟨S850000, .i32⟩ : BufTy).Contents (Elt F)),
    StableHlo.binary main_v5 main_v17 main_v18 (addi : (⟨S850000, .i32⟩ : BufTy).Contents (Elt F) → (⟨S850000, .i32⟩ : BufTy).Contents (Elt F) → (⟨S850000, .i32⟩ : BufTy).Contents (Elt F)),
    StableHlo.ternary main_v16 main_v18 main_v5 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v19 main_v20 (broadcastInDim S850000x1 ![0] bcast_S850000_S850000x1_0 : (⟨S850000, .i32⟩ : BufTy).Contents (Elt F) → (⟨S850000x1, .i32⟩ : BufTy).Contents (Elt F)),
    StableHlo.binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_4 (constantI S_ 32 0#32),
    StableHlo.unary main_c_4 main_v22 (broadcastInDim S850000 ![] bcast_S_S850000 : (⟨S_, .i32⟩ : BufTy).Contents (Elt F) → (⟨S850000, .i32⟩ : BufTy).Contents (Elt F)),
    StableHlo.binary main_v6 main_v22 main_v23 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v24 (broadcastInDim S850000 ![] bcast_S_S850000 : (⟨S_, .i32⟩ : BufTy).Contents (Elt F) → (⟨S850000, .i32⟩ : BufTy).Contents (Elt F)),
    StableHlo.binary main_v6 main_v24 main_v25 (addi : (⟨S850000, .i32⟩ : BufTy).Contents (Elt F) → (⟨S850000, .i32⟩ : BufTy).Contents (Elt F) → (⟨S850000, .i32⟩ : BufTy).Contents (Elt F)),
    StableHlo.ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v26 main_v27 (broadcastInDim S850000x1 ![0] bcast_S850000_S850000x1_0 : (⟨S850000, .i32⟩ : BufTy).Contents (Elt F) → (⟨S850000x1, .i32⟩ : BufTy).Contents (Elt F)),
    StableHlo.binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v21 main_v28 main_v29 (mulf : (⟨S850000, .f32⟩ : BufTy).Contents (Elt F) → (⟨S850000, .f32⟩ : BufTy).Contents (Elt F) → (⟨S850000, .f32⟩ : BufTy).Contents (Elt F)) ]

abbrev opsC1 : List (HloOp τ sig (Elt F)) :=
  [ StableHlo.binary main_arg0 main_arg2 main_v30 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_v29 main_v31 (broadcastInDim S850000x1 ![0] bcast_S850000_S850000x1_0 : (⟨S850000, .f32⟩ : BufTy).Contents (Elt F) → (⟨S850000x1, .f32⟩ : BufTy).Contents (Elt F)),
    StableHlo.nullary main_c_6 (constantI S_ 32 0#32),
    StableHlo.unary main_c_6 main_v32 (broadcastInDim S850000 ![] bcast_S_S850000 : (⟨S_, .i32⟩ : BufTy).Contents (Elt F) → (⟨S850000, .i32⟩ : BufTy).Contents (Elt F)),
    StableHlo.binary main_v5 main_v32 main_v33 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v34 (broadcastInDim S850000 ![] bcast_S_S850000 : (⟨S_, .i32⟩ : BufTy).Contents (Elt F) → (⟨S850000, .i32⟩ : BufTy).Contents (Elt F)),
    StableHlo.binary main_v5 main_v34 main_v35 (addi : (⟨S850000, .i32⟩ : BufTy).Contents (Elt F) → (⟨S850000, .i32⟩ : BufTy).Contents (Elt F) → (⟨S850000, .i32⟩ : BufTy).Contents (Elt F)),
    StableHlo.ternary main_v33 main_v35 main_v5 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v36 main_v37 (broadcastInDim S850000x1 ![0] bcast_S850000_S850000x1_0 : (⟨S850000, .i32⟩ : BufTy).Contents (Elt F) → (⟨S850000x1, .i32⟩ : BufTy).Contents (Elt F)),
    StableHlo.binary main_v30 main_v37 main_v38 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v31 main_v39 (broadcastInDim S850000x64 ![0, 1] bcast_S850000x1_S850000x64_0_1 : (⟨S850000x1, .f32⟩ : BufTy).Contents (Elt F) → (⟨S850000x64, .f32⟩ : BufTy).Contents (Elt F)),
    StableHlo.binary main_v39 main_v38 main_v40 (mulf : (⟨S850000x64, .f32⟩ : BufTy).Contents (Elt F) → (⟨S850000x64, .f32⟩ : BufTy).Contents (Elt F) → (⟨S850000x64, .f32⟩ : BufTy).Contents (Elt F)),
    StableHlo.nullary main_cst_8 (constant S_ .f32 0x00000000#32),
    StableHlo.unary main_cst_8 main_v41 (broadcastInDim S50000x64 ![] bcast_S_S50000x64 : (⟨S_, .f32⟩ : BufTy).Contents (Elt F) → (⟨S50000x64, .f32⟩ : BufTy).Contents (Elt F)),
    StableHlo.unary main_v6 main_v42 (broadcastInDim S850000x1 ![0] bcast_S850000_S850000x1_0 : (⟨S850000, .i32⟩ : BufTy).Contents (Elt F) → (⟨S850000x1, .i32⟩ : BufTy).Contents (Elt F)),
    StableHlo.ternary main_v41 main_v42 main_v40 main_v43 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_arg3 main_v44 (broadcastInDim S1x64 ![1] bcast_S64_S1x64_1 : (⟨S64, .f32⟩ : BufTy).Contents (Elt F) → (⟨S1x64, .f32⟩ : BufTy).Contents (Elt F)),
    StableHlo.unary main_v44 main_v45 (broadcastInDim S50000x64 ![0, 1] bcast_S1x64_S50000x64_0_1 : (⟨S1x64, .f32⟩ : BufTy).Contents (Elt F) → (⟨S50000x64, .f32⟩ : BufTy).Contents (Elt F)),
    StableHlo.binary main_v43 main_v45 main_v46 (addf : (⟨S50000x64, .f32⟩ : BufTy).Contents (Elt F) → (⟨S50000x64, .f32⟩ : BufTy).Contents (Elt F) → (⟨S50000x64, .f32⟩ : BufTy).Contents (Elt F)),
    StableHlo.TRef.nullary main_call1.cst (constant S_ .f32 0x00000000#32),
    StableHlo.TRef.unary main_call1.cst main_call1.v0 (broadcastInDim S50000x64 ![] bcast_S_S50000x64),
    StableHlo.TRef.binary (.of main_v46) main_call1.v0 main_call1.v1 (cmpf (F := F) .ogt),
    StableHlo.TRef.nullary main_call1.cst_0 (constant S_ .f32 0x00000000#32),
    StableHlo.TRef.unary main_call1.cst_0 main_call1.v2 (broadcastInDim S50000x64 ![] bcast_S_S50000x64),
    StableHlo.TRef.binary (.of main_v46) main_call1.v2 main_call1.v3 (cmpf (F := F) .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S50000x64 ![] bcast_S_S50000x64),
    StableHlo.TRef.ternary main_call1.v3 main_call1.call0.v1 (.of main_v46) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S50000x64 ![] bcast_S_S50000x64),
    StableHlo.TRef.binary main_call1.v6 main_call1.v5 main_call1.v7 mulf,
    StableHlo.TRef.ternary main_call1.v1 (.of main_v46) main_call1.v7 main_call1.call1.v0 select,
    StableHlo.binary main_v47 main_arg4 main_v48 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ]

abbrev opsC2 : List (HloOp τ sig (Elt F)) :=
  [ StableHlo.unary main_v29 main_v49 (broadcastInDim S850000x1 ![0] bcast_S850000_S850000x1_0 : (⟨S850000, .f32⟩ : BufTy).Contents (Elt F) → (⟨S850000x1, .f32⟩ : BufTy).Contents (Elt F)),
    StableHlo.nullary main_c_9 (constantI S_ 32 0#32),
    StableHlo.unary main_c_9 main_v50 (broadcastInDim S850000 ![] bcast_S_S850000 : (⟨S_, .i32⟩ : BufTy).Contents (Elt F) → (⟨S850000, .i32⟩ : BufTy).Contents (Elt F)),
    StableHlo.binary main_v5 main_v50 main_v51 (cmpi .slt : (⟨S850000, .i32⟩ : BufTy).Contents (Elt F) → (⟨S850000, .i32⟩ : BufTy).Contents (Elt F) → (⟨S850000, .i1⟩ : BufTy).Contents (Elt F)),
    StableHlo.nullary main_c_10 (constantI S_ 32 50000#32),
    StableHlo.unary main_c_10 main_v52 (broadcastInDim S850000 ![] bcast_S_S850000 : (⟨S_, .i32⟩ : BufTy).Contents (Elt F) → (⟨S850000, .i32⟩ : BufTy).Contents (Elt F)),
    StableHlo.binary main_v5 main_v52 main_v53 (addi : (⟨S850000, .i32⟩ : BufTy).Contents (Elt F) → (⟨S850000, .i32⟩ : BufTy).Contents (Elt F) → (⟨S850000, .i32⟩ : BufTy).Contents (Elt F)),
    StableHlo.ternary main_v51 main_v53 main_v5 main_v54 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v54 main_v55 (broadcastInDim S850000x1 ![0] bcast_S850000_S850000x1_0 : (⟨S850000, .i32⟩ : BufTy).Contents (Elt F) → (⟨S850000x1, .i32⟩ : BufTy).Contents (Elt F)),
    StableHlo.binary main_v48 main_v55 main_v56 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v49 main_v57 (broadcastInDim S850000x64 ![0, 1] bcast_S850000x1_S850000x64_0_1 : (⟨S850000x1, .f32⟩ : BufTy).Contents (Elt F) → (⟨S850000x64, .f32⟩ : BufTy).Contents (Elt F)),
    StableHlo.binary main_v57 main_v56 main_v58 (mulf : (⟨S850000x64, .f32⟩ : BufTy).Contents (Elt F) → (⟨S850000x64, .f32⟩ : BufTy).Contents (Elt F) → (⟨S850000x64, .f32⟩ : BufTy).Contents (Elt F)),
    StableHlo.nullary main_cst_11 (constant S_ .f32 0x00000000#32),
    StableHlo.unary main_cst_11 main_v59 (broadcastInDim S50000x64 ![] bcast_S_S50000x64 : (⟨S_, .f32⟩ : BufTy).Contents (Elt F) → (⟨S50000x64, .f32⟩ : BufTy).Contents (Elt F)),
    StableHlo.unary main_v6 main_v60 (broadcastInDim S850000x1 ![0] bcast_S850000_S850000x1_0 : (⟨S850000, .i32⟩ : BufTy).Contents (Elt F) → (⟨S850000x1, .i32⟩ : BufTy).Contents (Elt F)),
    StableHlo.ternary main_v59 main_v60 main_v58 main_v61 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_arg5 main_v62 (broadcastInDim S1x64 ![1] bcast_S64_S1x64_1 : (⟨S64, .f32⟩ : BufTy).Contents (Elt F) → (⟨S1x64, .f32⟩ : BufTy).Contents (Elt F)),
    StableHlo.unary main_v62 main_v63 (broadcastInDim S50000x64 ![0, 1] bcast_S1x64_S50000x64_0_1 : (⟨S1x64, .f32⟩ : BufTy).Contents (Elt F) → (⟨S50000x64, .f32⟩ : BufTy).Contents (Elt F)),
    StableHlo.binary main_v61 main_v63 main_v64 (addf : (⟨S50000x64, .f32⟩ : BufTy).Contents (Elt F) → (⟨S50000x64, .f32⟩ : BufTy).Contents (Elt F) → (⟨S50000x64, .f32⟩ : BufTy).Contents (Elt F)),
    StableHlo.TRef.nullary main_call2.cst (constant S_ .f32 0x00000000#32),
    StableHlo.TRef.unary main_call2.cst main_call2.v0 (broadcastInDim S50000x64 ![] bcast_S_S50000x64),
    StableHlo.TRef.binary (.of main_v64) main_call2.v0 main_call2.v1 (cmpf (F := F) .ogt),
    StableHlo.TRef.nullary main_call2.cst_0 (constant S_ .f32 0x00000000#32),
    StableHlo.TRef.unary main_call2.cst_0 main_call2.v2 (broadcastInDim S50000x64 ![] bcast_S_S50000x64),
    StableHlo.TRef.binary (.of main_v64) main_call2.v2 main_call2.v3 (cmpf (F := F) .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S50000x64 ![] bcast_S_S50000x64),
    StableHlo.TRef.ternary main_call2.v3 main_call2.call0.v1 (.of main_v64) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S50000x64 ![] bcast_S_S50000x64),
    StableHlo.TRef.binary main_call2.v6 main_call2.v5 main_call2.v7 mulf,
    StableHlo.TRef.ternary main_call2.v1 (.of main_v64) main_call2.v7 main_call2.call1.v0 select,
    StableHlo.binary main_v65 main_arg6 main_v66 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ]

abbrev opsC3 : List (HloOp τ sig (Elt F)) :=
  [ StableHlo.unary main_v29 main_v67 (broadcastInDim S850000x1 ![0] bcast_S850000_S850000x1_0 : (⟨S850000, .f32⟩ : BufTy).Contents (Elt F) → (⟨S850000x1, .f32⟩ : BufTy).Contents (Elt F)),
    StableHlo.nullary main_c_12 (constantI S_ 32 0#32),
    StableHlo.unary main_c_12 main_v68 (broadcastInDim S850000 ![] bcast_S_S850000 : (⟨S_, .i32⟩ : BufTy).Contents (Elt F) → (⟨S850000, .i32⟩ : BufTy).Contents (Elt F)),
    StableHlo.binary main_v5 main_v68 main_v69 (cmpi .slt : (⟨S850000, .i32⟩ : BufTy).Contents (Elt F) → (⟨S850000, .i32⟩ : BufTy).Contents (Elt F) → (⟨S850000, .i1⟩ : BufTy).Contents (Elt F)),
    StableHlo.nullary main_c_13 (constantI S_ 32 50000#32),
    StableHlo.unary main_c_13 main_v70 (broadcastInDim S850000 ![] bcast_S_S850000 : (⟨S_, .i32⟩ : BufTy).Contents (Elt F) → (⟨S850000, .i32⟩ : BufTy).Contents (Elt F)),
    StableHlo.binary main_v5 main_v70 main_v71 (addi : (⟨S850000, .i32⟩ : BufTy).Contents (Elt F) → (⟨S850000, .i32⟩ : BufTy).Contents (Elt F) → (⟨S850000, .i32⟩ : BufTy).Contents (Elt F)),
    StableHlo.ternary main_v69 main_v71 main_v5 main_v72 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v72 main_v73 (broadcastInDim S850000x1 ![0] bcast_S850000_S850000x1_0 : (⟨S850000, .i32⟩ : BufTy).Contents (Elt F) → (⟨S850000x1, .i32⟩ : BufTy).Contents (Elt F)),
    StableHlo.binary main_v66 main_v73 main_v74 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v67 main_v75 (broadcastInDim S850000x64 ![0, 1] bcast_S850000x1_S850000x64_0_1 : (⟨S850000x1, .f32⟩ : BufTy).Contents (Elt F) → (⟨S850000x64, .f32⟩ : BufTy).Contents (Elt F)),
    StableHlo.binary main_v75 main_v74 main_v76 (mulf : (⟨S850000x64, .f32⟩ : BufTy).Contents (Elt F) → (⟨S850000x64, .f32⟩ : BufTy).Contents (Elt F) → (⟨S850000x64, .f32⟩ : BufTy).Contents (Elt F)),
    StableHlo.nullary main_cst_14 (constant S_ .f32 0x00000000#32),
    StableHlo.unary main_cst_14 main_v77 (broadcastInDim S50000x64 ![] bcast_S_S50000x64 : (⟨S_, .f32⟩ : BufTy).Contents (Elt F) → (⟨S50000x64, .f32⟩ : BufTy).Contents (Elt F)),
    StableHlo.unary main_v6 main_v78 (broadcastInDim S850000x1 ![0] bcast_S850000_S850000x1_0 : (⟨S850000, .i32⟩ : BufTy).Contents (Elt F) → (⟨S850000x1, .i32⟩ : BufTy).Contents (Elt F)),
    StableHlo.ternary main_v77 main_v78 main_v76 main_v79 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_arg7 main_v80 (broadcastInDim S1x64 ![1] bcast_S64_S1x64_1 : (⟨S64, .f32⟩ : BufTy).Contents (Elt F) → (⟨S1x64, .f32⟩ : BufTy).Contents (Elt F)),
    StableHlo.unary main_v80 main_v81 (broadcastInDim S50000x64 ![0, 1] bcast_S1x64_S50000x64_0_1 : (⟨S1x64, .f32⟩ : BufTy).Contents (Elt F) → (⟨S50000x64, .f32⟩ : BufTy).Contents (Elt F)),
    StableHlo.binary main_v79 main_v81 main_v82 (addf : (⟨S50000x64, .f32⟩ : BufTy).Contents (Elt F) → (⟨S50000x64, .f32⟩ : BufTy).Contents (Elt F) → (⟨S50000x64, .f32⟩ : BufTy).Contents (Elt F)),
    StableHlo.binary main_v82 main_arg8 main_v83 ((fun l r => Host.dotGeneral dot_S50000x64_S64x40_S50000x40_1_0_0_1_n_n none l r) : (⟨S50000x64, .f32⟩ : BufTy).Contents (Elt F) → (⟨S64x40, .f32⟩ : BufTy).Contents (Elt F) → (⟨S50000x40, .f32⟩ : BufTy).Contents (Elt F)),
    StableHlo.unary main_arg9 main_v84 (broadcastInDim S1x40 ![1] bcast_S40_S1x40_1 : (⟨S40, .f32⟩ : BufTy).Contents (Elt F) → (⟨S1x40, .f32⟩ : BufTy).Contents (Elt F)),
    StableHlo.unary main_v84 main_v85 (broadcastInDim S50000x40 ![0, 1] bcast_S1x40_S50000x40_0_1 : (⟨S1x40, .f32⟩ : BufTy).Contents (Elt F) → (⟨S50000x40, .f32⟩ : BufTy).Contents (Elt F)),
    StableHlo.binary main_v83 main_v85 main_v86 (addf : (⟨S50000x40, .f32⟩ : BufTy).Contents (Elt F) → (⟨S50000x40, .f32⟩ : BufTy).Contents (Elt F) → (⟨S50000x40, .f32⟩ : BufTy).Contents (Elt F)) ]

abbrev ops : List (HloOp τ sig (Elt F)) := (opsA ++ opsC1) ++ (opsC2 ++ opsC3)

theorem part0_eq (c : Dev nD) : main_part0 (F := F) c = seq (opsA ++ opsC1) := by
  chain_rfl

theorem part1_eq (c : Dev nD) : main_part1 (F := F) c = seq (opsC2 ++ opsC3) := by
  chain_rfl

theorem main_eq (c : Dev nD) : main (F := F) c = seq ops := by
  show main_part0 (F := F) c >>= (fun _ => main_part1 (F := F) c) = seq ((opsA ++ opsC1) ++ (opsC2 ++ opsC3))
  rw [part0_eq, part1_eq]
  exact (seq_append _ _).symm

theorem scopedRefs_eq : (Finset.univ.filter fun b : Ref sig .tc => b.isScoped) = ∅ := by decide
theorem scopedSems_eq : (Finset.univ.filter fun sm : SemLoc sig => sm.isScoped .tc) = ∅ := by decide

theorem forall_app {α : Type} {p : α → Prop} {l₁ l₂ : List α} (h₁ : l₁.Forall p) (h₂ : l₂.Forall p) : (l₁ ++ l₂).Forall p :=
  List.forall_iff_forall_mem.2 fun x hx =>
    (List.mem_append.1 hx).elim (List.forall_iff_forall_mem.1 h₁ x) (List.forall_iff_forall_mem.1 h₂ x)

theorem subA : (opsA (F := F)).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem subC1 : (opsC1 (F := F)).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub ..⟩
theorem subC2 : (opsC2 (F := F)).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub ..⟩
theorem subC3 : (opsC3 (F := F)).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub ..⟩
theorem ops_sub : (ops (F := F)).Forall fun op => op.bufs ⊆ tcRefs τ sig :=
  forall_app (forall_app subA subC1) (forall_app subC2 subC3)

theorem freshA : (opsA (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem freshC1 : (opsC1 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem freshC2 : (opsC2 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem freshC3 : (opsC3 (F := F)).Forall fun op => op.fresh = ∅ :=
  ⟨rfl, rfl, rfl, rfl, rfl, rfl, rfl, rfl, rfl, rfl, rfl, rfl, rfl, rfl, rfl, rfl, rfl, rfl, rfl, rfl, rfl, rfl, rfl⟩
theorem ops_fresh : ∀ op ∈ (ops (F := F)), op.fresh = ∅ :=
  List.forall_iff_forall_mem.1 (forall_app (forall_app freshA freshC1) (forall_app freshC2 freshC3))

theorem A_v5 (V : Valuation τ sig (Elt F)) : after opsA V (main_v5 : DevRef τ sig) = src2 (V (main_arg1 : DevRef τ sig)) := by
  after_results_simp <;> rfl
theorem A_v6 (V : Valuation τ sig (Elt F)) : after opsA V (main_v6 : DevRef τ sig) = dst2 (V (main_arg1 : DevRef τ sig)) := by
  after_results_simp <;> rfl
theorem A_v29 (V : Valuation τ sig (Elt F)) : after opsA V (main_v29 : DevRef τ sig) = norm (V (main_arg1 : DevRef τ sig)) := by
  after_results_simp <;> (try simp only [TRef.ofBuf, TRef.toBuf, cast_eq]) <;> rfl

abbrev argRefs : List (Ref sig .tc) :=
  [main_arg0, main_arg1, main_arg2, main_arg3, main_arg4, main_arg5, main_arg6, main_arg7, main_arg8, main_arg9]
/-- The edge vectors and the normalization, computed once and read by every layer. -/
abbrev carried : List (Ref sig .tc) := main_v5 :: main_v6 :: main_v29 :: argRefs

/-- No stretch of the program writes an argument, and none after the first writes the edge vectors or the normalization. -/
theorem A_keep (V : Valuation τ sig (Elt F)) (b : Ref sig .tc) (hb : b ∈ argRefs) : after opsA V (b : DevRef τ sig) = V (b : DevRef τ sig) := by
  fin_cases hb <;> repeat after_results_simp
theorem C1_keep (V : Valuation τ sig (Elt F)) (b : Ref sig .tc) (hb : b ∈ carried) : after opsC1 V (b : DevRef τ sig) = V (b : DevRef τ sig) := by
  fin_cases hb <;> repeat after_results_simp
theorem C2_keep (V : Valuation τ sig (Elt F)) (b : Ref sig .tc) (hb : b ∈ carried) : after opsC2 V (b : DevRef τ sig) = V (b : DevRef τ sig) := by
  fin_cases hb <;> repeat after_results_simp
theorem C3_keep (V : Valuation τ sig (Elt F)) (b : Ref sig .tc) (hb : b ∈ argRefs) : after opsC3 V (b : DevRef τ sig) = V (b : DevRef τ sig) := by
  fin_cases hb <;> repeat after_results_simp

theorem C1_out (V : Valuation τ sig (Elt F)) (a1 : IVec S2x800000 32) (h5 : V (main_v5 : DevRef τ sig) = src2 a1) (h6 : V (main_v6 : DevRef τ sig) = dst2 a1) (h29 : V (main_v29 : DevRef τ sig) = norm a1) :
    after opsC1 V (main_v48 : DevRef τ sig)
      = Host.dotGeneral dot_S50000x64_S64x64_S50000x64_1_0_0_1_n_n none (elu (conv a1 (Host.dotGeneral dot_S50000x128_S128x64_S50000x64_1_0_0_1_n_n none (V (main_arg0 : DevRef τ sig)) (V (main_arg2 : DevRef τ sig))) (V (main_arg3 : DevRef τ sig)))) (V (main_arg4 : DevRef τ sig)) := by
  after_results_simp <;> (try simp only [TRef.ofBuf, TRef.toBuf, cast_eq]) <;> rw [h5, h6, h29] <;> rfl

theorem C2_out (V : Valuation τ sig (Elt F)) (a1 : IVec S2x800000 32) (h5 : V (main_v5 : DevRef τ sig) = src2 a1) (h6 : V (main_v6 : DevRef τ sig) = dst2 a1) (h29 : V (main_v29 : DevRef τ sig) = norm a1) :
    after opsC2 V (main_v66 : DevRef τ sig)
      = Host.dotGeneral dot_S50000x64_S64x64_S50000x64_1_0_0_1_n_n none (elu (conv a1 (V (main_v48 : DevRef τ sig)) (V (main_arg5 : DevRef τ sig)))) (V (main_arg6 : DevRef τ sig)) := by
  after_results_simp <;> (try simp only [TRef.ofBuf, TRef.toBuf, cast_eq]) <;> rw [h5, h6, h29] <;> rfl

theorem C3_out (V : Valuation τ sig (Elt F)) (a1 : IVec S2x800000 32) (h5 : V (main_v5 : DevRef τ sig) = src2 a1) (h6 : V (main_v6 : DevRef τ sig) = dst2 a1) (h29 : V (main_v29 : DevRef τ sig) = norm a1) :
    after opsC3 V (main_v86 : DevRef τ sig)
      = addf (Host.dotGeneral dot_S50000x64_S64x40_S50000x40_1_0_0_1_n_n none (conv a1 (V (main_v66 : DevRef τ sig)) (V (main_arg7 : DevRef τ sig))) (V (main_arg8 : DevRef τ sig)))
          (broadcastInDim S50000x40 ![0, 1] bcast_S1x40_S50000x40_0_1 (broadcastInDim S1x40 ![1] bcast_S40_S1x40_1 (V (main_arg9 : DevRef τ sig)))) := by
  after_results_simp <;> rw [h5, h6, h29] <;> rfl

theorem out_eq (V : Valuation τ sig (Elt F)) :
    after ops V (main_v86 : DevRef τ sig)
      = res (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  have h1_5 := (C1_keep (after opsA V) _ (by decide)).trans (A_v5 V)
  have h1_6 := (C1_keep (after opsA V) _ (by decide)).trans (A_v6 V)
  have h1_29 := (C1_keep (after opsA V) _ (by decide)).trans (A_v29 V)
  have h2_5 := (C2_keep (after opsC1 (after opsA V)) _ (by decide)).trans h1_5
  have h2_6 := (C2_keep (after opsC1 (after opsA V)) _ (by decide)).trans h1_6
  have h2_29 := (C2_keep (after opsC1 (after opsA V)) _ (by decide)).trans h1_29
  show after ((opsA ++ opsC1) ++ (opsC2 ++ opsC3)) V _ = _
  rw [after_append, after_append, after_append,
    C3_out _ _ h2_5 h2_6 h2_29, C2_out _ _ h1_5 h1_6 h1_29, C1_out _ _ (A_v5 V) (A_v6 V) (A_v29 V)]
  simp (disch := decide) only [C2_keep, C1_keep, A_keep]
  rfl

theorem arg_eq (V : Valuation τ sig (Elt F)) (b : Ref sig .tc) (hb : b ∈ argRefs) : after ops V (b : DevRef τ sig) = V (b : DevRef τ sig) := by
  show after ((opsA ++ opsC1) ++ (opsC2 ++ opsC3)) V _ = _
  rw [after_append, after_append, after_append, C3_keep _ b hb, C2_keep _ b (List.mem_cons_of_mem _ (List.mem_cons_of_mem _ (List.mem_cons_of_mem _ hb))),
    C1_keep _ b (List.mem_cons_of_mem _ (List.mem_cons_of_mem _ (List.mem_cons_of_mem _ hb))), A_keep _ b hb]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v86) = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v86).trans (out_eq _),
      (h c main_arg0).trans (arg_eq _ _ (by decide)),
      (h c main_arg1).trans (arg_eq _ _ (by decide)),
      (h c main_arg2).trans (arg_eq _ _ (by decide)),
      (h c main_arg3).trans (arg_eq _ _ (by decide)),
      (h c main_arg4).trans (arg_eq _ _ (by decide)),
      (h c main_arg5).trans (arg_eq _ _ (by decide)),
      (h c main_arg6).trans (arg_eq _ _ (by decide)),
      (h c main_arg7).trans (arg_eq _ _ (by decide)),
      (h c main_arg8).trans (arg_eq _ _ (by decide)),
      (h c main_arg9).trans (arg_eq _ _ (by decide))⟩)
    (run_seq scopedRefs_eq scopedSems_eq defs main (fun _ => ops) main_eq (fun _ => ops_sub) m ρ (fun _ => ops_fresh))

end Cert.ReferenceIdeal.RefRun

end
-- ==== Proof.PreRange.lean ====
import proofs.«139829_j5566277616457_1_alg».proof.Pre_finite_inputs
import Idealize.ShloMosaic.Lib.ReduceAll
import Idealize.ShloMosaic.Lib.ValueIdx

noncomputable section

namespace Cert.PreRange

open Idealize.ShloMosaic Idealize.ShloMosaic.ValueIdx
open Cert.Pre_finite_inputs

variable [hFacts : Cert.Pre_finite_inputs.Facts]

def row0 (a1 : IVec S2x800000 32) : IVec S800000 32 :=
  shapeCast S800000 (extractStridedSlice S1x800000 ![0, 0] a1 Facts.slices_S2x800000_S1x800000_0_0)
    Facts.shapeCasts_S1x800000_S800000

theorem row0_apply (a1 : IVec S2x800000 32) (e : Fin 800000) : row0 a1 (ix1 e) = a1 (ix2 (0 : Fin 2) e) := by
  unfold row0 shapeCast extractStridedSlice
  have hk : Shape.reshapeEquiv Facts.shapeCasts_S1x800000_S800000 (ix1 e) = ix2 (0 : Fin 1) e := by
    apply Shape.reshapeEquiv_eq_of_rowMajor
    rw [Shape.rowMajor_val_two, Shape.rowMajor_val_one]
    show (0 : Nat) * 800000 + e.val = e.val
    omega
  rw [hk]
  refine congrArg a1 (funext fun a => Fin.ext ?_)
  match a with
  | ⟨0, _⟩ => rfl
  | ⟨1, _⟩ => show 0 + e.val = e.val; omega

theorem part3_all {F : FTy → Type} [FloatOps F] (v43 : IVec S_ 1) (v47 v51 : IVec S800000 1)
    (h : fn_part3 (F := F) v43 v47 v51 ix0 = 1#1) (i : S800000.Idx) : v47 i = 1#1 ∧ v51 i = 1#1 := by
  unfold fn_part3 at h
  have hred := (IntOp.andi_eq_one.1 h).2

  exact IntOp.andi_eq_one.1 (Host.reduce_andi_eq_one _ _ _ _ _ hred i (funext fun d => d.elim0))

theorem src_range {F : FTy → Type} [FloatOps F]
    (a0 : FVec F S50000x128 .f32) (a1 : IVec S2x800000 32) (a2 : FVec F S128x64 .f32) (a3 : FVec F S64 .f32)
    (a4 : FVec F S64x64 .f32) (a5 : FVec F S64 .f32) (a6 : FVec F S64x64 .f32) (a7 : FVec F S64 .f32)
    (a8 : FVec F S64x40 .f32) (a9 : FVec F S40 .f32)
    (h : Cert.Pre_finite_inputs.fn (F := F) a0 a1 a2 a3 a4 a5 a6 a7 a8 a9 = fun _ => 1#1) (e : Fin 800000) :
    0 ≤ (a1 (ix2 (0 : Fin 2) e)).toInt ∧ (a1 (ix2 (0 : Fin 2) e)).toInt < 50000 := by
  have h0 : fn (F := F) a0 a1 a2 a3 a4 a5 a6 a7 a8 a9 ix0 = 1#1 := congrFun h ix0

  have h3 : fn_part3 (F := F) _
      (cmpi .sge (row0 a1) (broadcastInDim S800000 ![] Facts.bcast_S_S800000 (constantI S_ 32 0#32)))
      (cmpi .slt (row0 a1) (broadcastInDim S800000 ![] Facts.bcast_S_S800000 (constantI S_ 32 50000#32))) ix0 = 1#1 := h0
  obtain ⟨hge, hlt⟩ := part3_all _ _ _ h3 (ix1 e)

  have hge' : IntOp.cmpi .sge (a1 (ix2 (0 : Fin 2) e)) 0#32 = 1#1 := by
    rw [← row0_apply a1 e]; exact hge
  have hlt' : IntOp.cmpi .slt (a1 (ix2 (0 : Fin 2) e)) 50000#32 = 1#1 := by
    rw [← row0_apply a1 e]; exact hlt
  have c0 : (0#32 : BitVec 32).toInt = 0 := by decide
  have c5 : (50000#32 : BitVec 32).toInt = 50000 := by decide
  have g := IntOp.cmpi_sge.1 hge'
  have l := IntOp.cmpi_slt.1 hlt'
  rw [c0] at g
  rw [c5] at l
  exact ⟨g, l⟩

theorem src_toNat_lt {F : FTy → Type} [FloatOps F]
    (a0 : FVec F S50000x128 .f32) (a1 : IVec S2x800000 32) (a2 : FVec F S128x64 .f32) (a3 : FVec F S64 .f32)
    (a4 : FVec F S64x64 .f32) (a5 : FVec F S64 .f32) (a6 : FVec F S64x64 .f32) (a7 : FVec F S64 .f32)
    (a8 : FVec F S64x40 .f32) (a9 : FVec F S40 .f32)
    (h : Cert.Pre_finite_inputs.fn (F := F) a0 a1 a2 a3 a4 a5 a6 a7 a8 a9 = fun _ => 1#1) (e : Fin 800000) :
    (a1 (ix2 (0 : Fin 2) e)).toNat < 50000 := by
  obtain ⟨g, l⟩ := src_range a0 a1 a2 a3 a4 a5 a6 a7 a8 a9 h e
  rw [BitVec.toInt_eq_toNat_cond] at g l
  split at g <;> omega

end Cert.PreRange

end
-- ==== Proof.GatherBody0.lean ====
import proofs.«139829_j5566277616457_1_alg».proof.Proof.Gen.KernelIdeal.Skeleton
import proofs.«139829_j5566277616457_1_alg».proof.Proof.Gen.KernelIdeal.Launch
import Idealize.ShloMosaic.Lib.Pipeline.Frame
import Idealize.ShloMosaic.Lib.Tactic
import Idealize.ShloMosaic.Lib.Pipeline.FrameBody
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev first0 (i : grid0.Coords) : Prop :=
  (Scalar.cmpi .ne (Scalar.extui (Scalar.cmpi .eq (BitVec.ofNat 32 (i 1).val) 0#32)) 0#32) = 1#1

abbrev last0 (i : grid0.Coords) : Prop := k0_cond2 i = 1#1

theorem gather0_hz : (![0, 0] : Fin 2 → Nat) = fun _ => 0 := funext fun a => by fin_cases a <;> rfl

/-- The running sum after a step: this step's product added to zeros at the first step of a run, else to the sum found. -/
abbrev gather0_acc (i : grid0.Coords) (x2 : Vec F S1x4096 .i32) (x3 : Vec F S1x4096 .f32) (x4 : Vec F S2000x64 .f32)
    (s : Vec F S4096x64 .f32) : FVec F S4096x64 .f32 :=
  k0_pay2 i x2 x3 x4 (if first0 i then k0_pay1 (F := F) else s)

set_option maxHeartbeats 1000000 in
/-- One step of the body: the scratch ends at the running sum, and at the last step of a run the output block at that sum cast. -/
theorem gather0_body (c : Dev nD) (E : Set ℕ) (i : grid0.Coords)
    (arg2 : Memref sig .tc .vmem S1x4096 .i32) (harg2 : arg2.IsWhole) (arg3 : Memref sig .tc .vmem S1x4096 .f32) (harg3 : arg3.IsWhole)
    (arg4 : Memref sig .tc .vmem S2000x64 .f32) (harg4 : arg4.IsWhole) (arg5 : Memref sig .tc .vmem S4096x64 .bf16) (harg5 : arg5.IsWhole)
    (arg6 : Memref sig .tc .vmem S4096x64 .f32) (harg6 : arg6.IsWhole) (hfl : first0 i → ¬last0 i)
    (x2 : Vec F S1x4096 .i32) (x3 : Vec F S1x4096 .f32) (x4 : Vec F S2000x64 .f32) (x5 : Vec F S4096x64 .bf16) (s : Vec F S4096x64 .f32)
    (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare s
        ∗ (iprop(owns (c : Thread nD τ) arg2 fullShare x2 ∗ owns (c : Thread nD τ) arg3 fullShare x3 ∗ owns (c : Thread nD τ) arg4 fullShare x4
            ∗ owns (c : Thread nD τ) arg5 fullShare (if last0 i then k0_pay3 (gather0_acc i x2 x3 x4 s) else x5)
            ∗ owns (c : Thread nD τ) arg6 fullShare (gather0_acc i x2 x3 x4 s)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel owns gather0_acc
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg6.eq_unread hf6
  by_cases hc0 : first0 i <;> by_cases hc1 : last0 i
  · exact absurd hc1 (hfl hc0)
  all_goals
    first | rw [if_pos hc0] | rw [if_neg hc0]
    first | rw [if_pos hc1] | rw [if_neg hc1]
    sl_exec (disch := first | exact hc0 | exact hc1)
    sl_step
    iapply Hk
    isplitl [H2]; · iexists _; isplitr; · ipureintro; exact harg2.read_unread _
                    iexact H2
    isplitl [H3]; · iexists _; isplitr; · ipureintro; exact harg3.read_unread _
                    iexact H3
    isplitl [H4]; · iexists _; isplitr; · ipureintro; exact harg4.read_unread _
                    iexact H4
    isplitl [H5]
    · first
      | (iexists f5; isplitr; · ipureintro; exact hf5
         iexact H5)
      | (iexists _; isplitr; swap; · iexact H5
         ipureintro; try sl_unfold_words
         rw [View.read_writes_eq_canon _ _ _ (fun y => ⟨_, List.Mem.head _, View.mem_set_unit_zero gather0_hz inb_S4096x64_S4096x64_0_0 y⟩)]
         simp only [View.canon_cons_unit_zero (S := S4096x64) gather0_hz, View.canon_unit_zero (S := S4096x64) gather0_hz,
           View.readCov_unit_zero (S := S4096x64) _ gather0_hz, View.readAt_eq_ld, harg2.read_unread, harg3.read_unread,
           harg4.read_unread, harg6.read_unread, View.ld_unit_zero (S := S1x4096) gather0_hz,
           View.ld_unit_zero (S := S2000x64) gather0_hz, View.ld_unit_zero (S := S4096x64) gather0_hz])
    iexists _; isplitr; swap; · iexact H6
    ipureintro; try sl_unfold_words
    rw [View.read_writes_eq_canon _ _ _ (fun y => ⟨_, List.Mem.head _, View.mem_set_unit_zero gather0_hz inb_S4096x64_S4096x64_0_0 y⟩)]
    simp only [View.canon_cons_unit_zero (S := S4096x64) gather0_hz, View.canon_unit_zero (S := S4096x64) gather0_hz,
      View.readCov_unit_zero (S := S4096x64) _ gather0_hz, View.readAt_eq_ld, harg2.read_unread, harg3.read_unread,
      harg4.read_unread, harg6.read_unread, View.ld_unit_zero (S := S1x4096) gather0_hz,
      View.ld_unit_zero (S := S2000x64) gather0_hz, View.ld_unit_zero (S := S4096x64) gather0_hz]

end Cert.KernelIdeal.Hand

end
-- ==== Proof.Reg0.lean ====
import proofs.«139829_j5566277616457_1_alg».proof.Proof.Gen.KernelIdeal.Skeleton
import proofs.«139829_j5566277616457_1_alg».proof.Proof.Gen.KernelIdeal.Launch
import proofs.«139829_j5566277616457_1_alg».proof.Proof.Gen.KernelIdeal.Points
import proofs.«139829_j5566277616457_1_alg».proof.Proof.GatherBody0
import Idealize.ShloMosaic.Lib.Pipeline.Frame
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running sum after point `n`: it restarts from zeros where the point's node-block coordinate is 0. -/
def accAt0 (c : Dev nD) : (n : ℕ) → n < cfg0.N → FVec F S4096x64 .f32
  | 0, hn => k0_pay2 (grid0.coords ⟨0, hn⟩) (iblk0 V c 0 ⟨0, hn⟩) (iblk0 V c 1 ⟨0, hn⟩) (iblk0 V c 2 ⟨0, hn⟩) (k0_pay1 (F := F))
  | n + 1, hn => k0_pay2 (grid0.coords ⟨n + 1, hn⟩) (iblk0 V c 0 ⟨n + 1, hn⟩) (iblk0 V c 1 ⟨n + 1, hn⟩) (iblk0 V c 2 ⟨n + 1, hn⟩)
      (if (n + 1) % 25 = 0 then (k0_pay1 (F := F)) else accAt0 c n (Nat.lt_of_succ_lt hn))

abbrev scM0 : Memref sig .tc .vmem S4096x64 .f32 := Memref.whole cc0_scratch0

/-- Before point `n` the scratch holds some sum, which after a point is that point's running sum. -/
def PhiS0 (c : Dev nD) (n : ℕ) (hn : n ≤ cfg0.N) : sProp 𝕄 :=
  iprop(((∃ s, ⌜∀ h : 0 < n, s = accAt0 V c (n - 1) (by omega)⌝ ∗ owns (c : Thread nD τ) scM0 fullShare s)
      ∗ Pipeline.scopedRestBut (Ix := Unit) (Name := ℕ) (U := UR sig nD τ) (Lvl := ℕ) (Val := Elt F) spec0 c [cc0_scratch0])
    ∗ (∃ r, prngReg c r))

/-- The region's proof data: the inputs keep their blocks, the output holds the running sum cast. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (accAt0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := rfl

theorem after0_3 (c : Dev nD) (t : Fin cfg0.N) : (dat0 V c).after 3 t = k0_pay3 (accAt0 V c t.val t.isLt) := rfl

/-- The two branch conditions in closed form, decided over the grid. -/
theorem hfirst0 : ∀ t : Fin cfg0.N, first0 (grid0.coords t) ↔ t.val % 25 = 0 :=
  (by decide +kernel : ∀ t : Fin grid0.N, first0 (grid0.coords t) ↔ t.val % 25 = 0)

theorem hlast0 : ∀ t : Fin cfg0.N, last0 (grid0.coords t) ↔ t.val % 25 = 24 :=
  (by decide +kernel : ∀ t : Fin grid0.N, last0 (grid0.coords t) ↔ t.val % 25 = 24)

theorem accAt0_first (c : Dev nD) (t : Fin cfg0.N) (h : t.val % 25 = 0) :
    accAt0 V c t.val t.isLt = k0_pay2 (grid0.coords t) (iblk0 V c 0 t) (iblk0 V c 1 t) (iblk0 V c 2 t) (k0_pay1 (F := F)) := by
  obtain ⟨n, hn⟩ := t
  cases n with
  | zero => rfl
  | succ n => exact congrArg (k0_pay2 _ _ _ _) (if_pos h)

theorem accAt0_next (c : Dev nD) (t : Fin cfg0.N) (h : ¬t.val % 25 = 0) :
    accAt0 V c t.val t.isLt = k0_pay2 (grid0.coords t) (iblk0 V c 0 t) (iblk0 V c 1 t) (iblk0 V c 2 t)
      (accAt0 V c (t.val - 1) (Nat.lt_of_le_of_lt (Nat.sub_le _ _) t.isLt)) := by
  obtain ⟨n, hn⟩ := t
  cases n with
  | zero => exact absurd (Nat.zero_mod _) h
  | succ n => exact congrArg (k0_pay2 _ _ _ _) (if_neg h)

/-- One step of the body's sum from what the invariant holds is the running sum: by the two unfoldings. -/
theorem accAt0_step (c : Dev nD) (t : Fin cfg0.N) (s : FVec F S4096x64 .f32)
    (hs : ∀ h : 0 < t.val, s = accAt0 V c (t.val - 1) (by omega)) :
    gather0_acc (grid0.coords t) (iblk0 V c 0 t) (iblk0 V c 1 t) (iblk0 V c 2 t) s = accAt0 V c t.val t.isLt := by
  unfold gather0_acc
  by_cases h0 : t.val % 25 = 0
  · rw [if_pos ((hfirst0 t).mpr h0), accAt0_first V c t h0]
  · rw [if_neg (mt (hfirst0 t).mp h0), accAt0_next V c t h0, hs (by omega)]

/-- The entry invariant with the scratch named. -/
theorem PhiA0_eq (c : Dev nD) :
    (Pipeline.ΦA spec0 c : sProp 𝕄)
      = iprop(iprop(iprop((∃ d, owns (c : Thread nD τ) scM0 fullShare d))
          ∗ Pipeline.scopedRestBut (Ix := Unit) (Name := ℕ) (U := UR sig nD τ) (Lvl := ℕ) (Val := Elt F) spec0 c [cc0_scratch0])
        ∗ (∃ r, prngReg c r)) := by
  unfold Pipeline.ΦA; rw [scopedRest0_split]; simp only [scM0, owns_whole]; try rfl

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

abbrev ms0_0 (t : Fin cfg0.N) : Memref sig .tc .vmem S1x4096 .i32 := win0_0.stage (cfg0.slots t 0)
abbrev ms0_1 (t : Fin cfg0.N) : Memref sig .tc .vmem S1x4096 .f32 := win0_1.stage (cfg0.slots t 1)
abbrev ms0_2 (t : Fin cfg0.N) : Memref sig .tc .vmem S2000x64 .f32 := win0_2.stage (cfg0.slots t 2)
abbrev ms0_3 (t : Fin cfg0.N) : Memref sig .tc .vmem S4096x64 .bf16 := win0_3.stage (cfg0.slots t 3)

/-- The body at any point: `gather0_body`, then the sum's unfolding and the output window's two cases. -/
theorem sound_body0 (c : Dev nD) (t : Fin cfg0.N) :
    iprop(PhiS0 V c t.val (Nat.le_of_lt t.isLt) ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d))
      ∗ (∃ d, owns (c : Thread nD τ) (ms0_3 t) fullShare ((dat0 V c).before 3 t d)))
    ⊢ wp frame (wpE (defs₀ (F := F)) Variants.none c none) Set.univ (bodyAt0 t) (fun _ =>
      iprop(PhiS0 V c (t.val + 1) t.isLt ∗ (dat0 V c).owesAt () t.castSucc
        ∗ owns (c : Thread nD τ) (ms0_0 t) fullShare (iblk0 V c 0 t)
        ∗ owns (c : Thread nD τ) (ms0_1 t) fullShare (iblk0 V c 1 t)
        ∗ owns (c : Thread nD τ) (ms0_2 t) fullShare (iblk0 V c 2 t)
        ∗ (dat0 V c).leavesExact 3 t)) := by
  simp only [before0_0, before0_1, before0_2]
  unfold PhiS0 bodyAt0
  iintro ⟨⟨⟨⟨%s, %hs, HS⟩, HR⟩, Hg⟩, Ho, ⟨%d0, H0⟩, ⟨%d1, H1⟩, ⟨%d2, H2⟩, ⟨%d3, H3⟩⟩
  iapply (gather0_body c Set.univ (grid0.coords t) (ms0_0 t) (hstage0_0 ((cfg0.slots t 0).cast nbuf0_0)) (ms0_1 t) (hstage0_1 ((cfg0.slots t 1).cast nbuf0_1))
    (ms0_2 t) (hstage0_2 ((cfg0.slots t 2).cast nbuf0_2)) (ms0_3 t) (hstage0_3 ((cfg0.slots t 3).cast nbuf0_3)) scM0 (Memref.isWhole_whole _)
    (fun h0 h1 => by have := (hfirst0 t).mp h0; have := (hlast0 t).mp h1; omega)
    (iblk0 V c 0 t) (iblk0 V c 1 t) (iblk0 V c 2 t) ((dat0 V c).before 3 t d3) s _)
  iframe H0 H1 H2 H3 HS
  iintro ⟨H0, H1, H2, H3, HS⟩
  rw [accAt0_step V c t s hs]
  iframe HR Hg Ho H0 H1 H2
  isplitl [HS]
  · iexists _; iframe; ipureintro; exact fun _ => rfl
  by_cases h1 : last0 (grid0.coords t)
  · rw [if_pos h1]; unfold Dat.leavesExact
    rw [show cfg0.idle 3 (grid0.coords t) = false from by
      show (!(k0_cond2 _ == 1#1)) = false; rw [Bool.not_eq_false', beq_iff_eq]; exact h1]
    iexact H3
  · rw [if_neg h1, Dat.leavesExact_idle (dat0 V c) 3 t
      (by show (!(k0_cond2 _ == 1#1)) = true; rw [Bool.not_eq_true', beq_eq_false_iff_ne]; exact h1)
      (Bool.eq_false_iff.mpr fun hf => h1 ((hlast0 t).mpr ((flush0_3 t).mp hf)))]
    iexists _; iexact H3

theorem body_obligation0 (c : Dev nD) : BodyObligation (dat0 (F := F) V c) (defs₀ (F := F)) Variants.none () Set.univ := fun t => by
  rw [bigSep_W0, bigSep_W0]
  exact sound_body0 V c t

/-- Before the first point nothing is claimed of the scratch's contents, -/
theorem hin0 (c : Dev nD) : Pipeline.ΦA spec0 c ⊢ (dat0 V c).Φ 0 := by
  rw [PhiA0_eq]; dsimp only [dat0, PhiS0]
  iintro ⟨⟨⟨%d, HS⟩, HR⟩, Hg⟩
  iframe HR Hg
  iexists d; iframe HS; ipureintro; exact fun h => absurd h (Nat.lt_irrefl _)

/-- and after the last they are forgotten. -/
theorem hout0 (c : Dev nD) : (dat0 V c).Φ (Fin.last cfg0.N) ⊢ Pipeline.ΦA spec0 c := by
  rw [PhiA0_eq]; dsimp only [dat0, PhiS0]
  iintro ⟨⟨⟨%s, -, HS⟩, HR⟩, Hg⟩
  iframe HR Hg
  iexists s; iexact HS

end Region

end Cert.KernelIdeal.Hand

end
-- ==== Proof.ScatterBody1.lean ====
import proofs.«139829_j5566277616457_1_alg».proof.Proof.Gen.KernelIdeal.Skeleton
import proofs.«139829_j5566277616457_1_alg».proof.Proof.Gen.KernelIdeal.Launch
import Idealize.ShloMosaic.Lib.Pipeline.Frame
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every access is at offset zero: of the whole block. -/
theorem scatter1_hz : (![0, 0] : Fin 2 → Nat) = fun _ => 0 := funext fun a => by fin_cases a <;> rfl

/-- A list of writes whose last is of the whole block covers the block. -/
theorem scatter1_cover (p : Vec F S2000x64 .f32) (L : List (View.Piece (Elt F) S2000x64 .f32)) (y : S2000x64.Idx) :
    ∃ pc ∈ ((⟨Rect.unit (s := S2000x64) ![0, 0] S2000x64.size Facts₀.inb_S2000x64_S2000x64_0_0, p⟩ : View.Piece (Elt F) S2000x64 .f32) :: L),
      y ∈ pc.1.set :=
  ⟨_, List.mem_cons_self .., View.mem_set_unit_zero scatter1_hz Facts₀.inb_S2000x64_S2000x64_0_0 y⟩

/-- The first, -/
abbrev first1 (i : grid1.Coords) : Prop :=
  (Scalar.cmpi .ne (Scalar.extui (Scalar.cmpi .eq (BitVec.ofNat 32 (i 1).val) 0#32)) 0#32) = 1#1
/-- and the last step of a reduction. -/
abbrev last1 (i : grid1.Coords) : Prop := k1_cond2 i = 1#1

/-- The body at any grid point: the scratch restarts at a first step, gains the step's product, and is copied out at a last step. -/
theorem scatter1 (c : Dev nD) (E : Set ℕ) (i : grid1.Coords)
    (arg2 : Memref sig .tc .vmem S1x4096 .i32) (harg2 : arg2.IsWhole) (arg3 : Memref sig .tc .vmem S4096x64 .bf16) (harg3 : arg3.IsWhole)
    (arg4 : Memref sig .tc .vmem S2000x64 .f32) (harg4 : arg4.IsWhole) (arg5 : Memref sig .tc .vmem S2000x64 .f32) (harg5 : arg5.IsWhole)
    (x2 : Vec F S1x4096 .i32) (x3 : Vec F S4096x64 .bf16) (x4 s : Vec F S2000x64 .f32) (K : PUnit → sProp 𝕄) :
    iprop(owns (c : Thread nD τ) arg2 fullShare x2 ∗ owns (c : Thread nD τ) arg3 fullShare x3
        ∗ owns (c : Thread nD τ) arg4 fullShare x4 ∗ owns (c : Thread nD τ) arg5 fullShare s
        ∗ (iprop(owns (c : Thread nD τ) arg2 fullShare x2 ∗ owns (c : Thread nD τ) arg3 fullShare x3
            ∗ owns (c : Thread nD τ) arg4 fullShare
                (if last1 i then k1_pay2 i x2 x3 (if first1 i then k1_pay1 (F := F) else s) else x4)
            ∗ owns (c : Thread nD τ) arg5 fullShare (k1_pay2 i x2 x3 (if first1 i then k1_pay1 (F := F) else s))) -∗ K ⟨⟩))
      ⊢ wp frame (wpE (defs₀ (F := F)) Variants.none c none) E (cc1_kernel i arg2 harg2 arg3 harg3 arg4 harg4 arg5 harg5) K := by
  by_cases hc0 : first1 i <;> by_cases hc1 : last1 i <;>
  · first | rw [if_pos hc0] | rw [if_neg hc0]
    first | rw [if_pos hc1] | rw [if_neg hc1]
    simp only [cc1_kernel_eq_skeleton]; unfold cc1_kernel_skel owns
    iintro ⟨⟨%f2, %hf2, H2⟩, ⟨%f3, %hf3, H3⟩, ⟨%f4, %hf4, H4⟩, ⟨%f5, %hf5, H5⟩, Hk⟩
    subst hf2 hf3 hf4 hf5
    sl_exec
    sl_step
    iapply Hk
    isplitl [H2]; · iexists _; iframe; ipureintro; rfl
    isplitl [H3]; · iexists _; iframe; ipureintro; rfl
    isplitl [H4] <;>
    · iexists _; iframe; ipureintro; sl_unfold_words
      simp only [View.read_writes_eq_canon _ _ _ (scatter1_cover _ _), View.readCov_eq_canon_ld _ _ _ (scatter1_cover _ _),
        View.canon_cons_unit_zero (S := S2000x64) scatter1_hz, View.readAt_eq_ld, View.ld_unit_zero (S := S1x4096) scatter1_hz,
        View.ld_unit_zero (S := S4096x64) scatter1_hz, View.ld_unit_zero (S := S2000x64) scatter1_hz]

end Cert.KernelIdeal.Hand

end
-- ==== Proof.Reg1.lean ====
import proofs.«139829_j5566277616457_1_alg».proof.Proof.Gen.KernelIdeal.Skeleton
import proofs.«139829_j5566277616457_1_alg».proof.Proof.Gen.KernelIdeal.Launch
import proofs.«139829_j5566277616457_1_alg».proof.Proof.Gen.KernelIdeal.Points
import proofs.«139829_j5566277616457_1_alg».proof.Proof.ScatterBody1
import Idealize.ShloMosaic.Lib.Pipeline.Frame
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The running sum after point `n`: it restarts from zeros where the point's edge-block coordinate is 0. -/
def accAt1 (c : Dev nD) : (n : ℕ) → n < cfg1.N → FVec F S2000x64 .f32
  | 0, hn => k1_pay2 (grid1.coords ⟨0, hn⟩) (iblk1 V c 0 ⟨0, hn⟩) (iblk1 V c 1 ⟨0, hn⟩) (k1_pay1 (F := F))
  | n + 1, hn => k1_pay2 (grid1.coords ⟨n + 1, hn⟩) (iblk1 V c 0 ⟨n + 1, hn⟩) (iblk1 V c 1 ⟨n + 1, hn⟩)
      (if (n + 1) % 208 = 0 then (k1_pay1 (F := F)) else accAt1 c n (Nat.lt_of_succ_lt hn))

abbrev scM1 : Memref sig .tc .vmem S2000x64 .f32 := Memref.whole cc1_scratch0

/-- Before point `n` the scratch holds some sum, which after a point is that point's running sum. -/
def PhiS1 (c : Dev nD) (n : ℕ) (hn : n ≤ cfg1.N) : sProp 𝕄 :=
  iprop(((∃ s, ⌜∀ h : 0 < n, s = accAt1 V c (n - 1) (by omega)⌝ ∗ owns (c : Thread nD τ) scM1 fullShare s)
      ∗ Pipeline.scopedRestBut (Ix := Unit) (Name := ℕ) (U := UR sig nD τ) (Lvl := ℕ) (Val := Elt F) spec1 c [cc1_scratch0])
    ∗ (∃ r, prngReg c r))

/-- The region's proof data: the inputs keep their blocks, the output holds the running sum. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := rfl

theorem after1_2 (c : Dev nD) (t : Fin cfg1.N) : (dat1 V c).after 2 t = accAt1 V c t.val t.isLt := rfl

/-- The two branch conditions in closed form, decided over the grid. -/
theorem hfirst1 : ∀ t : Fin cfg1.N, first1 (grid1.coords t) ↔ t.val % 208 = 0 :=
  (by decide +kernel : ∀ t : Fin grid1.N, first1 (grid1.coords t) ↔ t.val % 208 = 0)

theorem hlast1 : ∀ t : Fin cfg1.N, last1 (grid1.coords t) ↔ t.val % 208 = 207 :=
  (by decide +kernel : ∀ t : Fin grid1.N, last1 (grid1.coords t) ↔ t.val % 208 = 207)

theorem accAt1_first (c : Dev nD) (t : Fin cfg1.N) (h : t.val % 208 = 0) :
    accAt1 V c t.val t.isLt = k1_pay2 (grid1.coords t) (iblk1 V c 0 t) (iblk1 V c 1 t) (k1_pay1 (F := F)) := by
  obtain ⟨n, hn⟩ := t
  cases n with
  | zero => rfl
  | succ n => exact congrArg (k1_pay2 _ _ _) (if_pos h)

theorem accAt1_next (c : Dev nD) (t : Fin cfg1.N) (h : ¬t.val % 208 = 0) :
    accAt1 V c t.val t.isLt = k1_pay2 (grid1.coords t) (iblk1 V c 0 t) (iblk1 V c 1 t)
      (accAt1 V c (t.val - 1) (Nat.lt_of_le_of_lt (Nat.sub_le _ _) t.isLt)) := by
  obtain ⟨n, hn⟩ := t
  cases n with
  | zero => exact absurd (Nat.zero_mod _) h
  | succ n => exact congrArg (k1_pay2 _ _ _) (if_neg h)

/-- One step of the body's sum from what the invariant holds is the running sum: by the two unfoldings. -/
theorem accAt1_step (c : Dev nD) (t : Fin cfg1.N) (s : FVec F S2000x64 .f32)
    (hs : ∀ h : 0 < t.val, s = accAt1 V c (t.val - 1) (by omega)) :
    k1_pay2 (grid1.coords t) (iblk1 V c 0 t) (iblk1 V c 1 t) (if first1 (grid1.coords t) then k1_pay1 (F := F) else s)
      = accAt1 V c t.val t.isLt := by
  by_cases h0 : t.val % 208 = 0
  · rw [if_pos ((hfirst1 t).mpr h0), accAt1_first V c t h0]
  · rw [if_neg (mt (hfirst1 t).mp h0), accAt1_next V c t h0, hs (by omega)]

/-- The entry invariant with the scratch named. -/
theorem PhiA1_eq (c : Dev nD) :
    (Pipeline.ΦA spec1 c : sProp 𝕄)
      = iprop(iprop(iprop((∃ d, owns (c : Thread nD τ) scM1 fullShare d))
          ∗ Pipeline.scopedRestBut (Ix := Unit) (Name := ℕ) (U := UR sig nD τ) (Lvl := ℕ) (Val := Elt F) spec1 c [cc1_scratch0])
        ∗ (∃ r, prngReg c r)) := by
  unfold Pipeline.ΦA; rw [scopedRest1_split]; simp only [scM1, owns_whole]; try rfl

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d

abbrev ms1_0 (t : Fin cfg1.N) : Memref sig .tc .vmem S1x4096 .i32 := win1_0.stage (cfg1.slots t 0)
abbrev ms1_1 (t : Fin cfg1.N) : Memref sig .tc .vmem S4096x64 .bf16 := win1_1.stage (cfg1.slots t 1)
abbrev ms1_2 (t : Fin cfg1.N) : Memref sig .tc .vmem S2000x64 .f32 := win1_2.stage (cfg1.slots t 2)

/-- The body at any point: `scatter1`, then the sum's unfolding and the output window's two cases. -/
theorem sound_body1 (c : Dev nD) (t : Fin cfg1.N) :
    iprop(PhiS1 V c t.val (Nat.le_of_lt t.isLt) ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d)))
    ⊢ wp frame (wpE (defs₀ (F := F)) Variants.none c none) Set.univ (bodyAt1 t) (fun _ =>
      iprop(PhiS1 V c (t.val + 1) t.isLt ∗ (dat1 V c).owesAt () t.castSucc
        ∗ owns (c : Thread nD τ) (ms1_0 t) fullShare (iblk1 V c 0 t)
        ∗ owns (c : Thread nD τ) (ms1_1 t) fullShare (iblk1 V c 1 t)
        ∗ (dat1 V c).leavesExact 2 t)) := by
  simp only [before1_0, before1_1]
  unfold PhiS1 bodyAt1
  iintro ⟨⟨⟨⟨%s, %hs, HS⟩, HR⟩, Hg⟩, Ho, ⟨%d0, H0⟩, ⟨%d1, H1⟩, ⟨%d2, H2⟩⟩
  iapply (scatter1 c Set.univ (grid1.coords t) (ms1_0 t) (hstage1_0 ((cfg1.slots t 0).cast nbuf1_0)) (ms1_1 t) (hstage1_1 ((cfg1.slots t 1).cast nbuf1_1))
    (ms1_2 t) (hstage1_2 ((cfg1.slots t 2).cast nbuf1_2)) scM1 (Memref.isWhole_whole _) (iblk1 V c 0 t) (iblk1 V c 1 t) ((dat1 V c).before 2 t d2) s _)
  iframe H0 H1 H2 HS
  iintro ⟨H0, H1, H2, HS⟩
  rw [accAt1_step V c t s hs]
  iframe HR Hg Ho H0 H1
  isplitl [HS]
  · iexists _; iframe; ipureintro; exact fun _ => rfl
  by_cases h1 : last1 (grid1.coords t)
  · rw [if_pos h1]; unfold Dat.leavesExact
    rw [show cfg1.idle 2 (grid1.coords t) = false from by
      show (!(k1_cond2 _ == 1#1)) = false; rw [Bool.not_eq_false', beq_iff_eq]; exact h1]
    iexact H2
  · rw [if_neg h1, Dat.leavesExact_idle (dat1 V c) 2 t
      (by show (!(k1_cond2 _ == 1#1)) = true; rw [Bool.not_eq_true', beq_eq_false_iff_ne]; exact h1)
      (Bool.eq_false_iff.mpr fun hf => h1 ((hlast1 t).mpr ((flush1_2 t).mp hf)))]
    iexists _; iexact H2

theorem body_obligation1 (c : Dev nD) : BodyObligation (dat1 (F := F) V c) (defs₀ (F := F)) Variants.none () Set.univ := fun t => by
  rw [bigSep_W1, bigSep_W1]
  exact sound_body1 V c t

/-- Before the first point nothing is claimed of the scratch's contents, -/
theorem hin1 (c : Dev nD) : Pipeline.ΦA spec1 c ⊢ (dat1 V c).Φ 0 := by
  rw [PhiA1_eq]; dsimp only [dat1, PhiS1]
  iintro ⟨⟨⟨%d, HS⟩, HR⟩, Hg⟩
  iframe HR Hg
  iexists d; iframe HS; ipureintro; exact fun h => absurd h (Nat.lt_irrefl _)

/-- and after the last they are forgotten. -/
theorem hout1 (c : Dev nD) : (dat1 V c).Φ (Fin.last cfg1.N) ⊢ Pipeline.ΦA spec1 c := by
  rw [PhiA1_eq]; dsimp only [dat1, PhiS1]
  iintro ⟨⟨⟨%s, -, HS⟩, HR⟩, Hg⟩
  iframe HR Hg
  iexists s; iexact HS

end Region

end Cert.KernelIdeal.Hand

end
-- ==== Proof.Reg2.lean ====
import proofs.«139829_j5566277616457_1_alg».proof.Proof.Gen.KernelIdeal.Skeleton
import proofs.«139829_j5566277616457_1_alg».proof.Proof.Gen.KernelIdeal.Launch
import proofs.«139829_j5566277616457_1_alg».proof.Proof.Gen.KernelIdeal.Points
import proofs.«139829_j5566277616457_1_alg».proof.Proof.GatherBody0
import Idealize.ShloMosaic.Lib.Pipeline.Frame
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The running sum after point `n`: it restarts from zeros where the point's node-block coordinate is 0. -/
def accAt2 (c : Dev nD) : (n : ℕ) → n < cfg2.N → FVec F S4096x64 .f32
  | 0, hn => k0_pay2 (grid2.coords ⟨0, hn⟩) (iblk2 V c 0 ⟨0, hn⟩) (iblk2 V c 1 ⟨0, hn⟩) (iblk2 V c 2 ⟨0, hn⟩) (k0_pay1 (F := F))
  | n + 1, hn => k0_pay2 (grid2.coords ⟨n + 1, hn⟩) (iblk2 V c 0 ⟨n + 1, hn⟩) (iblk2 V c 1 ⟨n + 1, hn⟩) (iblk2 V c 2 ⟨n + 1, hn⟩)
      (if (n + 1) % 25 = 0 then (k0_pay1 (F := F)) else accAt2 c n (Nat.lt_of_succ_lt hn))

abbrev scM2 : Memref sig .tc .vmem S4096x64 .f32 := Memref.whole cc2_scratch0

/-- Before point `n` the scratch holds some sum, which after a point is that point's running sum. -/
def PhiS2 (c : Dev nD) (n : ℕ) (hn : n ≤ cfg2.N) : sProp 𝕄 :=
  iprop(((∃ s, ⌜∀ h : 0 < n, s = accAt2 V c (n - 1) (by omega)⌝ ∗ owns (c : Thread nD τ) scM2 fullShare s)
      ∗ Pipeline.scopedRestBut (Ix := Unit) (Name := ℕ) (U := UR sig nD τ) (Lvl := ℕ) (Val := Elt F) spec2 c [cc2_scratch0])
    ∗ (∃ r, prngReg c r))

/-- The region's proof data: the inputs keep their blocks, the output holds the running sum cast. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k0_pay3 (accAt2 V c t.val t.isLt)
  Φ t := PhiS2 V c t.val (Nat.le_of_lt_succ t.isLt)
  q _ := fullShare
  owed _ := 0

theorem A_eq2 (c : Dev nD) (w : Fin cfg2.W) : (dat2 V c).A w = V c (Pipeline.arrRef spec2 w) := rfl

theorem after2_3 (c : Dev nD) (t : Fin cfg2.N) : (dat2 V c).after 3 t = k0_pay3 (accAt2 V c t.val t.isLt) := rfl

/-- The two branch conditions in closed form, decided over the grid. -/
theorem hfirst2 : ∀ t : Fin cfg2.N, first0 (grid2.coords t) ↔ t.val % 25 = 0 :=
  (by decide +kernel : ∀ t : Fin grid2.N, first0 (grid2.coords t) ↔ t.val % 25 = 0)

theorem hlast2 : ∀ t : Fin cfg2.N, last0 (grid2.coords t) ↔ t.val % 25 = 24 :=
  (by decide +kernel : ∀ t : Fin grid2.N, last0 (grid2.coords t) ↔ t.val % 25 = 24)

theorem accAt2_first (c : Dev nD) (t : Fin cfg2.N) (h : t.val % 25 = 0) :
    accAt2 V c t.val t.isLt = k0_pay2 (grid2.coords t) (iblk2 V c 0 t) (iblk2 V c 1 t) (iblk2 V c 2 t) (k0_pay1 (F := F)) := by
  obtain ⟨n, hn⟩ := t
  cases n with
  | zero => rfl
  | succ n => exact congrArg (k0_pay2 _ _ _ _) (if_pos h)

theorem accAt2_next (c : Dev nD) (t : Fin cfg2.N) (h : ¬t.val % 25 = 0) :
    accAt2 V c t.val t.isLt = k0_pay2 (grid2.coords t) (iblk2 V c 0 t) (iblk2 V c 1 t) (iblk2 V c 2 t)
      (accAt2 V c (t.val - 1) (Nat.lt_of_le_of_lt (Nat.sub_le _ _) t.isLt)) := by
  obtain ⟨n, hn⟩ := t
  cases n with
  | zero => exact absurd (Nat.zero_mod _) h
  | succ n => exact congrArg (k0_pay2 _ _ _ _) (if_neg h)

/-- One step of the body's sum from what the invariant holds is the running sum: by the two unfoldings. -/
theorem accAt2_step (c : Dev nD) (t : Fin cfg2.N) (s : FVec F S4096x64 .f32)
    (hs : ∀ h : 0 < t.val, s = accAt2 V c (t.val - 1) (by omega)) :
    gather0_acc (grid2.coords t) (iblk2 V c 0 t) (iblk2 V c 1 t) (iblk2 V c 2 t) s = accAt2 V c t.val t.isLt := by
  unfold gather0_acc
  by_cases h0 : t.val % 25 = 0
  · rw [if_pos ((hfirst2 t).mpr h0), accAt2_first V c t h0]
  · rw [if_neg (mt (hfirst2 t).mp h0), accAt2_next V c t h0, hs (by omega)]

/-- The entry invariant with the scratch named. -/
theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := UR sig nD τ) (Lvl := ℕ) (Val := Elt F) spec2 c [cc2_scratch0])
        ∗ (∃ r, prngReg c r)) := by
  unfold Pipeline.ΦA; rw [scopedRest2_split]; simp only [scM2, owns_whole]; try rfl

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

abbrev ms2_0 (t : Fin cfg2.N) : Memref sig .tc .vmem S1x4096 .i32 := win2_0.stage (cfg2.slots t 0)
abbrev ms2_1 (t : Fin cfg2.N) : Memref sig .tc .vmem S1x4096 .f32 := win2_1.stage (cfg2.slots t 1)
abbrev ms2_2 (t : Fin cfg2.N) : Memref sig .tc .vmem S2000x64 .f32 := win2_2.stage (cfg2.slots t 2)
abbrev ms2_3 (t : Fin cfg2.N) : Memref sig .tc .vmem S4096x64 .bf16 := win2_3.stage (cfg2.slots t 3)

/-- The body at any point: `gather0_body`, then the sum's unfolding and the output window's two cases. -/
theorem sound_body2 (c : Dev nD) (t : Fin cfg2.N) :
    iprop(PhiS2 V c t.val (Nat.le_of_lt t.isLt) ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d))
      ∗ (∃ d, owns (c : Thread nD τ) (ms2_3 t) fullShare ((dat2 V c).before 3 t d)))
    ⊢ wp frame (wpE (defs₀ (F := F)) Variants.none c none) Set.univ (bodyAt2 t) (fun _ =>
      iprop(PhiS2 V c (t.val + 1) t.isLt ∗ (dat2 V c).owesAt () t.castSucc
        ∗ owns (c : Thread nD τ) (ms2_0 t) fullShare (iblk2 V c 0 t)
        ∗ owns (c : Thread nD τ) (ms2_1 t) fullShare (iblk2 V c 1 t)
        ∗ owns (c : Thread nD τ) (ms2_2 t) fullShare (iblk2 V c 2 t)
        ∗ (dat2 V c).leavesExact 3 t)) := by
  simp only [before2_0, before2_1, before2_2]
  unfold PhiS2 bodyAt2
  iintro ⟨⟨⟨⟨%s, %hs, HS⟩, HR⟩, Hg⟩, Ho, ⟨%d0, H0⟩, ⟨%d1, H1⟩, ⟨%d2, H2⟩, ⟨%d3, H3⟩⟩
  iapply (gather0_body c Set.univ (grid2.coords t) (ms2_0 t) (hstage2_0 ((cfg2.slots t 0).cast nbuf2_0)) (ms2_1 t) (hstage2_1 ((cfg2.slots t 1).cast nbuf2_1))
    (ms2_2 t) (hstage2_2 ((cfg2.slots t 2).cast nbuf2_2)) (ms2_3 t) (hstage2_3 ((cfg2.slots t 3).cast nbuf2_3)) scM2 (Memref.isWhole_whole _)
    (fun h0 h1 => by have := (hfirst2 t).mp h0; have := (hlast2 t).mp h1; omega)
    (iblk2 V c 0 t) (iblk2 V c 1 t) (iblk2 V c 2 t) ((dat2 V c).before 3 t d3) s _)
  iframe H0 H1 H2 H3 HS
  iintro ⟨H0, H1, H2, H3, HS⟩
  rw [accAt2_step V c t s hs]
  iframe HR Hg Ho H0 H1 H2
  isplitl [HS]
  · iexists _; iframe; ipureintro; exact fun _ => rfl
  by_cases h1 : last0 (grid2.coords t)
  · rw [if_pos h1]; unfold Dat.leavesExact
    rw [show cfg2.idle 3 (grid2.coords t) = false from by
      show (!(k0_cond2 _ == 1#1)) = false; rw [Bool.not_eq_false', beq_iff_eq]; exact h1]
    iexact H3
  · rw [if_neg h1, Dat.leavesExact_idle (dat2 V c) 3 t
      (by show (!(k0_cond2 _ == 1#1)) = true; rw [Bool.not_eq_true', beq_eq_false_iff_ne]; exact h1)
      (Bool.eq_false_iff.mpr fun hf => h1 ((hlast2 t).mpr ((flush2_3 t).mp hf)))]
    iexists _; iexact H3

theorem body_obligation2 (c : Dev nD) : BodyObligation (dat2 (F := F) V c) (defs₀ (F := F)) Variants.none () Set.univ := fun t => by
  rw [bigSep_W2, bigSep_W2]
  exact sound_body2 V c t

/-- Before the first point nothing is claimed of the scratch's contents, -/
theorem hin2 (c : Dev nD) : Pipeline.ΦA spec2 c ⊢ (dat2 V c).Φ 0 := by
  rw [PhiA2_eq]; dsimp only [dat2, PhiS2]
  iintro ⟨⟨⟨%d, HS⟩, HR⟩, Hg⟩
  iframe HR Hg
  iexists d; iframe HS; ipureintro; exact fun h => absurd h (Nat.lt_irrefl _)

/-- and after the last they are forgotten. -/
theorem hout2 (c : Dev nD) : (dat2 V c).Φ (Fin.last cfg2.N) ⊢ Pipeline.ΦA spec2 c := by
  rw [PhiA2_eq]; dsimp only [dat2, PhiS2]
  iintro ⟨⟨⟨%s, -, HS⟩, HR⟩, Hg⟩
  iframe HR Hg
  iexists s; iexact HS

end Region

end Cert.KernelIdeal.Hand

end
-- ==== Proof.Reg3.lean ====
import proofs.«139829_j5566277616457_1_alg».proof.Proof.Gen.KernelIdeal.Skeleton
import proofs.«139829_j5566277616457_1_alg».proof.Proof.Gen.KernelIdeal.Launch
import proofs.«139829_j5566277616457_1_alg».proof.Proof.Gen.KernelIdeal.Points
import proofs.«139829_j5566277616457_1_alg».proof.Proof.ScatterBody1
import Idealize.ShloMosaic.Lib.Pipeline.Frame
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The running sum after point `n`: it restarts from zeros where the point's edge-block coordinate is 0. -/
def accAt3 (c : Dev nD) : (n : ℕ) → n < cfg3.N → FVec F S2000x64 .f32
  | 0, hn => k1_pay2 (grid3.coords ⟨0, hn⟩) (iblk3 V c 0 ⟨0, hn⟩) (iblk3 V c 1 ⟨0, hn⟩) (k1_pay1 (F := F))
  | n + 1, hn => k1_pay2 (grid3.coords ⟨n + 1, hn⟩) (iblk3 V c 0 ⟨n + 1, hn⟩) (iblk3 V c 1 ⟨n + 1, hn⟩)
      (if (n + 1) % 208 = 0 then (k1_pay1 (F := F)) else accAt3 c n (Nat.lt_of_succ_lt hn))

abbrev scM3 : Memref sig .tc .vmem S2000x64 .f32 := Memref.whole cc3_scratch0

/-- Before point `n` the scratch holds some sum, which after a point is that point's running sum. -/
def PhiS3 (c : Dev nD) (n : ℕ) (hn : n ≤ cfg3.N) : sProp 𝕄 :=
  iprop(((∃ s, ⌜∀ h : 0 < n, s = accAt3 V c (n - 1) (by omega)⌝ ∗ owns (c : Thread nD τ) scM3 fullShare s)
      ∗ Pipeline.scopedRestBut (Ix := Unit) (Name := ℕ) (U := UR sig nD τ) (Lvl := ℕ) (Val := Elt F) spec3 c [cc3_scratch0])
    ∗ (∃ r, prngReg c r))

/-- The region's proof data: the inputs keep their blocks, the output holds the running sum. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => accAt3 V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := rfl

theorem after3_2 (c : Dev nD) (t : Fin cfg3.N) : (dat3 V c).after 2 t = accAt3 V c t.val t.isLt := rfl

/-- The two branch conditions in closed form, decided over the grid. -/
theorem hfirst3 : ∀ t : Fin cfg3.N, first1 (grid3.coords t) ↔ t.val % 208 = 0 :=
  (by decide +kernel : ∀ t : Fin grid3.N, first1 (grid3.coords t) ↔ t.val % 208 = 0)

theorem hlast3 : ∀ t : Fin cfg3.N, last1 (grid3.coords t) ↔ t.val % 208 = 207 :=
  (by decide +kernel : ∀ t : Fin grid3.N, last1 (grid3.coords t) ↔ t.val % 208 = 207)

theorem accAt3_first (c : Dev nD) (t : Fin cfg3.N) (h : t.val % 208 = 0) :
    accAt3 V c t.val t.isLt = k1_pay2 (grid3.coords t) (iblk3 V c 0 t) (iblk3 V c 1 t) (k1_pay1 (F := F)) := by
  obtain ⟨n, hn⟩ := t
  cases n with
  | zero => rfl
  | succ n => exact congrArg (k1_pay2 _ _ _) (if_pos h)

theorem accAt3_next (c : Dev nD) (t : Fin cfg3.N) (h : ¬t.val % 208 = 0) :
    accAt3 V c t.val t.isLt = k1_pay2 (grid3.coords t) (iblk3 V c 0 t) (iblk3 V c 1 t)
      (accAt3 V c (t.val - 1) (Nat.lt_of_le_of_lt (Nat.sub_le _ _) t.isLt)) := by
  obtain ⟨n, hn⟩ := t
  cases n with
  | zero => exact absurd (Nat.zero_mod _) h
  | succ n => exact congrArg (k1_pay2 _ _ _) (if_neg h)

/-- One step of the body's sum from what the invariant holds is the running sum: by the two unfoldings. -/
theorem accAt3_step (c : Dev nD) (t : Fin cfg3.N) (s : FVec F S2000x64 .f32)
    (hs : ∀ h : 0 < t.val, s = accAt3 V c (t.val - 1) (by omega)) :
    k1_pay2 (grid3.coords t) (iblk3 V c 0 t) (iblk3 V c 1 t) (if first1 (grid3.coords t) then k1_pay1 (F := F) else s)
      = accAt3 V c t.val t.isLt := by
  by_cases h0 : t.val % 208 = 0
  · rw [if_pos ((hfirst3 t).mpr h0), accAt3_first V c t h0]
  · rw [if_neg (mt (hfirst3 t).mp h0), accAt3_next V c t h0, hs (by omega)]

/-- The entry invariant with the scratch named. -/
theorem PhiA3_eq (c : Dev nD) :
    (Pipeline.ΦA spec3 c : sProp 𝕄)
      = iprop(iprop(iprop((∃ d, owns (c : Thread nD τ) scM3 fullShare d))
          ∗ Pipeline.scopedRestBut (Ix := Unit) (Name := ℕ) (U := UR sig nD τ) (Lvl := ℕ) (Val := Elt F) spec3 c [cc3_scratch0])
        ∗ (∃ r, prngReg c r)) := by
  unfold Pipeline.ΦA; rw [scopedRest3_split]; simp only [scM3, owns_whole]; try rfl

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

abbrev ms3_0 (t : Fin cfg3.N) : Memref sig .tc .vmem S1x4096 .i32 := win3_0.stage (cfg3.slots t 0)
abbrev ms3_1 (t : Fin cfg3.N) : Memref sig .tc .vmem S4096x64 .bf16 := win3_1.stage (cfg3.slots t 1)
abbrev ms3_2 (t : Fin cfg3.N) : Memref sig .tc .vmem S2000x64 .f32 := win3_2.stage (cfg3.slots t 2)

/-- The body at any point: `scatter1`, then the sum's unfolding and the output window's two cases. -/
theorem sound_body3 (c : Dev nD) (t : Fin cfg3.N) :
    iprop(PhiS3 V c t.val (Nat.le_of_lt t.isLt) ∗ (dat3 V c).owesAt () t.castSucc
      ∗ (∃ d, owns (c : Thread nD τ) (ms3_0 t) fullShare ((dat3 V c).before 0 t d))
      ∗ (∃ d, owns (c : Thread nD τ) (ms3_1 t) fullShare ((dat3 V c).before 1 t d))
      ∗ (∃ d, owns (c : Thread nD τ) (ms3_2 t) fullShare ((dat3 V c).before 2 t d)))
    ⊢ wp frame (wpE (defs₀ (F := F)) Variants.none c none) Set.univ (bodyAt3 t) (fun _ =>
      iprop(PhiS3 V c (t.val + 1) t.isLt ∗ (dat3 V c).owesAt () t.castSucc
        ∗ owns (c : Thread nD τ) (ms3_0 t) fullShare (iblk3 V c 0 t)
        ∗ owns (c : Thread nD τ) (ms3_1 t) fullShare (iblk3 V c 1 t)
        ∗ (dat3 V c).leavesExact 2 t)) := by
  simp only [before3_0, before3_1]
  unfold PhiS3 bodyAt3
  iintro ⟨⟨⟨⟨%s, %hs, HS⟩, HR⟩, Hg⟩, Ho, ⟨%d0, H0⟩, ⟨%d1, H1⟩, ⟨%d2, H2⟩⟩
  iapply (scatter1 c Set.univ (grid3.coords t) (ms3_0 t) (hstage3_0 ((cfg3.slots t 0).cast nbuf3_0)) (ms3_1 t) (hstage3_1 ((cfg3.slots t 1).cast nbuf3_1))
    (ms3_2 t) (hstage3_2 ((cfg3.slots t 2).cast nbuf3_2)) scM3 (Memref.isWhole_whole _) (iblk3 V c 0 t) (iblk3 V c 1 t) ((dat3 V c).before 2 t d2) s _)
  iframe H0 H1 H2 HS
  iintro ⟨H0, H1, H2, HS⟩
  rw [accAt3_step V c t s hs]
  iframe HR Hg Ho H0 H1
  isplitl [HS]
  · iexists _; iframe; ipureintro; exact fun _ => rfl
  by_cases h1 : last1 (grid3.coords t)
  · rw [if_pos h1]; unfold Dat.leavesExact
    rw [show cfg3.idle 2 (grid3.coords t) = false from by
      show (!(k1_cond2 _ == 1#1)) = false; rw [Bool.not_eq_false', beq_iff_eq]; exact h1]
    iexact H2
  · rw [if_neg h1, Dat.leavesExact_idle (dat3 V c) 2 t
      (by show (!(k1_cond2 _ == 1#1)) = true; rw [Bool.not_eq_true', beq_eq_false_iff_ne]; exact h1)
      (Bool.eq_false_iff.mpr fun hf => h1 ((hlast3 t).mpr ((flush3_2 t).mp hf)))]
    iexists _; iexact H2

theorem body_obligation3 (c : Dev nD) : BodyObligation (dat3 (F := F) V c) (defs₀ (F := F)) Variants.none () Set.univ := fun t => by
  rw [bigSep_W3, bigSep_W3]
  exact sound_body3 V c t

/-- Before the first point nothing is claimed of the scratch's contents, -/
theorem hin3 (c : Dev nD) : Pipeline.ΦA spec3 c ⊢ (dat3 V c).Φ 0 := by
  rw [PhiA3_eq]; dsimp only [dat3, PhiS3]
  iintro ⟨⟨⟨%d, HS⟩, HR⟩, Hg⟩
  iframe HR Hg
  iexists d; iframe HS; ipureintro; exact fun h => absurd h (Nat.lt_irrefl _)

/-- and after the last they are forgotten. -/
theorem hout3 (c : Dev nD) : (dat3 V c).Φ (Fin.last cfg3.N) ⊢ Pipeline.ΦA spec3 c := by
  rw [PhiA3_eq]; dsimp only [dat3, PhiS3]
  iintro ⟨⟨⟨%s, -, HS⟩, HR⟩, Hg⟩
  iframe HR Hg
  iexists s; iexact HS

end Region

end Cert.KernelIdeal.Hand

end
-- ==== Proof.Reg4.lean ====
import proofs.«139829_j5566277616457_1_alg».proof.Proof.Gen.KernelIdeal.Skeleton
import proofs.«139829_j5566277616457_1_alg».proof.Proof.Gen.KernelIdeal.Launch
import proofs.«139829_j5566277616457_1_alg».proof.Proof.Gen.KernelIdeal.Points
import proofs.«139829_j5566277616457_1_alg».proof.Proof.GatherBody0
import Idealize.ShloMosaic.Lib.Pipeline.Frame
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The running sum after point `n`: it restarts from zeros where the point's node-block coordinate is 0. -/
def accAt4 (c : Dev nD) : (n : ℕ) → n < cfg4.N → FVec F S4096x64 .f32
  | 0, hn => k0_pay2 (grid4.coords ⟨0, hn⟩) (iblk4 V c 0 ⟨0, hn⟩) (iblk4 V c 1 ⟨0, hn⟩) (iblk4 V c 2 ⟨0, hn⟩) (k0_pay1 (F := F))
  | n + 1, hn => k0_pay2 (grid4.coords ⟨n + 1, hn⟩) (iblk4 V c 0 ⟨n + 1, hn⟩) (iblk4 V c 1 ⟨n + 1, hn⟩) (iblk4 V c 2 ⟨n + 1, hn⟩)
      (if (n + 1) % 25 = 0 then (k0_pay1 (F := F)) else accAt4 c n (Nat.lt_of_succ_lt hn))

abbrev scM4 : Memref sig .tc .vmem S4096x64 .f32 := Memref.whole cc4_scratch0

/-- Before point `n` the scratch holds some sum, which after a point is that point's running sum. -/
def PhiS4 (c : Dev nD) (n : ℕ) (hn : n ≤ cfg4.N) : sProp 𝕄 :=
  iprop(((∃ s, ⌜∀ h : 0 < n, s = accAt4 V c (n - 1) (by omega)⌝ ∗ owns (c : Thread nD τ) scM4 fullShare s)
      ∗ Pipeline.scopedRestBut (Ix := Unit) (Name := ℕ) (U := UR sig nD τ) (Lvl := ℕ) (Val := Elt F) spec4 c [cc4_scratch0])
    ∗ (∃ r, prngReg c r))

/-- The region's proof data: the inputs keep their blocks, the output holds the running sum cast. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k0_pay3 (accAt4 V c t.val t.isLt)
  Φ t := PhiS4 V c t.val (Nat.le_of_lt_succ t.isLt)
  q _ := fullShare
  owed _ := 0

theorem A_eq4 (c : Dev nD) (w : Fin cfg4.W) : (dat4 V c).A w = V c (Pipeline.arrRef spec4 w) := rfl

theorem after4_3 (c : Dev nD) (t : Fin cfg4.N) : (dat4 V c).after 3 t = k0_pay3 (accAt4 V c t.val t.isLt) := rfl

/-- The two branch conditions in closed form, decided over the grid. -/
theorem hfirst4 : ∀ t : Fin cfg4.N, first0 (grid4.coords t) ↔ t.val % 25 = 0 :=
  (by decide +kernel : ∀ t : Fin grid4.N, first0 (grid4.coords t) ↔ t.val % 25 = 0)

theorem hlast4 : ∀ t : Fin cfg4.N, last0 (grid4.coords t) ↔ t.val % 25 = 24 :=
  (by decide +kernel : ∀ t : Fin grid4.N, last0 (grid4.coords t) ↔ t.val % 25 = 24)

theorem accAt4_first (c : Dev nD) (t : Fin cfg4.N) (h : t.val % 25 = 0) :
    accAt4 V c t.val t.isLt = k0_pay2 (grid4.coords t) (iblk4 V c 0 t) (iblk4 V c 1 t) (iblk4 V c 2 t) (k0_pay1 (F := F)) := by
  obtain ⟨n, hn⟩ := t
  cases n with
  | zero => rfl
  | succ n => exact congrArg (k0_pay2 _ _ _ _) (if_pos h)

theorem accAt4_next (c : Dev nD) (t : Fin cfg4.N) (h : ¬t.val % 25 = 0) :
    accAt4 V c t.val t.isLt = k0_pay2 (grid4.coords t) (iblk4 V c 0 t) (iblk4 V c 1 t) (iblk4 V c 2 t)
      (accAt4 V c (t.val - 1) (Nat.lt_of_le_of_lt (Nat.sub_le _ _) t.isLt)) := by
  obtain ⟨n, hn⟩ := t
  cases n with
  | zero => exact absurd (Nat.zero_mod _) h
  | succ n => exact congrArg (k0_pay2 _ _ _ _) (if_neg h)

/-- One step of the body's sum from what the invariant holds is the running sum: by the two unfoldings. -/
theorem accAt4_step (c : Dev nD) (t : Fin cfg4.N) (s : FVec F S4096x64 .f32)
    (hs : ∀ h : 0 < t.val, s = accAt4 V c (t.val - 1) (by omega)) :
    gather0_acc (grid4.coords t) (iblk4 V c 0 t) (iblk4 V c 1 t) (iblk4 V c 2 t) s = accAt4 V c t.val t.isLt := by
  unfold gather0_acc
  by_cases h0 : t.val % 25 = 0
  · rw [if_pos ((hfirst4 t).mpr h0), accAt4_first V c t h0]
  · rw [if_neg (mt (hfirst4 t).mp h0), accAt4_next V c t h0, hs (by omega)]

/-- The entry invariant with the scratch named. -/
theorem PhiA4_eq (c : Dev nD) :
    (Pipeline.ΦA spec4 c : sProp 𝕄)
      = iprop(iprop(iprop((∃ d, owns (c : Thread nD τ) scM4 fullShare d))
          ∗ Pipeline.scopedRestBut (Ix := Unit) (Name := ℕ) (U := UR sig nD τ) (Lvl := ℕ) (Val := Elt F) spec4 c [cc4_scratch0])
        ∗ (∃ r, prngReg c r)) := by
  unfold Pipeline.ΦA; rw [scopedRest4_split]; simp only [scM4, owns_whole]; try rfl

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d

abbrev ms4_0 (t : Fin cfg4.N) : Memref sig .tc .vmem S1x4096 .i32 := win4_0.stage (cfg4.slots t 0)
abbrev ms4_1 (t : Fin cfg4.N) : Memref sig .tc .vmem S1x4096 .f32 := win4_1.stage (cfg4.slots t 1)
abbrev ms4_2 (t : Fin cfg4.N) : Memref sig .tc .vmem S2000x64 .f32 := win4_2.stage (cfg4.slots t 2)
abbrev ms4_3 (t : Fin cfg4.N) : Memref sig .tc .vmem S4096x64 .bf16 := win4_3.stage (cfg4.slots t 3)

/-- The body at any point: `gather0_body`, then the sum's unfolding and the output window's two cases. -/
theorem sound_body4 (c : Dev nD) (t : Fin cfg4.N) :
    iprop(PhiS4 V c t.val (Nat.le_of_lt t.isLt) ∗ (dat4 V c).owesAt () t.castSucc
      ∗ (∃ d, owns (c : Thread nD τ) (ms4_0 t) fullShare ((dat4 V c).before 0 t d))
      ∗ (∃ d, owns (c : Thread nD τ) (ms4_1 t) fullShare ((dat4 V c).before 1 t d))
      ∗ (∃ d, owns (c : Thread nD τ) (ms4_2 t) fullShare ((dat4 V c).before 2 t d))
      ∗ (∃ d, owns (c : Thread nD τ) (ms4_3 t) fullShare ((dat4 V c).before 3 t d)))
    ⊢ wp frame (wpE (defs₀ (F := F)) Variants.none c none) Set.univ (bodyAt4 t) (fun _ =>
      iprop(PhiS4 V c (t.val + 1) t.isLt ∗ (dat4 V c).owesAt () t.castSucc
        ∗ owns (c : Thread nD τ) (ms4_0 t) fullShare (iblk4 V c 0 t)
        ∗ owns (c : Thread nD τ) (ms4_1 t) fullShare (iblk4 V c 1 t)
        ∗ owns (c : Thread nD τ) (ms4_2 t) fullShare (iblk4 V c 2 t)
        ∗ (dat4 V c).leavesExact 3 t)) := by
  simp only [before4_0, before4_1, before4_2]
  unfold PhiS4 bodyAt4
  iintro ⟨⟨⟨⟨%s, %hs, HS⟩, HR⟩, Hg⟩, Ho, ⟨%d0, H0⟩, ⟨%d1, H1⟩, ⟨%d2, H2⟩, ⟨%d3, H3⟩⟩
  iapply (gather0_body c Set.univ (grid4.coords t) (ms4_0 t) (hstage4_0 ((cfg4.slots t 0).cast nbuf4_0)) (ms4_1 t) (hstage4_1 ((cfg4.slots t 1).cast nbuf4_1))
    (ms4_2 t) (hstage4_2 ((cfg4.slots t 2).cast nbuf4_2)) (ms4_3 t) (hstage4_3 ((cfg4.slots t 3).cast nbuf4_3)) scM4 (Memref.isWhole_whole _)
    (fun h0 h1 => by have := (hfirst4 t).mp h0; have := (hlast4 t).mp h1; omega)
    (iblk4 V c 0 t) (iblk4 V c 1 t) (iblk4 V c 2 t) ((dat4 V c).before 3 t d3) s _)
  iframe H0 H1 H2 H3 HS
  iintro ⟨H0, H1, H2, H3, HS⟩
  rw [accAt4_step V c t s hs]
  iframe HR Hg Ho H0 H1 H2
  isplitl [HS]
  · iexists _; iframe; ipureintro; exact fun _ => rfl
  by_cases h1 : last0 (grid4.coords t)
  · rw [if_pos h1]; unfold Dat.leavesExact
    rw [show cfg4.idle 3 (grid4.coords t) = false from by
      show (!(k0_cond2 _ == 1#1)) = false; rw [Bool.not_eq_false', beq_iff_eq]; exact h1]
    iexact H3
  · rw [if_neg h1, Dat.leavesExact_idle (dat4 V c) 3 t
      (by show (!(k0_cond2 _ == 1#1)) = true; rw [Bool.not_eq_true', beq_eq_false_iff_ne]; exact h1)
      (Bool.eq_false_iff.mpr fun hf => h1 ((hlast4 t).mpr ((flush4_3 t).mp hf)))]
    iexists _; iexact H3

theorem body_obligation4 (c : Dev nD) : BodyObligation (dat4 (F := F) V c) (defs₀ (F := F)) Variants.none () Set.univ := fun t => by
  rw [bigSep_W4, bigSep_W4]
  exact sound_body4 V c t

/-- Before the first point nothing is claimed of the scratch's contents, -/
theorem hin4 (c : Dev nD) : Pipeline.ΦA spec4 c ⊢ (dat4 V c).Φ 0 := by
  rw [PhiA4_eq]; dsimp only [dat4, PhiS4]
  iintro ⟨⟨⟨%d, HS⟩, HR⟩, Hg⟩
  iframe HR Hg
  iexists d; iframe HS; ipureintro; exact fun h => absurd h (Nat.lt_irrefl _)

/-- and after the last they are forgotten. -/
theorem hout4 (c : Dev nD) : (dat4 V c).Φ (Fin.last cfg4.N) ⊢ Pipeline.ΦA spec4 c := by
  rw [PhiA4_eq]; dsimp only [dat4, PhiS4]
  iintro ⟨⟨⟨%s, -, HS⟩, HR⟩, Hg⟩
  iframe HR Hg
  iexists s; iexact HS

end Region

end Cert.KernelIdeal.Hand

end
-- ==== Proof.Reg5.lean ====
import proofs.«139829_j5566277616457_1_alg».proof.Proof.Gen.KernelIdeal.Skeleton
import proofs.«139829_j5566277616457_1_alg».proof.Proof.Gen.KernelIdeal.Launch
import proofs.«139829_j5566277616457_1_alg».proof.Proof.Gen.KernelIdeal.Points
import proofs.«139829_j5566277616457_1_alg».proof.Proof.ScatterBody1
import Idealize.ShloMosaic.Lib.Pipeline.Frame
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The running sum after point `n`: it restarts from zeros where the point's edge-block coordinate is 0. -/
def accAt5 (c : Dev nD) : (n : ℕ) → n < cfg5.N → FVec F S2000x64 .f32
  | 0, hn => k1_pay2 (grid5.coords ⟨0, hn⟩) (iblk5 V c 0 ⟨0, hn⟩) (iblk5 V c 1 ⟨0, hn⟩) (k1_pay1 (F := F))
  | n + 1, hn => k1_pay2 (grid5.coords ⟨n + 1, hn⟩) (iblk5 V c 0 ⟨n + 1, hn⟩) (iblk5 V c 1 ⟨n + 1, hn⟩)
      (if (n + 1) % 208 = 0 then (k1_pay1 (F := F)) else accAt5 c n (Nat.lt_of_succ_lt hn))

abbrev scM5 : Memref sig .tc .vmem S2000x64 .f32 := Memref.whole cc5_scratch0

/-- Before point `n` the scratch holds some sum, which after a point is that point's running sum. -/
def PhiS5 (c : Dev nD) (n : ℕ) (hn : n ≤ cfg5.N) : sProp 𝕄 :=
  iprop(((∃ s, ⌜∀ h : 0 < n, s = accAt5 V c (n - 1) (by omega)⌝ ∗ owns (c : Thread nD τ) scM5 fullShare s)
      ∗ Pipeline.scopedRestBut (Ix := Unit) (Name := ℕ) (U := UR sig nD τ) (Lvl := ℕ) (Val := Elt F) spec5 c [cc5_scratch0])
    ∗ (∃ r, prngReg c r))

/-- The region's proof data: the inputs keep their blocks, the output holds the running sum. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => accAt5 V c t.val t.isLt
  Φ t := PhiS5 V c t.val (Nat.le_of_lt_succ t.isLt)
  q _ := fullShare
  owed _ := 0

theorem A_eq5 (c : Dev nD) (w : Fin cfg5.W) : (dat5 V c).A w = V c (Pipeline.arrRef spec5 w) := rfl

theorem after5_2 (c : Dev nD) (t : Fin cfg5.N) : (dat5 V c).after 2 t = accAt5 V c t.val t.isLt := rfl

/-- The two branch conditions in closed form, decided over the grid. -/
theorem hfirst5 : ∀ t : Fin cfg5.N, first1 (grid5.coords t) ↔ t.val % 208 = 0 :=
  (by decide +kernel : ∀ t : Fin grid5.N, first1 (grid5.coords t) ↔ t.val % 208 = 0)

theorem hlast5 : ∀ t : Fin cfg5.N, last1 (grid5.coords t) ↔ t.val % 208 = 207 :=
  (by decide +kernel : ∀ t : Fin grid5.N, last1 (grid5.coords t) ↔ t.val % 208 = 207)

theorem accAt5_first (c : Dev nD) (t : Fin cfg5.N) (h : t.val % 208 = 0) :
    accAt5 V c t.val t.isLt = k1_pay2 (grid5.coords t) (iblk5 V c 0 t) (iblk5 V c 1 t) (k1_pay1 (F := F)) := by
  obtain ⟨n, hn⟩ := t
  cases n with
  | zero => rfl
  | succ n => exact congrArg (k1_pay2 _ _ _) (if_pos h)

theorem accAt5_next (c : Dev nD) (t : Fin cfg5.N) (h : ¬t.val % 208 = 0) :
    accAt5 V c t.val t.isLt = k1_pay2 (grid5.coords t) (iblk5 V c 0 t) (iblk5 V c 1 t)
      (accAt5 V c (t.val - 1) (Nat.lt_of_le_of_lt (Nat.sub_le _ _) t.isLt)) := by
  obtain ⟨n, hn⟩ := t
  cases n with
  | zero => exact absurd (Nat.zero_mod _) h
  | succ n => exact congrArg (k1_pay2 _ _ _) (if_neg h)

/-- One step of the body's sum from what the invariant holds is the running sum: by the two unfoldings. -/
theorem accAt5_step (c : Dev nD) (t : Fin cfg5.N) (s : FVec F S2000x64 .f32)
    (hs : ∀ h : 0 < t.val, s = accAt5 V c (t.val - 1) (by omega)) :
    k1_pay2 (grid5.coords t) (iblk5 V c 0 t) (iblk5 V c 1 t) (if first1 (grid5.coords t) then k1_pay1 (F := F) else s)
      = accAt5 V c t.val t.isLt := by
  by_cases h0 : t.val % 208 = 0
  · rw [if_pos ((hfirst5 t).mpr h0), accAt5_first V c t h0]
  · rw [if_neg (mt (hfirst5 t).mp h0), accAt5_next V c t h0, hs (by omega)]

/-- The entry invariant with the scratch named. -/
theorem PhiA5_eq (c : Dev nD) :
    (Pipeline.ΦA spec5 c : sProp 𝕄)
      = iprop(iprop(iprop((∃ d, owns (c : Thread nD τ) scM5 fullShare d))
          ∗ Pipeline.scopedRestBut (Ix := Unit) (Name := ℕ) (U := UR sig nD τ) (Lvl := ℕ) (Val := Elt F) spec5 c [cc5_scratch0])
        ∗ (∃ r, prngReg c r)) := by
  unfold Pipeline.ΦA; rw [scopedRest5_split]; simp only [scM5, owns_whole]; try rfl

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d

abbrev ms5_0 (t : Fin cfg5.N) : Memref sig .tc .vmem S1x4096 .i32 := win5_0.stage (cfg5.slots t 0)
abbrev ms5_1 (t : Fin cfg5.N) : Memref sig .tc .vmem S4096x64 .bf16 := win5_1.stage (cfg5.slots t 1)
abbrev ms5_2 (t : Fin cfg5.N) : Memref sig .tc .vmem S2000x64 .f32 := win5_2.stage (cfg5.slots t 2)

/-- The body at any point: `scatter1`, then the sum's unfolding and the output window's two cases. -/
theorem sound_body5 (c : Dev nD) (t : Fin cfg5.N) :
    iprop(PhiS5 V c t.val (Nat.le_of_lt t.isLt) ∗ (dat5 V c).owesAt () t.castSucc
      ∗ (∃ d, owns (c : Thread nD τ) (ms5_0 t) fullShare ((dat5 V c).before 0 t d))
      ∗ (∃ d, owns (c : Thread nD τ) (ms5_1 t) fullShare ((dat5 V c).before 1 t d))
      ∗ (∃ d, owns (c : Thread nD τ) (ms5_2 t) fullShare ((dat5 V c).before 2 t d)))
    ⊢ wp frame (wpE (defs₀ (F := F)) Variants.none c none) Set.univ (bodyAt5 t) (fun _ =>
      iprop(PhiS5 V c (t.val + 1) t.isLt ∗ (dat5 V c).owesAt () t.castSucc
        ∗ owns (c : Thread nD τ) (ms5_0 t) fullShare (iblk5 V c 0 t)
        ∗ owns (c : Thread nD τ) (ms5_1 t) fullShare (iblk5 V c 1 t)
        ∗ (dat5 V c).leavesExact 2 t)) := by
  simp only [before5_0, before5_1]
  unfold PhiS5 bodyAt5
  iintro ⟨⟨⟨⟨%s, %hs, HS⟩, HR⟩, Hg⟩, Ho, ⟨%d0, H0⟩, ⟨%d1, H1⟩, ⟨%d2, H2⟩⟩
  iapply (scatter1 c Set.univ (grid5.coords t) (ms5_0 t) (hstage5_0 ((cfg5.slots t 0).cast nbuf5_0)) (ms5_1 t) (hstage5_1 ((cfg5.slots t 1).cast nbuf5_1))
    (ms5_2 t) (hstage5_2 ((cfg5.slots t 2).cast nbuf5_2)) scM5 (Memref.isWhole_whole _) (iblk5 V c 0 t) (iblk5 V c 1 t) ((dat5 V c).before 2 t d2) s _)
  iframe H0 H1 H2 HS
  iintro ⟨H0, H1, H2, HS⟩
  rw [accAt5_step V c t s hs]
  iframe HR Hg Ho H0 H1
  isplitl [HS]
  · iexists _; iframe; ipureintro; exact fun _ => rfl
  by_cases h1 : last1 (grid5.coords t)
  · rw [if_pos h1]; unfold Dat.leavesExact
    rw [show cfg5.idle 2 (grid5.coords t) = false from by
      show (!(k1_cond2 _ == 1#1)) = false; rw [Bool.not_eq_false', beq_iff_eq]; exact h1]
    iexact H2
  · rw [if_neg h1, Dat.leavesExact_idle (dat5 V c) 2 t
      (by show (!(k1_cond2 _ == 1#1)) = true; rw [Bool.not_eq_true', beq_eq_false_iff_ne]; exact h1)
      (Bool.eq_false_iff.mpr fun hf => h1 ((hlast5 t).mpr ((flush5_2 t).mp hf)))]
    iexists _; iexact H2

theorem body_obligation5 (c : Dev nD) : BodyObligation (dat5 (F := F) V c) (defs₀ (F := F)) Variants.none () Set.univ := fun t => by
  rw [bigSep_W5, bigSep_W5]
  exact sound_body5 V c t

/-- Before the first point nothing is claimed of the scratch's contents, -/
theorem hin5 (c : Dev nD) : Pipeline.ΦA spec5 c ⊢ (dat5 V c).Φ 0 := by
  rw [PhiA5_eq]; dsimp only [dat5, PhiS5]
  iintro ⟨⟨⟨%d, HS⟩, HR⟩, Hg⟩
  iframe HR Hg
  iexists d; iframe HS; ipureintro; exact fun h => absurd h (Nat.lt_irrefl _)

/-- and after the last they are forgotten. -/
theorem hout5 (c : Dev nD) : (dat5 V c).Φ (Fin.last cfg5.N) ⊢ Pipeline.ΦA spec5 c := by
  rw [PhiA5_eq]; dsimp only [dat5, PhiS5]
  iintro ⟨⟨⟨%s, -, HS⟩, HR⟩, Hg⟩
  iframe HR Hg
  iexists s; iexact HS

end Region

end Cert.KernelIdeal.Hand

end
-- ==== Proof.Chain.lean ====
import proofs.«139829_j5566277616457_1_alg».proof.Proof.Reg0
import proofs.«139829_j5566277616457_1_alg».proof.Proof.Reg1
import proofs.«139829_j5566277616457_1_alg».proof.Proof.Reg2
import proofs.«139829_j5566277616457_1_alg».proof.Proof.Reg3
import proofs.«139829_j5566277616457_1_alg».proof.Proof.Reg4
import proofs.«139829_j5566277616457_1_alg».proof.Proof.Reg5
import proofs.«139829_j5566277616457_1_alg».proof.Proof.Gen.KernelIdeal.Regions
import Idealize.ShloMosaic.Lib.Pipeline.FrameSuffix
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev rd (B : Dev nD → Valuation τ sig (Elt F)) : (c : Dev nD) → (b : Ref sig .tc) → Buf (Elt F) ((c : Thread nD τ).loc b) :=
  fun c b => B c b

abbrev B0 : Dev nD → Valuation τ sig (Elt F) := fun c b => m (c, b)

abbrev B1 : Dev nD → Valuation τ sig (Elt F) := fun c => StableHlo.after hostOps0 (B0 m c)

abbrev B2 : Dev nD → Valuation τ sig (Elt F) := fun c => StableHlo.after hostOps0_1 (B1 m c)

abbrev B3 : Dev nD → Valuation τ sig (Elt F) := fun c => StableHlo.after hostOps0_2 (B2 m c)

abbrev B4 : Dev nD → Valuation τ sig (Elt F) := fun c => StableHlo.after hostOps0_3 (B3 m c)

abbrev B5 : Dev nD → Valuation τ sig (Elt F) := fun c => StableHlo.after hostOps0_4 (B4 m c)

abbrev B6 : Dev nD → Valuation τ sig (Elt F) := fun c => StableHlo.after hostOps0_5 (B5 m c)

abbrev B7 : Dev nD → Valuation τ sig (Elt F) := fun c => StableHlo.after hostOps0_6 (B6 m c)

abbrev B8 : Dev nD → Valuation τ sig (Elt F) := fun c => StableHlo.after hostOps0_7 (B7 m c)

abbrev B9 : Dev nD → Valuation τ sig (Elt F) := fun c => StableHlo.after hostOps0_8 (B8 m c)

/-- The contents after region `p` with proof data `dat` entered at `B`: the region's arrays at the region's results, everything else as at entry. -/
def exitOf (p : Fin 6)
    (dat : ((c : Dev nD) → (b : Ref sig .tc) → Buf (Elt F) ((c : Thread nD τ).loc b)) → (c : Dev nD) → Dat τ (Elt F) Unit ℕ (UR sig nD τ) ℕ (cfgs p) c)
    (B : Dev nD → Valuation τ sig (Elt F)) (c : Dev nD) : Valuation τ sig (Elt F) :=
  Pipeline.withArrays (cfgs p).spec c (B c) fun w => (dat (rd B) c).arrAt w (cfgs p).N
theorem exitOf_arr {p : Fin 6} (hl : Pipeline.LaunchFacts (nD := nD) (τ := τ) cfgs p) (dat) (B : Dev nD → Valuation τ sig (Elt F)) (c : Dev nD)
    (w : Fin (cfgs p).W) : exitOf p dat B c (Proc.devRef .tc (Pipeline.arrRef (cfgs p).spec w)) = (dat (rd B) c).arrAt w (cfgs p).N :=
  Pipeline.withArrays_arr _ hl.win.arr_inj c _ _ w
theorem exitOf_of_ne (p : Fin 6) (dat) (B : Dev nD → Valuation τ sig (Elt F)) (c : Dev nD) (b : Ref sig .tc)
    (hb : ∀ w, Pipeline.arrRef (cfgs p).spec w ≠ b) : exitOf p dat B c (Proc.devRef .tc b) = B c (Proc.devRef .tc b) :=
  Pipeline.withArrays_of_ne _ c _ _ b hb

def B10 := exitOf 0 dat0 (B9 m)

def B11 := exitOf 1 dat1 (B10 m)

abbrev B12 : Dev nD → Valuation τ sig (Elt F) := fun c => StableHlo.after hostOps2 (B11 m c)

abbrev B13 : Dev nD → Valuation τ sig (Elt F) := fun c => StableHlo.after hostOps2_1 (B12 m c)

abbrev B14 : Dev nD → Valuation τ sig (Elt F) := fun c => StableHlo.after hostOps2_2 (B13 m c)

def B15 := exitOf 2 dat2 (B14 m)

def B16 := exitOf 3 dat3 (B15 m)

abbrev B17 : Dev nD → Valuation τ sig (Elt F) := fun c => StableHlo.after hostOps4 (B16 m c)

abbrev B18 : Dev nD → Valuation τ sig (Elt F) := fun c => StableHlo.after hostOps4_1 (B17 m c)

abbrev B19 : Dev nD → Valuation τ sig (Elt F) := fun c => StableHlo.after hostOps4_2 (B18 m c)

def B20 := exitOf 4 dat4 (B19 m)

def B21 := exitOf 5 dat5 (B20 m)

abbrev B22 : Dev nD → Valuation τ sig (Elt F) := fun c => StableHlo.after hostOps6 (B21 m c)

def pdats : (p : Fin 6) → (c : Dev nD) → Dat τ (Elt F) Unit ℕ (UR sig nD τ) ℕ (Pipeline.pin (pcfgs (F := F)) adm p) c
  | ⟨0, _⟩ => fun c => dat0 (rd (B9 m)) c
  | ⟨1, _⟩ => fun c => dat1 (rd (B10 m)) c
  | ⟨2, _⟩ => fun c => dat2 (rd (B14 m)) c
  | ⟨3, _⟩ => fun c => dat3 (rd (B15 m)) c
  | ⟨4, _⟩ => fun c => dat4 (rd (B19 m)) c
  | ⟨5, _⟩ => fun c => dat5 (rd (B20 m)) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.Seg.lean ====
import proofs.«139829_j5566277616457_1_alg».proof.Proof.Chain

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.ProofMode
open Idealize.ShloMosaic.Pipeline (BodyObligation)

variable {F : FTy → Type} [FloatOps F] (m : (ℓ : Loc nD τ sig) → Buf (Elt F) ℓ)

theorem pdats_std (p : Fin 6) (c : Dev nD) : (∀ w, (pdats m p c).q w = fullShare) ∧ (∀ t, (pdats m p c).owed t = 0)
    ∧ ∀ t x, x ∈ (pdats m p c).recorded t := by
  fin_cases p <;> exact ⟨fun _ => rfl, fun _ => rfl, fun _ _ => trivial⟩

/-- The contents after region `p` entered at `B`: the region's arrays at the region's results, everything else as at entry. -/
abbrev exitAt (p : Fin 6) (B : Dev nD → Valuation τ sig (Elt F)) (c : Dev nD) : Valuation τ sig (Elt F) :=
  Pipeline.withArrays (cfgs p).spec c (B c) fun w => (pdats m p c).arrAt w (cfgs p).N

/-- Region `p` as one step of the program's run from the contents `B`. -/
def regSeg (p : Fin 6) (hl : Pipeline.LaunchFacts (nD := nD) (τ := τ) cfgs p) (B : Dev nD → Valuation τ sig (Elt F))
    (hbody : ∀ c, BodyObligation (pdats m p c) defs₀ Variants.none () Set.univ)
    (hin : ∀ c, Pipeline.ΦA (cfgs p).spec c ⊢ (pdats m p c).Φ 0)
    (hout : ∀ c, (pdats m p c).Φ (Fin.last (cfgs p).N) ⊢ Pipeline.ΦA (cfgs p).spec c)
    (hA : ∀ c w, (pdats m p c).A w = rd B c (Pipeline.arrRef (cfgs p).spec w)) :
    Pipeline.RegionSeg pcfgs adm (pdats m) () defs₀ 𝒱₀ L lv p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ L lv p fun c => (pdats_std m p c).2.1
  pre c := iprop(StableHlo.held (c : Thread nD τ) (Pipeline.ucRefs τ sig) (B c) ∗ R c)
  post c := iprop(StableHlo.held (c : Thread nD τ) (Pipeline.ucRefs τ sig) (exitAt m p B c) ∗ R c)
  X c := iprop(∃ r, prngReg c r)
  Y c := iprop(∃ r, prngReg c r)
  Z c := Pipeline.unscopedRest (cfgs p).spec c (rd B c)
  hentry c := by
    unfold Pipeline.Dat.owesAt
    rw [← Pipeline.unscopedBufs_held, (pdats_std m p c).2.1]
    iintro ⟨⟨Hub, Hp, %W, HO⟩, -⟩
    ihave ⟨Ha, Hrest⟩ := (Pipeline.arrays_of_unscopedBufs (p := p) pcfgs adm (pdats m) hl.win hl.arr_whole c
      ((pdats m p c).share_full (pdats_std m p c).1) (rd B c) (hA c)) $$ Hub
    imodintro
    iframe Ha Hp Hrest
    isplitr; · iempintro
    iexists W; iframe; ipureintro; exact fun _ _ => Or.inl ((pdats_std m p c).2.2 _ _)
  hin c := by
    iintro ⟨Hp, -, Hr⟩
    iapply (hin c)
    unfold Pipeline.ΦA
    iframe
  hout c := by
    refine (hout c).trans ?_
    unfold Pipeline.ΦA
    iintro ⟨Hr, Hp⟩
    iframe; iempintro
  hexit c := by
    unfold Pipeline.Dat.owesAt
    rw [← Pipeline.unscopedBufs_held, (pdats_std m p c).2.1]
    iintro ⟨Ha, ⟨%W, -, HO⟩, HY, Hrest⟩
    imodintro
    isplitl [Ha Hrest]
    · iapply (Pipeline.unscopedBufs_of_arrays (p := p) pcfgs adm hl.win hl.arr_whole c (pdats m)
        ((pdats m p c).share_full (pdats_std m p c).1) (rd B c) (rd (exitAt m p B) c) _
        (fun w => (Pipeline.withArrays_arr _ hl.win.arr_inj c _ _ w).symm)
        fun b hb => Pipeline.withArrays_of_ne _ c _ _ b fun w e => hb (Finset.mem_image.mpr ⟨w, Finset.mem_univ _, e⟩))
      iframe
    isplitl [HY]; · iexact HY
    iexists W; iexact HO

def reg0 := regSeg m 0 launch0 (B9 m) (body_obligation0 _) (hin0 _) (hout0 _) fun _ _ => rfl
def reg1 := regSeg m 1 launch1 (B10 m) (body_obligation1 _) (hin1 _) (hout1 _) fun _ _ => rfl
def reg2 := regSeg m 2 launch2 (B14 m) (body_obligation2 _) (hin2 _) (hout2 _) fun _ _ => rfl
def reg3 := regSeg m 3 launch3 (B15 m) (body_obligation3 _) (hin3 _) (hout3 _) fun _ _ => rfl
def reg4 := regSeg m 4 launch4 (B19 m) (body_obligation4 _) (hin4 _) (hout4 _) fun _ _ => rfl
def reg5 := regSeg m 5 launch5 (B20 m) (body_obligation5 _) (hin5 _) (hout5 _) fun _ _ => rfl

end Cert.KernelIdeal.Hand

end
-- ==== Proof.Run.lean ====
import proofs.«139829_j5566277616457_1_alg».proof.Proof.Seg

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m) () defs₀ 𝒱₀ L lv) :=
  [ .host (hseg hostOps0 hostOps0_sub hostOps0_fresh (B0 m)),
    .host (hseg hostOps0_1 hostOps0_1_sub hostOps0_1_fresh (B1 m)),
    .host (hseg hostOps0_2 hostOps0_2_sub hostOps0_2_fresh (B2 m)),
    .host (hseg hostOps0_3 hostOps0_3_sub hostOps0_3_fresh (B3 m)),
    .host (hseg hostOps0_4 hostOps0_4_sub hostOps0_4_fresh (B4 m)),
    .host (hseg hostOps0_5 hostOps0_5_sub hostOps0_5_fresh (B5 m)),
    .host (hseg hostOps0_6 hostOps0_6_sub hostOps0_6_fresh (B6 m)),
    .host (hseg hostOps0_7 hostOps0_7_sub hostOps0_7_fresh (B7 m)),
    .host (hseg hostOps0_8 hostOps0_8_sub hostOps0_8_fresh (B8 m)),
    .region (reg0 m),
    .region (reg1 m),
    .host (hseg hostOps2 hostOps2_sub hostOps2_fresh (B11 m)),
    .host (hseg hostOps2_1 hostOps2_1_sub hostOps2_1_fresh (B12 m)),
    .host (hseg hostOps2_2 hostOps2_2_sub hostOps2_2_fresh (B13 m)),
    .region (reg2 m),
    .region (reg3 m),
    .host (hseg hostOps4 hostOps4_sub hostOps4_fresh (B16 m)),
    .host (hseg hostOps4_1 hostOps4_1_sub hostOps4_1_fresh (B17 m)),
    .host (hseg hostOps4_2 hostOps4_2_sub hostOps4_2_fresh (B18 m)),
    .region (reg4 m),
    .region (reg5 m),
    .host (hseg hostOps6 hostOps6_sub hostOps6_fresh (B21 m)) ]

theorem main_run (c : Dev nD) : main (F := F) c = Pipeline.Seg.run (segs m) := (main_chain c).trans (by chain_rfl)

abbrev Tlast (c : Dev nD) : sProp 𝕄 := iprop(StableHlo.held (c : Thread nD τ) (Pipeline.ucRefs τ sig) (B22 m c) ∗ ∃ r, prngReg c r)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = B22 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tlast m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (B22 m c) ∗ R c)
        ⊢ iprop(Tlast m c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B22 m c b)
    (hfin := fun c s' => by
      iintro ⟨⟨Hh, -⟩, HSI⟩
      unfold StableHlo.held
      imodintro
      iapply (pointsTo_read_all (Pipeline.ucRefs τ sig) (fun b => (((c : Thread nD τ)).1, b)) (B22 m c) s')
      isplitl [Hh] <;> iassumption)
    (hQ := fun s h c => h c)

end Cert.KernelIdeal.Hand

end
-- ==== Proof.KerArgs.lean ====
import proofs.«139829_j5566277616457_1_alg».proof.Proof.Chain

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- No host stretch of the program writes `b`, and `b` is among no region's arrays. -/
abbrev Untouched (b : Ref sig .tc) : Prop :=
  b ∉ hostOps0_W ∧ b ∉ hostOps0_1_W ∧ b ∉ hostOps0_2_W ∧ b ∉ hostOps0_3_W ∧ b ∉ hostOps0_4_W ∧ b ∉ hostOps0_5_W
    ∧ b ∉ hostOps0_6_W ∧ b ∉ hostOps0_7_W ∧ b ∉ hostOps0_8_W ∧ b ∉ hostOps2_W ∧ b ∉ hostOps2_1_W ∧ b ∉ hostOps2_2_W
    ∧ b ∉ hostOps4_W ∧ b ∉ hostOps4_1_W ∧ b ∉ hostOps4_2_W ∧ b ∉ hostOps6_W
    ∧ (∀ w, Pipeline.arrRef spec0 w ≠ b) ∧ (∀ w, Pipeline.arrRef spec1 w ≠ b) ∧ (∀ w, Pipeline.arrRef spec2 w ≠ b)
    ∧ (∀ w, Pipeline.arrRef spec3 w ≠ b) ∧ (∀ w, Pipeline.arrRef spec4 w ≠ b) ∧ (∀ w, Pipeline.arrRef spec5 w ≠ b)

abbrev argRefs : List (Ref sig .tc) :=
  [main_arg0, main_arg1, main_arg2, main_arg3, main_arg4, main_arg5, main_arg6, main_arg7, main_arg8, main_arg9]

theorem args_untouched : ∀ b ∈ argRefs, Untouched b := by decide

/-- An untouched buffer holds the launch contents after the first pair of regions, -/
theorem B11_of (c : Dev nD) (b : Ref sig .tc) (h : Untouched b) : B11 m c (Proc.devRef .tc b) = m ((c.tc : Thread nD τ).loc b) := by
  obtain ⟨h0, h1, h2, h3, h4, h5, h6, h7, h8, -, -, -, -, -, -, -, r0, r1, -⟩ := h
  exact (exitOf_of_ne 1 _ _ c b r1).trans <| (exitOf_of_ne 0 _ _ c b r0).trans <|
    (StableHlo.after_of_writes_sub hostOps0_8 _ hostOps0_8_writes h8).trans <|
    (StableHlo.after_of_writes_sub hostOps0_7 _ hostOps0_7_writes h7).trans <|
    (StableHlo.after_of_writes_sub hostOps0_6 _ hostOps0_6_writes h6).trans <|
    (StableHlo.after_of_writes_sub hostOps0_5 _ hostOps0_5_writes h5).trans <|
    (StableHlo.after_of_writes_sub hostOps0_4 _ hostOps0_4_writes h4).trans <|
    (StableHlo.after_of_writes_sub hostOps0_3 _ hostOps0_3_writes h3).trans <|
    (StableHlo.after_of_writes_sub hostOps0_2 _ hostOps0_2_writes h2).trans <|
    (StableHlo.after_of_writes_sub hostOps0_1 _ hostOps0_1_writes h1).trans <|
    (StableHlo.after_of_writes_sub hostOps0 _ hostOps0_writes h0)

/-- after the second, -/
theorem B16_of (c : Dev nD) (b : Ref sig .tc) (h : Untouched b) : B16 m c (Proc.devRef .tc b) = m ((c.tc : Thread nD τ).loc b) := by
  have hp := B11_of m c b h
  obtain ⟨-, -, -, -, -, -, -, -, -, g0, g1, g2, -, -, -, -, -, -, r2, r3, -⟩ := h
  exact (exitOf_of_ne 3 _ _ c b r3).trans <| (exitOf_of_ne 2 _ _ c b r2).trans <|
    (StableHlo.after_of_writes_sub hostOps2_2 _ hostOps2_2_writes g2).trans <|
    (StableHlo.after_of_writes_sub hostOps2_1 _ hostOps2_1_writes g1).trans <|
    (StableHlo.after_of_writes_sub hostOps2 _ hostOps2_writes g0).trans hp

/-- after the third, -/
theorem B21_of (c : Dev nD) (b : Ref sig .tc) (h : Untouched b) : B21 m c (Proc.devRef .tc b) = m ((c.tc : Thread nD τ).loc b) := by
  have hp := B16_of m c b h
  obtain ⟨-, -, -, -, -, -, -, -, -, -, -, -, g0, g1, g2, -, -, -, -, -, r4, r5⟩ := h
  exact (exitOf_of_ne 5 _ _ c b r5).trans <| (exitOf_of_ne 4 _ _ c b r4).trans <|
    (StableHlo.after_of_writes_sub hostOps4_2 _ hostOps4_2_writes g2).trans <|
    (StableHlo.after_of_writes_sub hostOps4_1 _ hostOps4_1_writes g1).trans <|
    (StableHlo.after_of_writes_sub hostOps4 _ hostOps4_writes g0).trans hp

/-- and at the program's end. -/
theorem B22_of (c : Dev nD) (b : Ref sig .tc) (h : Untouched b) : B22 m c (Proc.devRef .tc b) = m ((c.tc : Thread nD τ).loc b) :=
  (StableHlo.after_of_writes_sub hostOps6 _ hostOps6_writes h.2.2.2.2.2.2.2.2.2.2.2.2.2.2.2.1).trans <| B21_of m c b h

theorem kernel_args (c : Dev nD) :
    B22 m c (main_arg0 : DevRef τ sig) = m ((c.tc : Thread nD τ).loc main_arg0)
    ∧ B22 m c (main_arg1 : DevRef τ sig) = m ((c.tc : Thread nD τ).loc main_arg1)
    ∧ B22 m c (main_arg2 : DevRef τ sig) = m ((c.tc : Thread nD τ).loc main_arg2)
    ∧ B22 m c (main_arg3 : DevRef τ sig) = m ((c.tc : Thread nD τ).loc main_arg3)
    ∧ B22 m c (main_arg4 : DevRef τ sig) = m ((c.tc : Thread nD τ).loc main_arg4)
    ∧ B22 m c (main_arg5 : DevRef τ sig) = m ((c.tc : Thread nD τ).loc main_arg5)
    ∧ B22 m c (main_arg6 : DevRef τ sig) = m ((c.tc : Thread nD τ).loc main_arg6)
    ∧ B22 m c (main_arg7 : DevRef τ sig) = m ((c.tc : Thread nD τ).loc main_arg7)
    ∧ B22 m c (main_arg8 : DevRef τ sig) = m ((c.tc : Thread nD τ).loc main_arg8)
    ∧ B22 m c (main_arg9 : DevRef τ sig) = m ((c.tc : Thread nD τ).loc main_arg9) :=
  ⟨B22_of m c _ (args_untouched _ (by decide)), B22_of m c _ (args_untouched _ (by decide)), B22_of m c _ (args_untouched _ (by decide)), B22_of m c _ (args_untouched _ (by decide)), B22_of m c _ (args_untouched _ (by decide)), B22_of m c _ (args_untouched _ (by decide)), B22_of m c _ (args_untouched _ (by decide)), B22_of m c _ (args_untouched _ (by decide)), B22_of m c _ (args_untouched _ (by decide)), B22_of m c _ (args_untouched _ (by decide))⟩

end Cert.KernelIdeal.Hand

end
-- ==== Proof.Spec.lean ====
import Idealize.ShloMosaic.Lib.ValueIdx

noncomputable section

open scoped BigOperators

namespace Cert.Spec

open Idealize.ShloMosaic Idealize.ShloMosaic.ValueIdx

abbrev SE : Shape := ⟨2, ![1, 851968]⟩

abbrev SH : Shape := ⟨2, ![50000, 64]⟩

abbrev SM : Shape := ⟨2, ![851968, 64]⟩

abbrev SE0 : Shape := ⟨1, ![850000]⟩

def padI (x : IVec SE0 32) : IVec SE 32 :=
  fun j => if h : (j 1).val < 850000 then x (ix1 ⟨(j 1).val, h⟩) else 0#32

def padF (x : SE0.Idx → EReal) : SE.Idx → EReal :=
  fun j => if h : (j 1).val < 850000 then x (ix1 ⟨(j 1).val, h⟩) else 0

def msgAt (srcP : IVec SE 32) (normP : SE.Idx → EReal) (hp : SH.Idx → EReal) (e : Fin 851968) (h : Fin 64) : EReal :=
  ∑ n : Fin 50000, (if BitVec.ofNat 32 n.val = srcP (ix2 (0 : Fin 1) e) then normP (ix2 (0 : Fin 1) e) else 0) * hp (ix2 n h)

def gatherK (srcP : IVec SE 32) (normP : SE.Idx → EReal) (hp : SH.Idx → EReal) : SM.Idx → EReal :=
  fun j => msgAt srcP normP hp ⟨(j 0).val, idx2_lt0 j⟩ ⟨(j 1).val, idx2_lt1 j⟩

def aggAt (dstP : IVec SE 32) (msg : SM.Idx → EReal) (n : Fin 50000) (h : Fin 64) : EReal :=
  ∑ e : Fin 851968, (if BitVec.ofNat 32 n.val = dstP (ix2 (0 : Fin 1) e) then (1 : EReal) else 0) * msg (ix2 e h)

def scatterK (dstP : IVec SE 32) (msg : SM.Idx → EReal) : SH.Idx → EReal :=
  fun j => aggAt dstP msg ⟨(j 0).val, idx2_lt0 j⟩ ⟨(j 1).val, idx2_lt1 j⟩

theorem gatherK_apply (srcP : IVec SE 32) (normP : SE.Idx → EReal) (hp : SH.Idx → EReal) (e : Fin 851968) (h : Fin 64) :
    gatherK srcP normP hp (ix2 e h) = msgAt srcP normP hp e h := rfl

theorem scatterK_apply (dstP : IVec SE 32) (msg : SM.Idx → EReal) (n : Fin 50000) (h : Fin 64) :
    scatterK dstP msg (ix2 n h) = aggAt dstP msg n h := rfl

end Cert.Spec

end
-- ==== Proof.KerHost.lean ====
import proofs.«139829_j5566277616457_1_alg».proof.Proof.Gen.KernelIdeal.Regions
import proofs.«139829_j5566277616457_1_alg».proof.Proof.RefRun
import proofs.«139829_j5566277616457_1_alg».proof.Proof.Spec
import Idealize.ShloMosaic.Lib.StableHlo.Run
import Idealize.ShloMosaic.Lib.KernelVsHost
import Idealize.ShloMosaic.Lib.Pipeline.Value

noncomputable section

namespace Cert.KernelIdeal.KerHost

open Cert.KernelIdeal Cert.KernelIdeal.Gen Idealize.ShloMosaic Idealize.ShloMosaic.TcCoe Idealize.SL.Sem Idealize.ShloMosaic.StableHlo
open Cert.ReferenceIdeal.RefRun (src2 dst2 norm elu)

variable {F : FTy → Type} [FloatOps F]

def padRowI (x : IVec S850000 32) : IVec S1x851968 32 :=
  shapeCast S1x851968 (pad S851968 ![0] ![1968] ![0] x (constantI S_ 32 0#32) pads_S850000_S851968_019680 h_S_)
    shapeCasts_S851968_S1x851968

def padRowF (x : FVec F S850000 .f32) : FVec F S1x851968 .f32 :=
  shapeCast S1x851968 (pad S851968 ![0] ![1968] ![0] x (constant S_ .f32 0x00000000#32) pads_S850000_S851968_019680 h_S_)
    shapeCasts_S851968_S1x851968

def biasRow (b : FVec F S64 .f32) : FVec F S50000x64 .f32 :=
  broadcastInDim S50000x64 ![0, 1] bcast_S1x64_S50000x64_0_1 (broadcastInDim S1x64 ![1] bcast_S64_S1x64_1 b)

def biasRow40 (b : FVec F S40 .f32) : FVec F S50000x40 .f32 :=
  broadcastInDim S50000x40 ![0, 1] bcast_S1x40_S50000x40_0_1 (broadcastInDim S1x40 ![1] bcast_S40_S1x40_1 b)

abbrev pre9 (V0 : Valuation τ sig (Elt F)) : Valuation τ sig (Elt F) :=
  after hostOps0_8 (after hostOps0_7 (after hostOps0_6 (after hostOps0_5 (after hostOps0_4 (after hostOps0_3 (after hostOps0_2 (after hostOps0_1 (after hostOps0 V0))))))))

theorem pre9_v33 (V0 : Valuation τ sig (Elt F)) : pre9 V0 (main_v33 : DevRef τ sig) = padRowI (src2 (V0 (main_arg1 : DevRef τ sig))) := by
  after_results_simp <;> (try simp only [TRef.ofBuf, TRef.toBuf, cast_eq]) <;> rfl

theorem pre9_v34 (V0 : Valuation τ sig (Elt F)) : pre9 V0 (main_v34 : DevRef τ sig) = padRowI (dst2 (V0 (main_arg1 : DevRef τ sig))) := by
  after_results_simp <;> (try simp only [TRef.ofBuf, TRef.toBuf, cast_eq]) <;> rfl

theorem pre9_v35 (V0 : Valuation τ sig (Elt F)) : pre9 V0 (main_v35 : DevRef τ sig) = padRowF (norm (V0 (main_arg1 : DevRef τ sig))) := by
  after_results_simp <;> (try simp only [TRef.ofBuf, TRef.toBuf, cast_eq]) <;> rfl

theorem pre9_v36 (V0 : Valuation τ sig (Elt F)) :
    pre9 V0 (main_v36 : DevRef τ sig) = Host.dotGeneral dot_S50000x128_S128x64_S50000x64_1_0_0_1_n_n none (V0 (main_arg0 : DevRef τ sig)) (V0 (main_arg2 : DevRef τ sig)) := by
  after_results_simp <;> rfl

abbrev mid2 (W : Valuation τ sig (Elt F)) : Valuation τ sig (Elt F) :=
  after hostOps2_2 (after hostOps2_1 (after hostOps2 W))

theorem mid2_v43 (W : Valuation τ sig (Elt F)) :
    mid2 W (main_v43 : DevRef τ sig)
      = Host.dotGeneral dot_S50000x64_S64x64_S50000x64_1_0_0_1_n_n none (elu (addf (W (main_v38 : DevRef τ sig)) (biasRow (W (main_arg3 : DevRef τ sig))))) (W (main_arg4 : DevRef τ sig)) := by
  after_results_simp <;> (try simp only [TRef.ofBuf, TRef.toBuf, cast_eq]) <;> rfl

theorem mid2_of (W : Valuation τ sig (Elt F)) (r : Ref sig .tc) (h0 : r ∉ hostOps2_W) (h1 : r ∉ hostOps2_1_W) (h2 : r ∉ hostOps2_2_W) :
    mid2 W (Proc.devRef .tc r) = W (Proc.devRef .tc r) :=
  (after_of_writes_sub hostOps2_2 _ hostOps2_2_writes h2).trans <| (after_of_writes_sub hostOps2_1 _ hostOps2_1_writes h1).trans <| (after_of_writes_sub hostOps2 _ hostOps2_writes h0)
theorem mid2_keep_v33 (W : Valuation τ sig (Elt F)) : mid2 W (main_v33 : DevRef τ sig) = W (main_v33 : DevRef τ sig) :=
  mid2_of W main_v33 (by decide) (by decide) (by decide)
theorem mid2_keep_v34 (W : Valuation τ sig (Elt F)) : mid2 W (main_v34 : DevRef τ sig) = W (main_v34 : DevRef τ sig) :=
  mid2_of W main_v34 (by decide) (by decide) (by decide)
theorem mid2_keep_v35 (W : Valuation τ sig (Elt F)) : mid2 W (main_v35 : DevRef τ sig) = W (main_v35 : DevRef τ sig) :=
  mid2_of W main_v35 (by decide) (by decide) (by decide)

abbrev mid4 (W : Valuation τ sig (Elt F)) : Valuation τ sig (Elt F) :=
  after hostOps4_2 (after hostOps4_1 (after hostOps4 W))

theorem mid4_v50 (W : Valuation τ sig (Elt F)) :
    mid4 W (main_v50 : DevRef τ sig)
      = Host.dotGeneral dot_S50000x64_S64x64_S50000x64_1_0_0_1_n_n none (elu (addf (W (main_v45 : DevRef τ sig)) (biasRow (W (main_arg5 : DevRef τ sig))))) (W (main_arg6 : DevRef τ sig)) := by
  after_results_simp <;> (try simp only [TRef.ofBuf, TRef.toBuf, cast_eq]) <;> rfl

theorem mid4_of (W : Valuation τ sig (Elt F)) (r : Ref sig .tc) (h0 : r ∉ hostOps4_W) (h1 : r ∉ hostOps4_1_W) (h2 : r ∉ hostOps4_2_W) :
    mid4 W (Proc.devRef .tc r) = W (Proc.devRef .tc r) :=
  (after_of_writes_sub hostOps4_2 _ hostOps4_2_writes h2).trans <| (after_of_writes_sub hostOps4_1 _ hostOps4_1_writes h1).trans <| (after_of_writes_sub hostOps4 _ hostOps4_writes h0)
theorem mid4_keep_v33 (W : Valuation τ sig (Elt F)) : mid4 W (main_v33 : DevRef τ sig) = W (main_v33 : DevRef τ sig) :=
  mid4_of W main_v33 (by decide) (by decide) (by decide)
theorem mid4_keep_v34 (W : Valuation τ sig (Elt F)) : mid4 W (main_v34 : DevRef τ sig) = W (main_v34 : DevRef τ sig) :=
  mid4_of W main_v34 (by decide) (by decide) (by decide)
theorem mid4_keep_v35 (W : Valuation τ sig (Elt F)) : mid4 W (main_v35 : DevRef τ sig) = W (main_v35 : DevRef τ sig) :=
  mid4_of W main_v35 (by decide) (by decide) (by decide)

abbrev tail6 (W : Valuation τ sig (Elt F)) : Valuation τ sig (Elt F) :=
  after hostOps6 W

theorem tail6_v59 (W : Valuation τ sig (Elt F)) :
    tail6 W (main_v59 : DevRef τ sig)
      = addf (Host.dotGeneral dot_S50000x64_S64x40_S50000x40_1_0_0_1_n_n none (addf (W (main_v52 : DevRef τ sig)) (biasRow (W (main_arg7 : DevRef τ sig)))) (W (main_arg8 : DevRef τ sig)))
          (biasRow40 (W (main_arg9 : DevRef τ sig))) := by
  after_results_simp <;> rfl

open Idealize.ShloMosaic.ValueIdx in

theorem padRowI_eq (x : IVec S850000 32) : padRowI x = Cert.Spec.padI x := by
  funext j
  have hj0 : (j 0).val < 1 := (j 0).isLt
  have hj1 : (j 1).val < 851968 := (j 1).isLt
  unfold padRowI
  refine (shapeCast_apply _ shapeCasts_S851968_S1x851968 j (ix1 ⟨(j 1).val, hj1⟩ : S851968.Idx) ?_).trans ?_
  · rw [Shape.rowMajor_val_one, Shape.rowMajor_val_two]
    show (j 1).val = (j 0).val * 851968 + (j 1).val
    omega
  unfold Cert.Spec.padI
  by_cases h : (j 1).val < 850000
  · rw [dif_pos h]
    exact pad_apply_of_inside _ _ _ _ _ pads_S850000_S851968_019680 h_S_ (ix1 ⟨(j 1).val, hj1⟩ : S851968.Idx)
      (ix1 ⟨(j 1).val, h⟩ : S850000.Idx) (fun a => match a with
        | ⟨0, _⟩ => by show (j 1).val = 0 + (j 1).val * (0 + 1); omega)
  · rw [dif_neg h]
    exact pad_apply_of_not_inside _ _ _ _ _ pads_S850000_S851968_019680 h_S_ (ix1 ⟨(j 1).val, hj1⟩ : S851968.Idx) (0 : Fin 1)
      (by show ¬(0 ≤ (j 1).val ∧ ((j 1).val - 0) % (0 + 1) = 0 ∧ ((j 1).val - 0) / (0 + 1) < 850000); omega)

open Idealize.ShloMosaic.ValueIdx in

theorem padRowF_eq (x : FVec Ideal S850000 .f32) : padRowF x = Cert.Spec.padF x := by
  funext j
  have hj0 : (j 0).val < 1 := (j 0).isLt
  have hj1 : (j 1).val < 851968 := (j 1).isLt
  unfold padRowF
  refine (shapeCast_apply _ shapeCasts_S851968_S1x851968 j (ix1 ⟨(j 1).val, hj1⟩ : S851968.Idx) ?_).trans ?_
  · rw [Shape.rowMajor_val_one, Shape.rowMajor_val_two]
    show (j 1).val = (j 0).val * 851968 + (j 1).val
    omega
  unfold Cert.Spec.padF
  by_cases h : (j 1).val < 850000
  · rw [dif_pos h]
    exact pad_apply_of_inside _ _ _ _ _ pads_S850000_S851968_019680 h_S_ (ix1 ⟨(j 1).val, hj1⟩ : S851968.Idx)
      (ix1 ⟨(j 1).val, h⟩ : S850000.Idx) (fun a => match a with
        | ⟨0, _⟩ => by show (j 1).val = 0 + (j 1).val * (0 + 1); omega)
  · rw [dif_neg h]
    exact (pad_apply_of_not_inside _ _ _ _ _ pads_S850000_S851968_019680 h_S_ (ix1 ⟨(j 1).val, hj1⟩ : S851968.Idx) (0 : Fin 1)
      (by show ¬(0 ≤ (j 1).val ∧ ((j 1).val - 0) % (0 + 1) = 0 ∧ ((j 1).val - 0) / (0 + 1) < 850000); omega)).trans
      Ideal.ofBits_zero_f32

open Cert.ReferenceIdeal.RefRun (conv wrap res) in

theorem conv_unfold (a1 : IVec S2x800000 32) (h : FVec F S50000x64 .f32) (b : FVec F S64 .f32) :
    conv a1 h b
      = addf
          (Host.scatterAdd Cert.ReferenceIdeal.scatter_S50000x64_S850000x1_S850000x64_1_0_0_1
            (broadcastInDim S50000x64 ![] bcast_S_S50000x64 (constant S_ .f32 0x00000000#32))
            (broadcastInDim S850000x1 ![0] bcast_S850000_S850000x1_0 (dst2 a1))
            (mulf
              (broadcastInDim Cert.ReferenceIdeal.S850000x64 ![0, 1] Cert.ReferenceIdeal.Gen.bcast_S850000x1_S850000x64_0_1
                (broadcastInDim S850000x1 ![0] bcast_S850000_S850000x1_0 (norm (F := F) a1)))
              (Host.gather Cert.ReferenceIdeal.gather_S50000x64_S850000x1_S850000x64_1_0_n_n_0_1_164 h (wrap (src2 a1)))))
          (biasRow b) := rfl

open Cert.ReferenceIdeal.RefRun (conv res) in

theorem res_unfold (a0 : FVec F S50000x128 .f32) (a1 : IVec S2x800000 32) (a2 : FVec F S128x64 .f32) (a3 : FVec F S64 .f32) (a4 : FVec F S64x64 .f32) (a5 : FVec F S64 .f32) (a6 : FVec F S64x64 .f32) (a7 : FVec F S64 .f32) (a8 : FVec F S64x40 .f32) (a9 : FVec F S40 .f32) :
    res a0 a1 a2 a3 a4 a5 a6 a7 a8 a9
      = addf
          (Host.dotGeneral dot_S50000x64_S64x40_S50000x40_1_0_0_1_n_n none
            (conv a1 (Host.dotGeneral dot_S50000x64_S64x64_S50000x64_1_0_0_1_n_n none
              (elu (conv a1 (Host.dotGeneral dot_S50000x64_S64x64_S50000x64_1_0_0_1_n_n none
                (elu (conv a1 (Host.dotGeneral dot_S50000x128_S128x64_S50000x64_1_0_0_1_n_n none a0 a2) a3)) a4) a5)) a6) a7) a8)
          (biasRow40 a9) := rfl

end Cert.KernelIdeal.KerHost

end
-- ==== Proof.GatherMath.lean ====
import proofs.«139829_j5566277616457_1_alg».proof.Proof.Gen.KernelIdeal.Skeleton
import proofs.«139829_j5566277616457_1_alg».proof.Proof.Spec
import Idealize.ShloMosaic.Lib.Pipeline.Value
import Idealize.ShloMosaic.Lib.ValueIdx
import Idealize.ShloMosaic.PureOps.Ideal.Laws
import Mathlib.Algebra.BigOperators.Fin
import Mathlib.Logic.Equiv.Fin.Basic
import Mathlib.Data.Fintype.BigOperators

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

theorem gv0_lhs_contr (j : S4096x64.Idx) (q : dot_S2000x4096_S2000x64_S4096x64_0_0_1_1_n_n.contr.Idx) :
    (dot_S2000x4096_S2000x64_S4096x64_0_0_1_1_n_n.lhsIdx j q 0).val = (q ⟨0, by decide⟩).val :=
  dot_S2000x4096_S2000x64_S4096x64_0_0_1_1_n_n.lhsIdx_val_of_single rfl j q

theorem gv0_rhs_contr (j : S4096x64.Idx) (q : dot_S2000x4096_S2000x64_S4096x64_0_0_1_1_n_n.contr.Idx) :
    (dot_S2000x4096_S2000x64_S4096x64_0_0_1_1_n_n.rhsIdx j q 0).val = (q ⟨0, by decide⟩).val :=
  dot_S2000x4096_S2000x64_S4096x64_0_0_1_1_n_n.rhsIdx_val_of_single rfl j q

theorem gv0_lhs_keep (j : S4096x64.Idx) (q : dot_S2000x4096_S2000x64_S4096x64_0_0_1_1_n_n.contr.Idx) :
    (dot_S2000x4096_S2000x64_S4096x64_0_0_1_1_n_n.lhsIdx j q 1).val = (j 0).val := by
  simp [DotDims.lhsIdx, dot_S2000x4096_S2000x64_S4096x64_0_0_1_1_n_n]
  rfl

theorem gv0_rhs_keep (j : S4096x64.Idx) (q : dot_S2000x4096_S2000x64_S4096x64_0_0_1_1_n_n.contr.Idx) :
    (dot_S2000x4096_S2000x64_S4096x64_0_0_1_1_n_n.rhsIdx j q 1).val = (j 1).val := by
  simp [DotDims.rhsIdx, dot_S2000x4096_S2000x64_S4096x64_0_0_1_1_n_n]
  rfl

theorem gv0_node_word (nb r : ℕ) :
    IntOp.addi (Scalar.muli (BitVec.ofNat 32 nb) 2000#32) (BitVec.ofNat 32 r) = BitVec.ofNat 32 (nb * 2000 + r) := by
  show BitVec.ofNat 32 nb * BitVec.ofNat 32 2000 + BitVec.ofNat 32 r = _
  rw [BitVec.ofNat_add, BitVec.ofNat_mul]

theorem gv0_select_eq {α : Type} (x y : BitVec 32) (a b : α) :
    Scalar.select (IntOp.cmpi .eq x y) a b = if x = y then a else b := by
  show (if BitVec.ofBool (x == y) = 1#1 then a else b) = _
  by_cases hxy : x = y
  · rw [if_pos hxy, show (x == y) = true from beq_iff_eq.mpr hxy]
    exact if_pos (by decide)
  · rw [if_neg hxy, show (x == y) = false from beq_eq_false_iff_ne.mpr hxy]
    exact if_neg (by decide)

theorem gv0_onehot_apply (i : grid0.Coords) (nb : ℕ) (hnb : (i 1).val = nb)
    (x2 : Vec Ideal S1x4096 .i32) (x3 : Vec Ideal S1x4096 .f32) (r : Fin 2000) (k : Fin 4096) :
    (select (cmpi CmpIPredicate.eq
        (broadcastTo S2000x4096
          (addi (broadcast S2000x1 (Scalar.muli (BitVec.ofNat 32 (i 1).val) 2000#32))
            (iota Kind.tc S2000x1 32 [0] iota_S2000x1_d0_w32))
          broadcasts_S2000x1_S2000x4096)
        (broadcastTo S2000x4096 x2 broadcasts_S1x4096_S2000x4096))
      (broadcastTo S2000x4096 x3 broadcasts_S1x4096_S2000x4096)
      (broadcast S2000x4096 (FloatOps.ofBits (F := Ideal) FTy.f32 0#32)) : FVec Ideal S2000x4096 .f32) (ix2 r k)
      = if BitVec.ofNat 32 (nb * 2000 + r.val) = x2 (ix2 (0 : Fin 1) k) then x3 (ix2 (0 : Fin 1) k) else 0 := by
  have e2 : broadcastTo S2000x4096 x2 broadcasts_S1x4096_S2000x4096 (ix2 r k) = x2 (ix2 (0 : Fin 1) k) :=
    broadcastTo_apply x2 _ (ix2 r k) (ix2 (0 : Fin 1) k) (fun a => by match a with | ⟨0, _⟩ => rfl | ⟨1, _⟩ => rfl)
  have e3 : broadcastTo S2000x4096 x3 broadcasts_S1x4096_S2000x4096 (ix2 r k) = x3 (ix2 (0 : Fin 1) k) :=
    broadcastTo_apply x3 _ (ix2 r k) (ix2 (0 : Fin 1) k) (fun a => by match a with | ⟨0, _⟩ => rfl | ⟨1, _⟩ => rfl)
  have eb : broadcastTo S2000x4096
          (addi (broadcast S2000x1 (Scalar.muli (BitVec.ofNat 32 (i 1).val) 2000#32))
            (iota Kind.tc S2000x1 32 [0] iota_S2000x1_d0_w32))
          broadcasts_S2000x1_S2000x4096 (ix2 r k) = BitVec.ofNat 32 (nb * 2000 + r.val) := by
    refine (broadcastTo_apply _ _ (ix2 r k) (ix2 r (0 : Fin 1)) (fun a => by match a with | ⟨0, _⟩ => rfl | ⟨1, _⟩ => rfl)).trans ?_
    show IntOp.addi (Scalar.muli (BitVec.ofNat 32 (i 1).val) 2000#32) (iota Kind.tc S2000x1 32 [0] iota_S2000x1_d0_w32 (ix2 r (0 : Fin 1))) = _
    rw [iota_single_apply, hnb]
    exact gv0_node_word nb r.val
  show Scalar.select (IntOp.cmpi .eq _ _) _ _ = _
  rw [eb, e2, e3, gv0_select_eq]
  show (if _ then _ else Ideal.ofBits .f32 0x00000000#32) = _
  rw [Ideal.ofBits_zero_f32]

theorem gv0_pay2_apply (i : grid0.Coords) (nb : ℕ) (hnb : (i 1).val = nb)
    (x2 : Vec Ideal S1x4096 .i32) (x3 : Vec Ideal S1x4096 .f32) (x4 : Vec Ideal S2000x64 .f32) (s : Vec Ideal S4096x64 .f32)
    (k : Fin 4096) (h : Fin 64) :
    k0_pay2 (F := Ideal) i x2 x3 x4 s (ix2 k h)
      = s (ix2 k h) + ∑ r : Fin 2000, (if BitVec.ofNat 32 (nb * 2000 + r.val) = x2 (ix2 (0 : Fin 1) k) then x3 (ix2 (0 : Fin 1) k) else 0) * x4 (ix2 r h) := by
  unfold k0_pay2
  dsimp only
  simp only [shapeCast_self]
  refine (addf_apply _ _ _).trans (congrArg (s (ix2 k h) + ·) ?_)
  refine (Ideal.matmul_constant_zero_apply dot_S2000x4096_S2000x64_S4096x64_0_0_1_1_n_n none _ _ (ix2 k h)).trans ?_
  rw [← Equiv.sum_comp (contrEquiv1 dot_S2000x4096_S2000x64_S4096x64_0_0_1_1_n_n 2000 rfl rfl).symm]
  refine Finset.sum_congr rfl fun r _ => ?_
  have cr := contrEquiv1_symm_val dot_S2000x4096_S2000x64_S4096x64_0_0_1_1_n_n 2000 rfl rfl r
  have hl : dot_S2000x4096_S2000x64_S4096x64_0_0_1_1_n_n.lhsIdx (ix2 k h)
      ((contrEquiv1 dot_S2000x4096_S2000x64_S4096x64_0_0_1_1_n_n 2000 rfl rfl).symm r) = ix2 r k := by
    funext ax; apply Fin.ext
    match ax with
    | ⟨0, _⟩ => exact (gv0_lhs_contr _ _).trans cr
    | ⟨1, _⟩ => exact gv0_lhs_keep _ _
  have hr : dot_S2000x4096_S2000x64_S4096x64_0_0_1_1_n_n.rhsIdx (ix2 k h)
      ((contrEquiv1 dot_S2000x4096_S2000x64_S4096x64_0_0_1_1_n_n 2000 rfl rfl).symm r) = ix2 r h := by
    funext ax; apply Fin.ext
    match ax with
    | ⟨0, _⟩ => exact (gv0_rhs_contr _ _).trans cr
    | ⟨1, _⟩ => exact gv0_rhs_keep _ _
  rw [hl, hr]
  refine congrArg₂ (· * ·) ?_ rfl
  exact gv0_onehot_apply i nb hnb x2 x3 r k

def gv0_feat (hp : Cert.Spec.SH.Idx → EReal) (n : ℕ) (h : Fin 64) : EReal :=
  if hn : n < 50000 then hp (ix2 ⟨n, hn⟩ h) else 0

def gv0_term (srcP : IVec Cert.Spec.SE 32) (normP : Cert.Spec.SE.Idx → EReal) (hp : Cert.Spec.SH.Idx → EReal)
    (e : Fin 851968) (h : Fin 64) (n : ℕ) : EReal :=
  (if BitVec.ofNat 32 n = srcP (ix2 (0 : Fin 1) e) then normP (ix2 (0 : Fin 1) e) else 0) * gv0_feat hp n h

theorem gv0_blocks_sum (g : ℕ → EReal) :
    ∑ nb ∈ Finset.range 25, ∑ r : Fin 2000, g (nb * 2000 + r.val) = ∑ n : Fin 50000, g n.val := by
  rw [← Fin.sum_univ_eq_sum_range (fun nb => ∑ r : Fin 2000, g (nb * 2000 + r.val)) 25]
  rw [← Fintype.sum_prod_type' (fun (nb : Fin 25) (r : Fin 2000) => g (nb.val * 2000 + r.val))]
  refine Eq.trans ?_ (Equiv.sum_comp (finProdFinEquiv : Fin 25 × Fin 2000 ≃ Fin 50000) (fun n : Fin 50000 => g n.val))
  refine Finset.sum_congr rfl fun p _ => congrArg g ?_
  show p.1.val * 2000 + p.2.val = p.2.val + 2000 * p.1.val
  omega

theorem gv0_sum_eq_msgAt (srcP : IVec Cert.Spec.SE 32) (normP : Cert.Spec.SE.Idx → EReal) (hp : Cert.Spec.SH.Idx → EReal)
    (e : Fin 851968) (h : Fin 64) :
    ∑ nb ∈ Finset.range 25, ∑ r : Fin 2000, gv0_term srcP normP hp e h (nb * 2000 + r.val)
      = Cert.Spec.msgAt srcP normP hp e h := by
  rw [gv0_blocks_sum]
  unfold Cert.Spec.msgAt
  refine Finset.sum_congr rfl fun n _ => ?_
  unfold gv0_term gv0_feat
  rw [dif_pos n.isLt]

theorem gv0_zero_apply (j : S4096x64.Idx) : k0_pay1 (F := Ideal) j = 0 := by
  unfold k0_pay1
  rw [shapeCast_self]
  show Ideal.ofBits .f32 0x00000000#32 = 0
  exact Ideal.ofBits_zero_f32

/-- Within one run of 25 points, what restarts at the run's first point with a block's part and then adds the part to its predecessor is the sum of the parts so far. -/
theorem gv0_fold {N : ℕ} (q : ℕ) (f : (n : ℕ) → n < N → EReal) (B : ℕ → EReal)
    (h0 : ∀ n hn, n / 25 = q → n % 25 = 0 → f n hn = B 0)
    (hs : ∀ n (hn : n + 1 < N), (n + 1) / 25 = q → ¬(n + 1) % 25 = 0 → f (n + 1) hn = f n (Nat.lt_of_succ_lt hn) + B ((n + 1) % 25)) :
    ∀ n hn, n / 25 = q → f n hn = ∑ nb ∈ Finset.range (n % 25 + 1), B nb
  | 0, hn, hq => by rw [h0 0 hn hq rfl]; exact (Finset.sum_range_one _).symm
  | n + 1, hn, hq => by
    by_cases hz : (n + 1) % 25 = 0
    · rw [h0 _ hn hq hz, hz]; exact (Finset.sum_range_one _).symm
    · rw [hs n hn hq hz, gv0_fold q f B h0 hs n _ (by omega), show (n + 1) % 25 = n % 25 + 1 from by omega,
        Finset.sum_range_succ _ (n % 25 + 1)]

end Cert.KernelIdeal.Hand

end
-- ==== Proof.GatherValue0.lean ====
import proofs.«139829_j5566277616457_1_alg».proof.Proof.Reg0
import proofs.«139829_j5566277616457_1_alg».proof.Proof.GatherMath

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-- The windows' block indices and the node-block coordinate in closed form, decided over the grid. -/
theorem gv0_idx_facts : ∀ t : Fin cfg0.N,
    win0_0.index t (0 : Fin 2) = 0 ∧ win0_0.index t (1 : Fin 2) = t.val / 25
    ∧ win0_1.index t (0 : Fin 2) = 0 ∧ win0_1.index t (1 : Fin 2) = t.val / 25
    ∧ win0_2.index t (0 : Fin 2) = t.val % 25 ∧ win0_2.index t (1 : Fin 2) = 0
    ∧ win0_3.index t (0 : Fin 2) = t.val / 25 ∧ win0_3.index t (1 : Fin 2) = 0
    ∧ (grid0.coords t (1 : Fin 2)).val = t.val % 25 :=
  (by decide +kernel : ∀ t : Fin grid0.N, _)

section Region
variable (V : (c : Dev nD) → (b : Ref sig .tc) → Buf (Elt Ideal) ((c : Thread nD τ).loc b))

abbrev gv0_src (c : Dev nD) : IVec Cert.Spec.SE 32 := V c (Pipeline.arrRef spec0 0)
abbrev gv0_nrm (c : Dev nD) : Cert.Spec.SE.Idx → EReal := V c (Pipeline.arrRef spec0 1)
abbrev gv0_hp (c : Dev nD) : Cert.Spec.SH.Idx → EReal := V c (Pipeline.arrRef spec0 2)

theorem gv0_srcBlk_apply (c : Dev nD) (t : Fin cfg0.N) (k : Fin 4096) (e : Fin 851968)
    (he : e.val = t.val / 25 * 4096 + k.val) :
    iblk0 V c 0 t (ix2 (0 : Fin 1) k) = gv0_src V c (ix2 (0 : Fin 1) e) := by
  obtain ⟨ea, eb, -⟩ := gv0_idx_facts t
  exact congrArg (V c (Pipeline.arrRef spec0 0)) (Shape.idx_ext₂
    (by show win0_0.index t (0 : Fin 2) * 1 + 1 * 0 = 0; omega)
    (by show win0_0.index t (1 : Fin 2) * 4096 + 1 * k.val = e.val; omega))

theorem gv0_nrmBlk_apply (c : Dev nD) (t : Fin cfg0.N) (k : Fin 4096) (e : Fin 851968)
    (he : e.val = t.val / 25 * 4096 + k.val) :
    iblk0 V c 1 t (ix2 (0 : Fin 1) k) = gv0_nrm V c (ix2 (0 : Fin 1) e) := by
  obtain ⟨-, -, ea, eb, -⟩ := gv0_idx_facts t
  exact congrArg (V c (Pipeline.arrRef spec0 1)) (Shape.idx_ext₂
    (by show win0_1.index t (0 : Fin 2) * 1 + 1 * 0 = 0; omega)
    (by show win0_1.index t (1 : Fin 2) * 4096 + 1 * k.val = e.val; omega))

theorem gv0_hpBlk_apply (c : Dev nD) (t : Fin cfg0.N) (r : Fin 2000) (h : Fin 64) (n : Fin 50000)
    (hn : n.val = t.val % 25 * 2000 + r.val) :
    iblk0 V c 2 t (ix2 r h) = gv0_hp V c (ix2 n h) := by
  obtain ⟨-, -, -, -, ea, eb, -⟩ := gv0_idx_facts t
  exact congrArg (V c (Pipeline.arrRef spec0 2)) (Shape.idx_ext₂
    (by show win0_2.index t (0 : Fin 2) * 2000 + 1 * r.val = n.val; omega)
    (by show win0_2.index t (1 : Fin 2) * 64 + 1 * h.val = h.val; omega))

/-- One step adds to the sum found this node block's part of the reference's sum. -/
theorem gv0_step_apply (c : Dev nD) (t : Fin cfg0.N) (s : Vec Ideal S4096x64 .f32) (k : Fin 4096) (h : Fin 64)
    (e : Fin 851968) (he : e.val = t.val / 25 * 4096 + k.val) :
    k0_pay2 (F := Ideal) (grid0.coords t) (iblk0 V c 0 t) (iblk0 V c 1 t) (iblk0 V c 2 t) s (ix2 k h)
      = s (ix2 k h) + ∑ r : Fin 2000, gv0_term (gv0_src V c) (gv0_nrm V c) (gv0_hp V c) e h (t.val % 25 * 2000 + r.val) := by
  refine (gv0_pay2_apply (grid0.coords t) (t.val % 25) (gv0_idx_facts t).2.2.2.2.2.2.2.2 (iblk0 V c 0 t) (iblk0 V c 1 t) (iblk0 V c 2 t) s k h).trans ?_
  refine congrArg (s (ix2 k h) + ·) (Finset.sum_congr rfl fun r _ => ?_)
  have hlt : t.val % 25 * 2000 + r.val < 50000 := by have := r.isLt; omega
  unfold gv0_term gv0_feat
  rw [dif_pos hlt, gv0_srcBlk_apply V c t k e he, gv0_nrmBlk_apply V c t k e he,
    gv0_hpBlk_apply V c t r h ⟨t.val % 25 * 2000 + r.val, hlt⟩ rfl]

/-- The running sum is the sum of the parts of the node blocks so far in the run. -/
theorem gv0_acc_apply (c : Dev nD) (n : ℕ) (hn : n < cfg0.N) (k : Fin 4096) (h : Fin 64) (e : Fin 851968)
    (he : e.val = n / 25 * 4096 + k.val) :
    accAt0 V c n hn (ix2 k h)
      = ∑ nb ∈ Finset.range (n % 25 + 1), ∑ r : Fin 2000,
          gv0_term (gv0_src V c) (gv0_nrm V c) (gv0_hp V c) e h (nb * 2000 + r.val) :=
  gv0_fold (n / 25) (fun m hm => accAt0 V c m hm (ix2 k h))
    (fun nb => ∑ r : Fin 2000, gv0_term (gv0_src V c) (gv0_nrm V c) (gv0_hp V c) e h (nb * 2000 + r.val))
    (fun m hm hq h0 => by
      refine ((congrFun (accAt0_first V c ⟨m, hm⟩ h0) _).trans
        (gv0_step_apply V c ⟨m, hm⟩ _ k h e (by show e.val = m / 25 * 4096 + k.val; omega))).trans ?_
      rw [gv0_zero_apply, zero_add]
      show ∑ r : Fin 2000, gv0_term _ _ _ e h (m % 25 * 2000 + r.val) = _
      rw [h0])
    (fun m hm hq hz => (congrFun (accAt0_next V c ⟨m + 1, hm⟩ hz) _).trans
      (gv0_step_apply V c ⟨m + 1, hm⟩ _ k h e (by show e.val = (m + 1) / 25 * 4096 + k.val; omega))) n hn rfl

abbrev gv0_G (c : Dev nD) : Buf (Elt Ideal) ((cfg0.win 3).arr.view.loc (c : Thread nD τ)) :=
  Cert.Spec.gatherK (gv0_src V c) (gv0_nrm V c) (gv0_hp V c)

theorem gv0_outBlk_apply (c : Dev nD) (t : Fin cfg0.N)
    (Gf : Buf (Elt Ideal) ((cfg0.win 3).arr.view.loc (c : Thread nD τ))) (k : Fin 4096) (h : Fin 64) (e : Fin 851968)
    (he : e.val = t.val / 25 * 4096 + k.val) :
    (((cfg0.win 3).blk t).view.read (Elt Ideal) Gf : Vec Ideal S4096x64 .bf16) (ix2 k h)
      = (Gf : Cert.Spec.SM.Idx → EReal) (ix2 e h) := by
  obtain ⟨-, -, -, -, -, -, ea, eb, -⟩ := gv0_idx_facts t
  exact congrArg Gf (Shape.idx_ext₂
    (by show win0_3.index t (0 : Fin 2) * 4096 + 1 * k.val = e.val; omega)
    (by show win0_3.index t (1 : Fin 2) * 64 + 1 * h.val = h.val; omega))

/-- At the last node block of a run the running sum is the reference's message, at the block's place in the array. -/
theorem gv0_flushed_eq (c : Dev nD) (t : Fin cfg0.N) (hf : (cfg0.win 3).flush t = true) :
    (dat0 (F := Ideal) V c).flushed 3 t = ((cfg0.win 3).blk t).view.read (Elt Ideal) (gv0_G V c) := by
  have h24 : t.val % 25 = 24 := (flush0_3 t).mp hf
  have hN : t.val < 5200 := lt_of_lt_of_eq t.isLt N_0
  funext y
  obtain ⟨k, h, rfl⟩ : ∃ (k : Fin 4096) (h : Fin 64), y = ix2 k h := ⟨y 0, y 1, eq_ix2 y⟩
  have hlt : t.val / 25 * 4096 + k.val < 851968 := by have := k.isLt; omega
  refine Eq.trans ?_ (gv0_outBlk_apply c t (gv0_G V c) k h ⟨t.val / 25 * 4096 + k.val, hlt⟩ rfl).symm
  show accAt0 V c t.val t.isLt (ix2 k h)
    = Cert.Spec.msgAt (gv0_src V c) (gv0_nrm V c) (gv0_hp V c) ⟨t.val / 25 * 4096 + k.val, hlt⟩ h
  rw [gv0_acc_apply V c t.val t.isLt k h ⟨t.val / 25 * 4096 + k.val, hlt⟩ rfl, h24, gv0_sum_eq_msgAt]

theorem gv0_mem_blk (t : Fin cfg0.N) (i : S851968x64.Idx) :
    i ∈ ((cfg0.win 3).blk t).view.set ↔ ∀ a : Fin 2, win0_3.index t a * S4096x64.size a ≤ (i a).val ∧ (i a).val < win0_3.index t a * S4096x64.size a + S4096x64.size a := by
  show i ∈ ((View.whole (Pipeline.arrRef spec0 3)).slice (win0_3.rect t)).set ↔ _
  rw [View.set_slice_whole, Rect.mem_set_unit]
  exact Iff.rfl

/-- Every index of the output lies in the block written back at the last node block of its edge block's run. -/
theorem gv0_cover (i : S851968x64.Idx) :
    ∃ t : Fin cfg0.N, (cfg0.win 3).flush t = true ∧ i ∈ ((cfg0.win 3).blk t).view.set := by
  have hi0 : (i 0).val < 851968 := idx2_lt0 i
  have hi1 : (i 1).val < 64 := idx2_lt1 i
  have ht : (i 0).val / 4096 * 25 + 24 < cfg0.N := by rw [show cfg0.N = 5200 from N_0]; omega
  have ea : win0_3.index ⟨(i 0).val / 4096 * 25 + 24, ht⟩ (0 : Fin 2) = ((i 0).val / 4096 * 25 + 24) / 25 := (gv0_idx_facts _).2.2.2.2.2.2.1
  have eb : win0_3.index ⟨(i 0).val / 4096 * 25 + 24, ht⟩ (1 : Fin 2) = 0 := (gv0_idx_facts _).2.2.2.2.2.2.2.1
  refine ⟨⟨(i 0).val / 4096 * 25 + 24, ht⟩, (flush0_3 _).mpr (by show ((i 0).val / 4096 * 25 + 24) % 25 = 24; omega), ?_⟩
  rw [gv0_mem_blk]
  intro a
  match a with
  | ⟨0, _⟩ =>
    show win0_3.index _ (0 : Fin 2) * 4096 ≤ (i 0).val ∧ (i 0).val < win0_3.index _ (0 : Fin 2) * 4096 + 4096
    rw [ea]; omega
  | ⟨1, _⟩ =>
    show win0_3.index _ (1 : Fin 2) * 64 ≤ (i 1).val ∧ (i 1).val < win0_3.index _ (1 : Fin 2) * 64 + 64
    rw [eb]; omega

theorem gather_value0 (c : Dev nD) :
    (dat0 (F := Ideal) V c).arrAt 3 cfg0.N
      = (Cert.Spec.gatherK (V c (Pipeline.arrRef spec0 0)) (V c (Pipeline.arrRef spec0 1)) (V c (Pipeline.arrRef spec0 2))
          : Buf (Elt Ideal) ((cfg0.win 3).arr.view.loc (c : Thread nD τ))) :=
  (dat0 (F := Ideal) V c).arrAt_eq_of_cover 3 (gv0_G V c) (gv0_flushed_eq V c) gv0_cover

end Region

end Cert.KernelIdeal.Hand

end
-- ==== Proof.GatherValue2.lean ====
import proofs.«139829_j5566277616457_1_alg».proof.Proof.Reg2
import proofs.«139829_j5566277616457_1_alg».proof.Proof.GatherMath

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-- The windows' block indices and the node-block coordinate in closed form, decided over the grid. -/
theorem gv2_idx_facts : ∀ t : Fin cfg2.N,
    win2_0.index t (0 : Fin 2) = 0 ∧ win2_0.index t (1 : Fin 2) = t.val / 25
    ∧ win2_1.index t (0 : Fin 2) = 0 ∧ win2_1.index t (1 : Fin 2) = t.val / 25
    ∧ win2_2.index t (0 : Fin 2) = t.val % 25 ∧ win2_2.index t (1 : Fin 2) = 0
    ∧ win2_3.index t (0 : Fin 2) = t.val / 25 ∧ win2_3.index t (1 : Fin 2) = 0
    ∧ (grid2.coords t (1 : Fin 2)).val = t.val % 25 :=
  (by decide +kernel : ∀ t : Fin grid2.N, _)

section Region
variable (V : (c : Dev nD) → (b : Ref sig .tc) → Buf (Elt Ideal) ((c : Thread nD τ).loc b))

abbrev gv2_src (c : Dev nD) : IVec Cert.Spec.SE 32 := V c (Pipeline.arrRef spec2 0)
abbrev gv2_nrm (c : Dev nD) : Cert.Spec.SE.Idx → EReal := V c (Pipeline.arrRef spec2 1)
abbrev gv2_hp (c : Dev nD) : Cert.Spec.SH.Idx → EReal := V c (Pipeline.arrRef spec2 2)

theorem gv2_srcBlk_apply (c : Dev nD) (t : Fin cfg2.N) (k : Fin 4096) (e : Fin 851968)
    (he : e.val = t.val / 25 * 4096 + k.val) :
    iblk2 V c 0 t (ix2 (0 : Fin 1) k) = gv2_src V c (ix2 (0 : Fin 1) e) := by
  obtain ⟨ea, eb, -⟩ := gv2_idx_facts t
  exact congrArg (V c (Pipeline.arrRef spec2 0)) (Shape.idx_ext₂
    (by show win2_0.index t (0 : Fin 2) * 1 + 1 * 0 = 0; omega)
    (by show win2_0.index t (1 : Fin 2) * 4096 + 1 * k.val = e.val; omega))

theorem gv2_nrmBlk_apply (c : Dev nD) (t : Fin cfg2.N) (k : Fin 4096) (e : Fin 851968)
    (he : e.val = t.val / 25 * 4096 + k.val) :
    iblk2 V c 1 t (ix2 (0 : Fin 1) k) = gv2_nrm V c (ix2 (0 : Fin 1) e) := by
  obtain ⟨-, -, ea, eb, -⟩ := gv2_idx_facts t
  exact congrArg (V c (Pipeline.arrRef spec2 1)) (Shape.idx_ext₂
    (by show win2_1.index t (0 : Fin 2) * 1 + 1 * 0 = 0; omega)
    (by show win2_1.index t (1 : Fin 2) * 4096 + 1 * k.val = e.val; omega))

theorem gv2_hpBlk_apply (c : Dev nD) (t : Fin cfg2.N) (r : Fin 2000) (h : Fin 64) (n : Fin 50000)
    (hn : n.val = t.val % 25 * 2000 + r.val) :
    iblk2 V c 2 t (ix2 r h) = gv2_hp V c (ix2 n h) := by
  obtain ⟨-, -, -, -, ea, eb, -⟩ := gv2_idx_facts t
  exact congrArg (V c (Pipeline.arrRef spec2 2)) (Shape.idx_ext₂
    (by show win2_2.index t (0 : Fin 2) * 2000 + 1 * r.val = n.val; omega)
    (by show win2_2.index t (1 : Fin 2) * 64 + 1 * h.val = h.val; omega))

/-- One step adds to the sum found this node block's part of the reference's sum. -/
theorem gv2_step_apply (c : Dev nD) (t : Fin cfg2.N) (s : Vec Ideal S4096x64 .f32) (k : Fin 4096) (h : Fin 64)
    (e : Fin 851968) (he : e.val = t.val / 25 * 4096 + k.val) :
    k0_pay2 (F := Ideal) (grid2.coords t) (iblk2 V c 0 t) (iblk2 V c 1 t) (iblk2 V c 2 t) s (ix2 k h)
      = s (ix2 k h) + ∑ r : Fin 2000, gv0_term (gv2_src V c) (gv2_nrm V c) (gv2_hp V c) e h (t.val % 25 * 2000 + r.val) := by
  refine (gv0_pay2_apply (grid2.coords t) (t.val % 25) (gv2_idx_facts t).2.2.2.2.2.2.2.2 (iblk2 V c 0 t) (iblk2 V c 1 t) (iblk2 V c 2 t) s k h).trans ?_
  refine congrArg (s (ix2 k h) + ·) (Finset.sum_congr rfl fun r _ => ?_)
  have hlt : t.val % 25 * 2000 + r.val < 50000 := by have := r.isLt; omega
  unfold gv0_term gv0_feat
  rw [dif_pos hlt, gv2_srcBlk_apply V c t k e he, gv2_nrmBlk_apply V c t k e he,
    gv2_hpBlk_apply V c t r h ⟨t.val % 25 * 2000 + r.val, hlt⟩ rfl]

/-- The running sum is the sum of the parts of the node blocks so far in the run. -/
theorem gv2_acc_apply (c : Dev nD) (n : ℕ) (hn : n < cfg2.N) (k : Fin 4096) (h : Fin 64) (e : Fin 851968)
    (he : e.val = n / 25 * 4096 + k.val) :
    accAt2 V c n hn (ix2 k h)
      = ∑ nb ∈ Finset.range (n % 25 + 1), ∑ r : Fin 2000,
          gv0_term (gv2_src V c) (gv2_nrm V c) (gv2_hp V c) e h (nb * 2000 + r.val) :=
  gv0_fold (n / 25) (fun m hm => accAt2 V c m hm (ix2 k h))
    (fun nb => ∑ r : Fin 2000, gv0_term (gv2_src V c) (gv2_nrm V c) (gv2_hp V c) e h (nb * 2000 + r.val))
    (fun m hm hq h0 => by
      refine ((congrFun (accAt2_first V c ⟨m, hm⟩ h0) _).trans
        (gv2_step_apply V c ⟨m, hm⟩ _ k h e (by show e.val = m / 25 * 4096 + k.val; omega))).trans ?_
      rw [gv0_zero_apply, zero_add]
      show ∑ r : Fin 2000, gv0_term _ _ _ e h (m % 25 * 2000 + r.val) = _
      rw [h0])
    (fun m hm hq hz => (congrFun (accAt2_next V c ⟨m + 1, hm⟩ hz) _).trans
      (gv2_step_apply V c ⟨m + 1, hm⟩ _ k h e (by show e.val = (m + 1) / 25 * 4096 + k.val; omega))) n hn rfl

abbrev gv2_G (c : Dev nD) : Buf (Elt Ideal) ((cfg2.win 3).arr.view.loc (c : Thread nD τ)) :=
  Cert.Spec.gatherK (gv2_src V c) (gv2_nrm V c) (gv2_hp V c)

theorem gv2_outBlk_apply (c : Dev nD) (t : Fin cfg2.N)
    (Gf : Buf (Elt Ideal) ((cfg2.win 3).arr.view.loc (c : Thread nD τ))) (k : Fin 4096) (h : Fin 64) (e : Fin 851968)
    (he : e.val = t.val / 25 * 4096 + k.val) :
    (((cfg2.win 3).blk t).view.read (Elt Ideal) Gf : Vec Ideal S4096x64 .bf16) (ix2 k h)
      = (Gf : Cert.Spec.SM.Idx → EReal) (ix2 e h) := by
  obtain ⟨-, -, -, -, -, -, ea, eb, -⟩ := gv2_idx_facts t
  exact congrArg Gf (Shape.idx_ext₂
    (by show win2_3.index t (0 : Fin 2) * 4096 + 1 * k.val = e.val; omega)
    (by show win2_3.index t (1 : Fin 2) * 64 + 1 * h.val = h.val; omega))

/-- At the last node block of a run the running sum is the reference's message, at the block's place in the array. -/
theorem gv2_flushed_eq (c : Dev nD) (t : Fin cfg2.N) (hf : (cfg2.win 3).flush t = true) :
    (dat2 (F := Ideal) V c).flushed 3 t = ((cfg2.win 3).blk t).view.read (Elt Ideal) (gv2_G V c) := by
  have h24 : t.val % 25 = 24 := (flush2_3 t).mp hf
  have hN : t.val < 5200 := lt_of_lt_of_eq t.isLt N_2
  funext y
  obtain ⟨k, h, rfl⟩ : ∃ (k : Fin 4096) (h : Fin 64), y = ix2 k h := ⟨y 0, y 1, eq_ix2 y⟩
  have hlt : t.val / 25 * 4096 + k.val < 851968 := by have := k.isLt; omega
  refine Eq.trans ?_ (gv2_outBlk_apply c t (gv2_G V c) k h ⟨t.val / 25 * 4096 + k.val, hlt⟩ rfl).symm
  show accAt2 V c t.val t.isLt (ix2 k h)
    = Cert.Spec.msgAt (gv2_src V c) (gv2_nrm V c) (gv2_hp V c) ⟨t.val / 25 * 4096 + k.val, hlt⟩ h
  rw [gv2_acc_apply V c t.val t.isLt k h ⟨t.val / 25 * 4096 + k.val, hlt⟩ rfl, h24, gv0_sum_eq_msgAt]

theorem gv2_mem_blk (t : Fin cfg2.N) (i : S851968x64.Idx) :
    i ∈ ((cfg2.win 3).blk t).view.set ↔ ∀ a : Fin 2, win2_3.index t a * S4096x64.size a ≤ (i a).val ∧ (i a).val < win2_3.index t a * S4096x64.size a + S4096x64.size a := by
  show i ∈ ((View.whole (Pipeline.arrRef spec2 3)).slice (win2_3.rect t)).set ↔ _
  rw [View.set_slice_whole, Rect.mem_set_unit]
  exact Iff.rfl

/-- Every index of the output lies in the block written back at the last node block of its edge block's run. -/
theorem gv2_cover (i : S851968x64.Idx) :
    ∃ t : Fin cfg2.N, (cfg2.win 3).flush t = true ∧ i ∈ ((cfg2.win 3).blk t).view.set := by
  have hi0 : (i 0).val < 851968 := idx2_lt0 i
  have hi1 : (i 1).val < 64 := idx2_lt1 i
  have ht : (i 0).val / 4096 * 25 + 24 < cfg2.N := by rw [show cfg2.N = 5200 from N_2]; omega
  have ea : win2_3.index ⟨(i 0).val / 4096 * 25 + 24, ht⟩ (0 : Fin 2) = ((i 0).val / 4096 * 25 + 24) / 25 := (gv2_idx_facts _).2.2.2.2.2.2.1
  have eb : win2_3.index ⟨(i 0).val / 4096 * 25 + 24, ht⟩ (1 : Fin 2) = 0 := (gv2_idx_facts _).2.2.2.2.2.2.2.1
  refine ⟨⟨(i 0).val / 4096 * 25 + 24, ht⟩, (flush2_3 _).mpr (by show ((i 0).val / 4096 * 25 + 24) % 25 = 24; omega), ?_⟩
  rw [gv2_mem_blk]
  intro a
  match a with
  | ⟨0, _⟩ =>
    show win2_3.index _ (0 : Fin 2) * 4096 ≤ (i 0).val ∧ (i 0).val < win2_3.index _ (0 : Fin 2) * 4096 + 4096
    rw [ea]; omega
  | ⟨1, _⟩ =>
    show win2_3.index _ (1 : Fin 2) * 64 ≤ (i 1).val ∧ (i 1).val < win2_3.index _ (1 : Fin 2) * 64 + 64
    rw [eb]; omega

theorem gather_value2 (c : Dev nD) :
    (dat2 (F := Ideal) V c).arrAt 3 cfg2.N
      = (Cert.Spec.gatherK (V c (Pipeline.arrRef spec2 0)) (V c (Pipeline.arrRef spec2 1)) (V c (Pipeline.arrRef spec2 2))
          : Buf (Elt Ideal) ((cfg2.win 3).arr.view.loc (c : Thread nD τ))) :=
  (dat2 (F := Ideal) V c).arrAt_eq_of_cover 3 (gv2_G V c) (gv2_flushed_eq V c) gv2_cover

end Region

end Cert.KernelIdeal.Hand

end
-- ==== Proof.GatherValue4.lean ====
import proofs.«139829_j5566277616457_1_alg».proof.Proof.Reg4
import proofs.«139829_j5566277616457_1_alg».proof.Proof.GatherMath

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

/-- The windows' block indices and the node-block coordinate in closed form, decided over the grid. -/
theorem gv4_idx_facts : ∀ t : Fin cfg4.N,
    win4_0.index t (0 : Fin 2) = 0 ∧ win4_0.index t (1 : Fin 2) = t.val / 25
    ∧ win4_1.index t (0 : Fin 2) = 0 ∧ win4_1.index t (1 : Fin 2) = t.val / 25
    ∧ win4_2.index t (0 : Fin 2) = t.val % 25 ∧ win4_2.index t (1 : Fin 2) = 0
    ∧ win4_3.index t (0 : Fin 2) = t.val / 25 ∧ win4_3.index t (1 : Fin 2) = 0
    ∧ (grid4.coords t (1 : Fin 2)).val = t.val % 25 :=
  (by decide +kernel : ∀ t : Fin grid4.N, _)

section Region
variable (V : (c : Dev nD) → (b : Ref sig .tc) → Buf (Elt Ideal) ((c : Thread nD τ).loc b))

abbrev gv4_src (c : Dev nD) : IVec Cert.Spec.SE 32 := V c (Pipeline.arrRef spec4 0)
abbrev gv4_nrm (c : Dev nD) : Cert.Spec.SE.Idx → EReal := V c (Pipeline.arrRef spec4 1)
abbrev gv4_hp (c : Dev nD) : Cert.Spec.SH.Idx → EReal := V c (Pipeline.arrRef spec4 2)

theorem gv4_srcBlk_apply (c : Dev nD) (t : Fin cfg4.N) (k : Fin 4096) (e : Fin 851968)
    (he : e.val = t.val / 25 * 4096 + k.val) :
    iblk4 V c 0 t (ix2 (0 : Fin 1) k) = gv4_src V c (ix2 (0 : Fin 1) e) := by
  obtain ⟨ea, eb, -⟩ := gv4_idx_facts t
  exact congrArg (V c (Pipeline.arrRef spec4 0)) (Shape.idx_ext₂
    (by show win4_0.index t (0 : Fin 2) * 1 + 1 * 0 = 0; omega)
    (by show win4_0.index t (1 : Fin 2) * 4096 + 1 * k.val = e.val; omega))

theorem gv4_nrmBlk_apply (c : Dev nD) (t : Fin cfg4.N) (k : Fin 4096) (e : Fin 851968)
    (he : e.val = t.val / 25 * 4096 + k.val) :
    iblk4 V c 1 t (ix2 (0 : Fin 1) k) = gv4_nrm V c (ix2 (0 : Fin 1) e) := by
  obtain ⟨-, -, ea, eb, -⟩ := gv4_idx_facts t
  exact congrArg (V c (Pipeline.arrRef spec4 1)) (Shape.idx_ext₂
    (by show win4_1.index t (0 : Fin 2) * 1 + 1 * 0 = 0; omega)
    (by show win4_1.index t (1 : Fin 2) * 4096 + 1 * k.val = e.val; omega))

theorem gv4_hpBlk_apply (c : Dev nD) (t : Fin cfg4.N) (r : Fin 2000) (h : Fin 64) (n : Fin 50000)
    (hn : n.val = t.val % 25 * 2000 + r.val) :
    iblk4 V c 2 t (ix2 r h) = gv4_hp V c (ix2 n h) := by
  obtain ⟨-, -, -, -, ea, eb, -⟩ := gv4_idx_facts t
  exact congrArg (V c (Pipeline.arrRef spec4 2)) (Shape.idx_ext₂
    (by show win4_2.index t (0 : Fin 2) * 2000 + 1 * r.val = n.val; omega)
    (by show win4_2.index t (1 : Fin 2) * 64 + 1 * h.val = h.val; omega))

/-- One step adds to the sum found this node block's part of the reference's sum. -/
theorem gv4_step_apply (c : Dev nD) (t : Fin cfg4.N) (s : Vec Ideal S4096x64 .f32) (k : Fin 4096) (h : Fin 64)
    (e : Fin 851968) (he : e.val = t.val / 25 * 4096 + k.val) :
    k0_pay2 (F := Ideal) (grid4.coords t) (iblk4 V c 0 t) (iblk4 V c 1 t) (iblk4 V c 2 t) s (ix2 k h)
      = s (ix2 k h) + ∑ r : Fin 2000, gv0_term (gv4_src V c) (gv4_nrm V c) (gv4_hp V c) e h (t.val % 25 * 2000 + r.val) := by
  refine (gv0_pay2_apply (grid4.coords t) (t.val % 25) (gv4_idx_facts t).2.2.2.2.2.2.2.2 (iblk4 V c 0 t) (iblk4 V c 1 t) (iblk4 V c 2 t) s k h).trans ?_
  refine congrArg (s (ix2 k h) + ·) (Finset.sum_congr rfl fun r _ => ?_)
  have hlt : t.val % 25 * 2000 + r.val < 50000 := by have := r.isLt; omega
  unfold gv0_term gv0_feat
  rw [dif_pos hlt, gv4_srcBlk_apply V c t k e he, gv4_nrmBlk_apply V c t k e he,
    gv4_hpBlk_apply V c t r h ⟨t.val % 25 * 2000 + r.val, hlt⟩ rfl]

/-- The running sum is the sum of the parts of the node blocks so far in the run. -/
theorem gv4_acc_apply (c : Dev nD) (n : ℕ) (hn : n < cfg4.N) (k : Fin 4096) (h : Fin 64) (e : Fin 851968)
    (he : e.val = n / 25 * 4096 + k.val) :
    accAt4 V c n hn (ix2 k h)
      = ∑ nb ∈ Finset.range (n % 25 + 1), ∑ r : Fin 2000,
          gv0_term (gv4_src V c) (gv4_nrm V c) (gv4_hp V c) e h (nb * 2000 + r.val) :=
  gv0_fold (n / 25) (fun m hm => accAt4 V c m hm (ix2 k h))
    (fun nb => ∑ r : Fin 2000, gv0_term (gv4_src V c) (gv4_nrm V c) (gv4_hp V c) e h (nb * 2000 + r.val))
    (fun m hm hq h0 => by
      refine ((congrFun (accAt4_first V c ⟨m, hm⟩ h0) _).trans
        (gv4_step_apply V c ⟨m, hm⟩ _ k h e (by show e.val = m / 25 * 4096 + k.val; omega))).trans ?_
      rw [gv0_zero_apply, zero_add]
      show ∑ r : Fin 2000, gv0_term _ _ _ e h (m % 25 * 2000 + r.val) = _
      rw [h0])
    (fun m hm hq hz => (congrFun (accAt4_next V c ⟨m + 1, hm⟩ hz) _).trans
      (gv4_step_apply V c ⟨m + 1, hm⟩ _ k h e (by show e.val = (m + 1) / 25 * 4096 + k.val; omega))) n hn rfl

abbrev gv4_G (c : Dev nD) : Buf (Elt Ideal) ((cfg4.win 3).arr.view.loc (c : Thread nD τ)) :=
  Cert.Spec.gatherK (gv4_src V c) (gv4_nrm V c) (gv4_hp V c)

theorem gv4_outBlk_apply (c : Dev nD) (t : Fin cfg4.N)
    (Gf : Buf (Elt Ideal) ((cfg4.win 3).arr.view.loc (c : Thread nD τ))) (k : Fin 4096) (h : Fin 64) (e : Fin 851968)
    (he : e.val = t.val / 25 * 4096 + k.val) :
    (((cfg4.win 3).blk t).view.read (Elt Ideal) Gf : Vec Ideal S4096x64 .bf16) (ix2 k h)
      = (Gf : Cert.Spec.SM.Idx → EReal) (ix2 e h) := by
  obtain ⟨-, -, -, -, -, -, ea, eb, -⟩ := gv4_idx_facts t
  exact congrArg Gf (Shape.idx_ext₂
    (by show win4_3.index t (0 : Fin 2) * 4096 + 1 * k.val = e.val; omega)
    (by show win4_3.index t (1 : Fin 2) * 64 + 1 * h.val = h.val; omega))

/-- At the last node block of a run the running sum is the reference's message, at the block's place in the array. -/
theorem gv4_flushed_eq (c : Dev nD) (t : Fin cfg4.N) (hf : (cfg4.win 3).flush t = true) :
    (dat4 (F := Ideal) V c).flushed 3 t = ((cfg4.win 3).blk t).view.read (Elt Ideal) (gv4_G V c) := by
  have h24 : t.val % 25 = 24 := (flush4_3 t).mp hf
  have hN : t.val < 5200 := lt_of_lt_of_eq t.isLt N_4
  funext y
  obtain ⟨k, h, rfl⟩ : ∃ (k : Fin 4096) (h : Fin 64), y = ix2 k h := ⟨y 0, y 1, eq_ix2 y⟩
  have hlt : t.val / 25 * 4096 + k.val < 851968 := by have := k.isLt; omega
  refine Eq.trans ?_ (gv4_outBlk_apply c t (gv4_G V c) k h ⟨t.val / 25 * 4096 + k.val, hlt⟩ rfl).symm
  show accAt4 V c t.val t.isLt (ix2 k h)
    = Cert.Spec.msgAt (gv4_src V c) (gv4_nrm V c) (gv4_hp V c) ⟨t.val / 25 * 4096 + k.val, hlt⟩ h
  rw [gv4_acc_apply V c t.val t.isLt k h ⟨t.val / 25 * 4096 + k.val, hlt⟩ rfl, h24, gv0_sum_eq_msgAt]

theorem gv4_mem_blk (t : Fin cfg4.N) (i : S851968x64.Idx) :
    i ∈ ((cfg4.win 3).blk t).view.set ↔ ∀ a : Fin 2, win4_3.index t a * S4096x64.size a ≤ (i a).val ∧ (i a).val < win4_3.index t a * S4096x64.size a + S4096x64.size a := by
  show i ∈ ((View.whole (Pipeline.arrRef spec4 3)).slice (win4_3.rect t)).set ↔ _
  rw [View.set_slice_whole, Rect.mem_set_unit]
  exact Iff.rfl

/-- Every index of the output lies in the block written back at the last node block of its edge block's run. -/
theorem gv4_cover (i : S851968x64.Idx) :
    ∃ t : Fin cfg4.N, (cfg4.win 3).flush t = true ∧ i ∈ ((cfg4.win 3).blk t).view.set := by
  have hi0 : (i 0).val < 851968 := idx2_lt0 i
  have hi1 : (i 1).val < 64 := idx2_lt1 i
  have ht : (i 0).val / 4096 * 25 + 24 < cfg4.N := by rw [show cfg4.N = 5200 from N_4]; omega
  have ea : win4_3.index ⟨(i 0).val / 4096 * 25 + 24, ht⟩ (0 : Fin 2) = ((i 0).val / 4096 * 25 + 24) / 25 := (gv4_idx_facts _).2.2.2.2.2.2.1
  have eb : win4_3.index ⟨(i 0).val / 4096 * 25 + 24, ht⟩ (1 : Fin 2) = 0 := (gv4_idx_facts _).2.2.2.2.2.2.2.1
  refine ⟨⟨(i 0).val / 4096 * 25 + 24, ht⟩, (flush4_3 _).mpr (by show ((i 0).val / 4096 * 25 + 24) % 25 = 24; omega), ?_⟩
  rw [gv4_mem_blk]
  intro a
  match a with
  | ⟨0, _⟩ =>
    show win4_3.index _ (0 : Fin 2) * 4096 ≤ (i 0).val ∧ (i 0).val < win4_3.index _ (0 : Fin 2) * 4096 + 4096
    rw [ea]; omega
  | ⟨1, _⟩ =>
    show win4_3.index _ (1 : Fin 2) * 64 ≤ (i 1).val ∧ (i 1).val < win4_3.index _ (1 : Fin 2) * 64 + 64
    rw [eb]; omega

theorem gather_value4 (c : Dev nD) :
    (dat4 (F := Ideal) V c).arrAt 3 cfg4.N
      = (Cert.Spec.gatherK (V c (Pipeline.arrRef spec4 0)) (V c (Pipeline.arrRef spec4 1)) (V c (Pipeline.arrRef spec4 2))
          : Buf (Elt Ideal) ((cfg4.win 3).arr.view.loc (c : Thread nD τ))) :=
  (dat4 (F := Ideal) V c).arrAt_eq_of_cover 3 (gv4_G V c) (gv4_flushed_eq V c) gv4_cover

end Region

end Cert.KernelIdeal.Hand

end
-- ==== Proof.ScatterMath.lean ====
import proofs.«139829_j5566277616457_1_alg».proof.Proof.Gen.KernelIdeal.Skeleton
import proofs.«139829_j5566277616457_1_alg».proof.Proof.Spec
import Idealize.ShloMosaic.Lib.Pipeline.Value
import Idealize.ShloMosaic.Lib.ValueIdx
import Idealize.ShloMosaic.PureOps.Ideal.Laws
import Idealize.ShloMosaic.Lib.KernelVsHost

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

theorem sv1_lhs_row (j : S2000x64.Idx) (k : dot_S2000x4096_S4096x64_S2000x64_1_0_0_1_n_n.contr.Idx) : (dot_S2000x4096_S4096x64_S2000x64_1_0_0_1_n_n.lhsIdx j k 0 : ℕ) = j 0 := by
  simp [DotDims.lhsIdx, dot_S2000x4096_S4096x64_S2000x64_1_0_0_1_n_n]; rfl
theorem sv1_lhs_contr (j : S2000x64.Idx) (k : dot_S2000x4096_S4096x64_S2000x64_1_0_0_1_n_n.contr.Idx) : (dot_S2000x4096_S4096x64_S2000x64_1_0_0_1_n_n.lhsIdx j k 1 : ℕ) = k ⟨0, by decide⟩ := by
  simp [DotDims.lhsIdx, dot_S2000x4096_S4096x64_S2000x64_1_0_0_1_n_n]; rfl

theorem sv1_rhs_contr (j : S2000x64.Idx) (k : dot_S2000x4096_S4096x64_S2000x64_1_0_0_1_n_n.contr.Idx) : (dot_S2000x4096_S4096x64_S2000x64_1_0_0_1_n_n.rhsIdx j k 0 : ℕ) = k ⟨0, by decide⟩ := by
  simp [DotDims.rhsIdx, dot_S2000x4096_S4096x64_S2000x64_1_0_0_1_n_n]; rfl
theorem sv1_rhs_col (j : S2000x64.Idx) (k : dot_S2000x4096_S4096x64_S2000x64_1_0_0_1_n_n.contr.Idx) : (dot_S2000x4096_S4096x64_S2000x64_1_0_0_1_n_n.rhsIdx j k 1 : ℕ) = j 1 := by
  simp [DotDims.rhsIdx, dot_S2000x4096_S4096x64_S2000x64_1_0_0_1_n_n]; rfl

theorem sv1_indicator (a b : BitVec 32) :
    (FloatOps.sitofp (F := Ideal) .f32 (BitVec.setWidth 32 (IntOp.cmpi .eq a b)) : EReal) = if a = b then 1 else 0 := by
  show ((((BitVec.setWidth 32 (IntOp.cmpi .eq a b)).toInt : ℤ) : ℝ) : EReal) = _
  rw [toInt_setWidth_bit]
  by_cases hab : a = b
  · subst hab; simp [IntOp.cmpi]
  · simp [IntOp.cmpi, hab]

theorem sv1_rowWord (a r : Nat) :
    IntOp.addi (Scalar.muli (BitVec.ofNat 32 a) 2000#32) (BitVec.ofNat 32 r) = BitVec.ofNat 32 (a * 2000 + r) := by
  rw [BitVec.ofNat_add, BitVec.ofNat_mul]; rfl

theorem sv1_pay2_apply (i : grid1.Coords) (x2 : Vec Ideal S1x4096 .i32) (x3 : Vec Ideal S4096x64 .bf16) (s : Vec Ideal S2000x64 .f32)
    (r : Fin 2000) (h : Fin 64) :
    k1_pay2 (F := Ideal) i x2 x3 s (ix2 r h)
      = s (ix2 r h) + ∑ k : Fin 4096, (if BitVec.ofNat 32 ((i 0).val * 2000 + r.val) = x2 (ix2 (0 : Fin 1) k) then (1 : EReal) else 0) * x3 (ix2 k h) := by
  unfold k1_pay2
  simp only [shapeCast_self]
  rw [addf_apply]
  congr 1
  simp only [matmul]
  rw [Ideal.matmul_constant_zero_apply]
  rw [← Equiv.sum_comp (contrEquiv1 dot_S2000x4096_S4096x64_S2000x64_1_0_0_1_n_n 4096 rfl rfl).symm]
  refine Finset.sum_congr rfl fun k _ => ?_
  have el : dot_S2000x4096_S4096x64_S2000x64_1_0_0_1_n_n.lhsIdx (ix2 r h) ((contrEquiv1 dot_S2000x4096_S4096x64_S2000x64_1_0_0_1_n_n 4096 rfl rfl).symm k) = ix2 r k :=
    Shape.idx_ext₂ (sv1_lhs_row _ _) ((sv1_lhs_contr _ _).trans (contrEquiv1_symm_val dot_S2000x4096_S4096x64_S2000x64_1_0_0_1_n_n 4096 rfl rfl k))
  have er : dot_S2000x4096_S4096x64_S2000x64_1_0_0_1_n_n.rhsIdx (ix2 r h) ((contrEquiv1 dot_S2000x4096_S4096x64_S2000x64_1_0_0_1_n_n 4096 rfl rfl).symm k) = ix2 k h :=
    Shape.idx_ext₂ ((sv1_rhs_contr _ _).trans (contrEquiv1_symm_val dot_S2000x4096_S4096x64_S2000x64_1_0_0_1_n_n 4096 rfl rfl k)) (sv1_rhs_col _ _)
  rw [el, er]
  congr 1
  rw [truncf_apply, sitofp_apply, extui_apply]
  refine (sv1_indicator _ _).trans ?_
  have hA : broadcastTo S2000x4096
      (addi (broadcast S2000x1 (Scalar.muli (BitVec.ofNat 32 (i 0).val) 2000#32)) (iota Kind.tc S2000x1 32 [0] iota_S2000x1_d0_w32))
      broadcasts_S2000x1_S2000x4096 (ix2 r k) = BitVec.ofNat 32 ((i 0).val * 2000 + r.val) := by
    rw [broadcastTo_apply _ _ (ix2 r k) (ix2 r (0 : Fin 1)) (fun a => by match a with | ⟨0, _⟩ => rfl | ⟨1, _⟩ => rfl)]
    show IntOp.addi (Scalar.muli (BitVec.ofNat 32 (i 0).val) 2000#32) (iota Kind.tc S2000x1 32 [0] iota_S2000x1_d0_w32 (ix2 r (0 : Fin 1))) = _
    rw [iota_single_apply]
    exact sv1_rowWord _ _
  have hB : broadcastTo S2000x4096 x2 broadcasts_S1x4096_S2000x4096 (ix2 r k) = x2 (ix2 (0 : Fin 1) k) :=
    broadcastTo_apply _ _ (ix2 r k) (ix2 (0 : Fin 1) k) (fun a => by match a with | ⟨0, _⟩ => rfl | ⟨1, _⟩ => rfl)
  rw [hA, hB]

theorem sv1_pay1_apply (j : S2000x64.Idx) : k1_pay1 (F := Ideal) j = 0 := by
  unfold k1_pay1
  simp only [shapeCast_self]
  exact Ideal.ofBits_zero_f32

def sv1_blockSum (D : Cert.Spec.SE.Idx → BitVec 32) (M : Cert.Spec.SM.Idx → EReal) (w : BitVec 32) (h : Fin 64) (eb : ℕ) : EReal :=
  if hb : eb < 208 then
    ∑ k : Fin 4096, (if w = D (ix2 (0 : Fin 1) (⟨eb * 4096 + k.val, by have := k.isLt; omega⟩ : Fin 851968)) then (1 : EReal) else 0)
      * M (ix2 (⟨eb * 4096 + k.val, by have := k.isLt; omega⟩ : Fin 851968) h)
  else 0

def sv1_edgeEquiv : Fin 208 × Fin 4096 ≃ Fin 851968 := finProdFinEquiv.trans (finCongr (by norm_num))

theorem sv1_edgeEquiv_val (eb : Fin 208) (k : Fin 4096) : (sv1_edgeEquiv (eb, k)).val = eb.val * 4096 + k.val := by
  show k.val + 4096 * eb.val = eb.val * 4096 + k.val
  omega

theorem sv1_blocks_sum (D : Cert.Spec.SE.Idx → BitVec 32) (M : Cert.Spec.SM.Idx → EReal) (w : BitVec 32) (h : Fin 64) :
    ∑ s ∈ Finset.range 208, sv1_blockSum D M w h s
      = ∑ e : Fin 851968, (if w = D (ix2 (0 : Fin 1) e) then (1 : EReal) else 0) * M (ix2 e h) := by
  rw [Finset.sum_range, ← Equiv.sum_comp sv1_edgeEquiv, Fintype.sum_prod_type]
  refine Finset.sum_congr rfl fun eb _ => ?_
  unfold sv1_blockSum
  rw [dif_pos eb.isLt]
  refine Finset.sum_congr rfl fun k _ => ?_
  have e : sv1_edgeEquiv (eb, k) = (⟨eb.val * 4096 + k.val, by have := k.isLt; have := eb.isLt; omega⟩ : Fin 851968) :=
    Fin.ext (sv1_edgeEquiv_val eb k)
  rw [e]

/-- What restarts at the multiples of 208 with a block's part and elsewhere adds the part to its predecessor is the sum of the parts so far in the run. -/
theorem sv1_fold {N : ℕ} (f : (n : ℕ) → n < N → EReal) (B : ℕ → ℕ → EReal)
    (h0 : ∀ n hn, n % 208 = 0 → f n hn = B (n / 208) 0)
    (hs : ∀ n (hn : n + 1 < N), ¬(n + 1) % 208 = 0 → f (n + 1) hn = f n (Nat.lt_of_succ_lt hn) + B ((n + 1) / 208) ((n + 1) % 208)) :
    ∀ n hn, f n hn = ∑ s ∈ Finset.range (n % 208 + 1), B (n / 208) s
  | 0, hn => by rw [h0 0 hn rfl]; exact (Finset.sum_range_one _).symm
  | n + 1, hn => by
    by_cases hz : (n + 1) % 208 = 0
    · rw [h0 _ hn hz, hz]; exact (Finset.sum_range_one _).symm
    · rw [hs n hn hz, sv1_fold f B h0 hs n _, show (n + 1) / 208 = n / 208 from by omega,
        show (n + 1) % 208 = n % 208 + 1 from by omega, Finset.sum_range_succ _ (n % 208 + 1)]

end Cert.KernelIdeal.Hand

end
-- ==== Proof.ScatterValue1.lean ====
import proofs.«139829_j5566277616457_1_alg».proof.Proof.Reg1
import proofs.«139829_j5566277616457_1_alg».proof.Proof.ScatterMath

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

section Value
variable (V : (c : Dev nD) → (b : Ref sig .tc) → Buf (Elt Ideal) ((c : Thread nD τ).loc b))

abbrev sv1_dst (c : Dev nD) : Cert.Spec.SE.Idx → BitVec 32 := V c (Pipeline.arrRef spec1 0)

abbrev sv1_msg (c : Dev nD) : Cert.Spec.SM.Idx → EReal := V c (Pipeline.arrRef spec1 1)

/-- The windows' block indices and the node-block coordinate in closed form, decided over the grid. -/
theorem sv1_idx_facts : ∀ t : Fin cfg1.N,
    win1_0.index t (0 : Fin 2) = 0 ∧ win1_0.index t (1 : Fin 2) = t.val % 208
    ∧ win1_1.index t (0 : Fin 2) = t.val % 208 ∧ win1_1.index t (1 : Fin 2) = 0
    ∧ win1_2.index t (0 : Fin 2) = t.val / 208 ∧ win1_2.index t (1 : Fin 2) = 0
    ∧ ((grid1.coords t) 0).val = t.val / 208 :=
  (by decide +kernel : ∀ t : Fin grid1.N, _)

theorem sv1_dblk_apply (c : Dev nD) (t : Fin cfg1.N) (k : Fin 4096) :
    iblk1 V c 0 t (ix2 (0 : Fin 1) k)
      = sv1_dst V c (ix2 (0 : Fin 1) (⟨t.val % 208 * 4096 + k.val, by have := k.isLt; omega⟩ : Fin 851968)) := by
  obtain ⟨e0, e1, -⟩ := sv1_idx_facts t
  exact congrArg (V c (Pipeline.arrRef spec1 0)) (Shape.idx_ext₂
    (by show win1_0.index t (0 : Fin 2) * 1 + 1 * 0 = 0; omega)
    (by show win1_0.index t (1 : Fin 2) * 4096 + 1 * k.val = t.val % 208 * 4096 + k.val; omega))

theorem sv1_mblk_apply (c : Dev nD) (t : Fin cfg1.N) (k : Fin 4096) (h : Fin 64) :
    iblk1 V c 1 t (ix2 k h)
      = sv1_msg V c (ix2 (⟨t.val % 208 * 4096 + k.val, by have := k.isLt; omega⟩ : Fin 851968) h) := by
  obtain ⟨-, -, e2, e3, -⟩ := sv1_idx_facts t
  exact congrArg (V c (Pipeline.arrRef spec1 1)) (Shape.idx_ext₂
    (by show win1_1.index t (0 : Fin 2) * 4096 + 1 * k.val = t.val % 208 * 4096 + k.val; omega)
    (by show win1_1.index t (1 : Fin 2) * 64 + 1 * h.val = h.val; omega))

/-- One step adds to the sum found this edge block's part of the reference's sum. -/
theorem sv1_step (c : Dev nD) (t : Fin cfg1.N) (s : Vec Ideal S2000x64 .f32) (r : Fin 2000) (h : Fin 64) :
    k1_pay2 (F := Ideal) (grid1.coords t) (iblk1 V c 0 t) (iblk1 V c 1 t) s (ix2 r h)
      = s (ix2 r h) + sv1_blockSum (sv1_dst V c) (sv1_msg V c) (BitVec.ofNat 32 (t.val / 208 * 2000 + r.val)) h (t.val % 208) := by
  refine (sv1_pay2_apply (grid1.coords t) (iblk1 V c 0 t) (iblk1 V c 1 t) s r h).trans ?_
  rw [(sv1_idx_facts t).2.2.2.2.2.2]
  unfold sv1_blockSum
  rw [dif_pos (Nat.mod_lt _ (by decide))]
  refine congrArg _ (Finset.sum_congr rfl fun k _ => ?_)
  rw [sv1_dblk_apply V c t k, sv1_mblk_apply V c t k h]

/-- The running sum is the sum of the parts of the edge blocks so far in the run. -/
theorem sv1_acc_apply (c : Dev nD) (n : ℕ) (hn : n < cfg1.N) (r : Fin 2000) (h : Fin 64) :
    accAt1 V c n hn (ix2 r h)
      = ∑ s ∈ Finset.range (n % 208 + 1),
          sv1_blockSum (sv1_dst V c) (sv1_msg V c) (BitVec.ofNat 32 (n / 208 * 2000 + r.val)) h s :=
  sv1_fold (fun n hn => accAt1 V c n hn (ix2 r h))
    (fun q s => sv1_blockSum (sv1_dst V c) (sv1_msg V c) (BitVec.ofNat 32 (q * 2000 + r.val)) h s)
    (fun n hn h0 => by
      refine ((congrFun (accAt1_first V c ⟨n, hn⟩ h0) _).trans (sv1_step V c ⟨n, hn⟩ _ r h)).trans ?_
      rw [sv1_pay1_apply, zero_add]
      show sv1_blockSum _ _ _ h (n % 208) = _
      rw [h0])
    (fun n hn hz => (congrFun (accAt1_next V c ⟨n + 1, hn⟩ hz) _).trans (sv1_step V c ⟨n + 1, hn⟩ _ r h)) n hn

/-- At the last edge block of a run the running sum is the reference's whole sum. -/
theorem sv1_last (c : Dev nD) (t : Fin cfg1.N) (h207 : t.val % 208 = 207) (r : Fin 2000) (h : Fin 64)
    (hb : t.val / 208 * 2000 + r.val < 50000) :
    accAt1 V c t.val t.isLt (ix2 r h)
      = Cert.Spec.scatterK (sv1_dst V c) (sv1_msg V c) (ix2 (⟨t.val / 208 * 2000 + r.val, hb⟩ : Fin 50000) h) := by
  rw [sv1_acc_apply V c t.val t.isLt r h, show t.val % 208 + 1 = 208 from by omega, sv1_blocks_sum, Cert.Spec.scatterK_apply]
  rfl

/-- A block that agrees with an array at the block's place in it is the array read through the block. -/
theorem sv1_block_of (t : Fin cfg1.N) (X : FVec Ideal S2000x64 .f32) (G : Cert.Spec.SH.Idx → EReal)
    (hXG : ∀ (r : Fin 2000) (h : Fin 64) (hb : t.val / 208 * 2000 + r.val < 50000),
      X (ix2 r h) = G (ix2 (⟨t.val / 208 * 2000 + r.val, hb⟩ : Fin 50000) h)) :
    (cfg1.win 2).cut (grid1.coords t) X = ((cfg1.win 2).blk t).view.read (Elt Ideal) G := by
  obtain ⟨-, -, -, -, e4, e5, -⟩ := sv1_idx_facts t
  have hN : t.val < 5200 := lt_of_lt_of_eq t.isLt N_1
  funext j
  obtain ⟨r, h, rfl⟩ : ∃ (r : Fin 2000) (h : Fin 64), j = ix2 r h := ⟨j 0, j 1, eq_ix2 j⟩
  show X (ix2 r h) = G (((cfg1.win 2).blk t).view.emb (ix2 r h))
  rw [hXG r h (by have := r.isLt; omega)]
  exact congrArg G (Shape.idx_ext₂ (by show t.val / 208 * 2000 + r.val = win1_2.index t (0 : Fin 2) * 2000 + 1 * r.val; omega)
    (by show h.val = win1_2.index t (1 : Fin 2) * 64 + 1 * h.val; omega))

theorem sv1_flushed_eq (c : Dev nD) (t : Fin cfg1.N) (hf : (cfg1.win 2).flush t = true) :
    (dat1 (F := Ideal) V c).flushed 2 t
      = ((cfg1.win 2).blk t).view.read (Elt Ideal) (Cert.Spec.scatterK (sv1_dst V c) (sv1_msg V c)) :=
  sv1_block_of t _ _ (sv1_last V c t ((flush1_2 t).mp hf))

theorem sv1_mem_blk (t : Fin cfg1.N) (i : Cert.Spec.SH.Idx) :
    i ∈ ((cfg1.win 2).blk t).view.set ↔ ∀ a : Fin 2, win1_2.index t a * S2000x64.size a ≤ (i a).val
      ∧ (i a).val < win1_2.index t a * S2000x64.size a + S2000x64.size a := by
  show i ∈ ((View.whole (Pipeline.arrRef spec1 2)).slice (win1_2.rect t)).set ↔ _
  rw [View.set_slice_whole, Rect.mem_set_unit]
  exact Iff.rfl

/-- Every index of the output lies in the block written back at the last edge block of its node block's run. -/
theorem sv1_cover (i : Cert.Spec.SH.Idx) :
    ∃ t : Fin cfg1.N, (cfg1.win 2).flush t = true ∧ i ∈ ((cfg1.win 2).blk t).view.set := by
  have hi0 : (i 0 : ℕ) < 50000 := (i 0).isLt
  have hi1 : (i 1 : ℕ) < 64 := (i 1).isLt
  have hlt : (i 0 : ℕ) / 2000 * 208 + 207 < cfg1.N := by rw [show cfg1.N = 5200 from N_1]; omega
  have e4 : win1_2.index ⟨(i 0 : ℕ) / 2000 * 208 + 207, hlt⟩ (0 : Fin 2) = ((i 0 : ℕ) / 2000 * 208 + 207) / 208 := (sv1_idx_facts _).2.2.2.2.1
  have e5 : win1_2.index ⟨(i 0 : ℕ) / 2000 * 208 + 207, hlt⟩ (1 : Fin 2) = 0 := (sv1_idx_facts _).2.2.2.2.2.1
  refine ⟨⟨(i 0 : ℕ) / 2000 * 208 + 207, hlt⟩, (flush1_2 _).mpr (by show ((i 0 : ℕ) / 2000 * 208 + 207) % 208 = 207; omega), ?_⟩
  rw [sv1_mem_blk]
  intro a
  match a with
  | ⟨0, _⟩ =>
    show win1_2.index _ (0 : Fin 2) * 2000 ≤ (i 0 : ℕ) ∧ (i 0 : ℕ) < win1_2.index _ (0 : Fin 2) * 2000 + 2000
    rw [e4]; omega
  | ⟨1, _⟩ =>
    show win1_2.index _ (1 : Fin 2) * 64 ≤ (i 1 : ℕ) ∧ (i 1 : ℕ) < win1_2.index _ (1 : Fin 2) * 64 + 64
    rw [e5]; omega

theorem scatter_value1 (c : Dev nD) :
    (dat1 (F := Ideal) V c).arrAt 2 cfg1.N
      = Cert.Spec.scatterK (V c (Pipeline.arrRef spec1 0)) (V c (Pipeline.arrRef spec1 1)) :=
  (dat1 (F := Ideal) V c).arrAt_eq_of_cover 2 (Cert.Spec.scatterK (sv1_dst V c) (sv1_msg V c)) (sv1_flushed_eq V c)
    (fun i => sv1_cover i)

end Value

end Cert.KernelIdeal.Hand

end
-- ==== Proof.ScatterValue3.lean ====
import proofs.«139829_j5566277616457_1_alg».proof.Proof.Reg3
import proofs.«139829_j5566277616457_1_alg».proof.Proof.ScatterMath

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

section Value
variable (V : (c : Dev nD) → (b : Ref sig .tc) → Buf (Elt Ideal) ((c : Thread nD τ).loc b))

abbrev sv3_dst (c : Dev nD) : Cert.Spec.SE.Idx → BitVec 32 := V c (Pipeline.arrRef spec3 0)

abbrev sv3_msg (c : Dev nD) : Cert.Spec.SM.Idx → EReal := V c (Pipeline.arrRef spec3 1)

/-- The windows' block indices and the node-block coordinate in closed form, decided over the grid. -/
theorem sv3_idx_facts : ∀ t : Fin cfg3.N,
    win3_0.index t (0 : Fin 2) = 0 ∧ win3_0.index t (1 : Fin 2) = t.val % 208
    ∧ win3_1.index t (0 : Fin 2) = t.val % 208 ∧ win3_1.index t (1 : Fin 2) = 0
    ∧ win3_2.index t (0 : Fin 2) = t.val / 208 ∧ win3_2.index t (1 : Fin 2) = 0
    ∧ ((grid3.coords t) 0).val = t.val / 208 :=
  (by decide +kernel : ∀ t : Fin grid3.N, _)

theorem sv3_dblk_apply (c : Dev nD) (t : Fin cfg3.N) (k : Fin 4096) :
    iblk3 V c 0 t (ix2 (0 : Fin 1) k)
      = sv3_dst V c (ix2 (0 : Fin 1) (⟨t.val % 208 * 4096 + k.val, by have := k.isLt; omega⟩ : Fin 851968)) := by
  obtain ⟨e0, e1, -⟩ := sv3_idx_facts t
  exact congrArg (V c (Pipeline.arrRef spec3 0)) (Shape.idx_ext₂
    (by show win3_0.index t (0 : Fin 2) * 1 + 1 * 0 = 0; omega)
    (by show win3_0.index t (1 : Fin 2) * 4096 + 1 * k.val = t.val % 208 * 4096 + k.val; omega))

theorem sv3_mblk_apply (c : Dev nD) (t : Fin cfg3.N) (k : Fin 4096) (h : Fin 64) :
    iblk3 V c 1 t (ix2 k h)
      = sv3_msg V c (ix2 (⟨t.val % 208 * 4096 + k.val, by have := k.isLt; omega⟩ : Fin 851968) h) := by
  obtain ⟨-, -, e2, e3, -⟩ := sv3_idx_facts t
  exact congrArg (V c (Pipeline.arrRef spec3 1)) (Shape.idx_ext₂
    (by show win3_1.index t (0 : Fin 2) * 4096 + 1 * k.val = t.val % 208 * 4096 + k.val; omega)
    (by show win3_1.index t (1 : Fin 2) * 64 + 1 * h.val = h.val; omega))

/-- One step adds to the sum found this edge block's part of the reference's sum. -/
theorem sv3_step (c : Dev nD) (t : Fin cfg3.N) (s : Vec Ideal S2000x64 .f32) (r : Fin 2000) (h : Fin 64) :
    k1_pay2 (F := Ideal) (grid3.coords t) (iblk3 V c 0 t) (iblk3 V c 1 t) s (ix2 r h)
      = s (ix2 r h) + sv1_blockSum (sv3_dst V c) (sv3_msg V c) (BitVec.ofNat 32 (t.val / 208 * 2000 + r.val)) h (t.val % 208) := by
  refine (sv1_pay2_apply (grid3.coords t) (iblk3 V c 0 t) (iblk3 V c 1 t) s r h).trans ?_
  rw [(sv3_idx_facts t).2.2.2.2.2.2]
  unfold sv1_blockSum
  rw [dif_pos (Nat.mod_lt _ (by decide))]
  refine congrArg _ (Finset.sum_congr rfl fun k _ => ?_)
  rw [sv3_dblk_apply V c t k, sv3_mblk_apply V c t k h]

/-- The running sum is the sum of the parts of the edge blocks so far in the run. -/
theorem sv3_acc_apply (c : Dev nD) (n : ℕ) (hn : n < cfg3.N) (r : Fin 2000) (h : Fin 64) :
    accAt3 V c n hn (ix2 r h)
      = ∑ s ∈ Finset.range (n % 208 + 1),
          sv1_blockSum (sv3_dst V c) (sv3_msg V c) (BitVec.ofNat 32 (n / 208 * 2000 + r.val)) h s :=
  sv1_fold (fun n hn => accAt3 V c n hn (ix2 r h))
    (fun q s => sv1_blockSum (sv3_dst V c) (sv3_msg V c) (BitVec.ofNat 32 (q * 2000 + r.val)) h s)
    (fun n hn h0 => by
      refine ((congrFun (accAt3_first V c ⟨n, hn⟩ h0) _).trans (sv3_step V c ⟨n, hn⟩ _ r h)).trans ?_
      rw [sv1_pay1_apply, zero_add]
      show sv1_blockSum _ _ _ h (n % 208) = _
      rw [h0])
    (fun n hn hz => (congrFun (accAt3_next V c ⟨n + 1, hn⟩ hz) _).trans (sv3_step V c ⟨n + 1, hn⟩ _ r h)) n hn

/-- At the last edge block of a run the running sum is the reference's whole sum. -/
theorem sv3_last (c : Dev nD) (t : Fin cfg3.N) (h207 : t.val % 208 = 207) (r : Fin 2000) (h : Fin 64)
    (hb : t.val / 208 * 2000 + r.val < 50000) :
    accAt3 V c t.val t.isLt (ix2 r h)
      = Cert.Spec.scatterK (sv3_dst V c) (sv3_msg V c) (ix2 (⟨t.val / 208 * 2000 + r.val, hb⟩ : Fin 50000) h) := by
  rw [sv3_acc_apply V c t.val t.isLt r h, show t.val % 208 + 1 = 208 from by omega, sv1_blocks_sum, Cert.Spec.scatterK_apply]
  rfl

/-- A block that agrees with an array at the block's place in it is the array read through the block. -/
theorem sv3_block_of (t : Fin cfg3.N) (X : FVec Ideal S2000x64 .f32) (G : Cert.Spec.SH.Idx → EReal)
    (hXG : ∀ (r : Fin 2000) (h : Fin 64) (hb : t.val / 208 * 2000 + r.val < 50000),
      X (ix2 r h) = G (ix2 (⟨t.val / 208 * 2000 + r.val, hb⟩ : Fin 50000) h)) :
    (cfg3.win 2).cut (grid3.coords t) X = ((cfg3.win 2).blk t).view.read (Elt Ideal) G := by
  obtain ⟨-, -, -, -, e4, e5, -⟩ := sv3_idx_facts t
  have hN : t.val < 5200 := lt_of_lt_of_eq t.isLt N_3
  funext j
  obtain ⟨r, h, rfl⟩ : ∃ (r : Fin 2000) (h : Fin 64), j = ix2 r h := ⟨j 0, j 1, eq_ix2 j⟩
  show X (ix2 r h) = G (((cfg3.win 2).blk t).view.emb (ix2 r h))
  rw [hXG r h (by have := r.isLt; omega)]
  exact congrArg G (Shape.idx_ext₂ (by show t.val / 208 * 2000 + r.val = win3_2.index t (0 : Fin 2) * 2000 + 1 * r.val; omega)
    (by show h.val = win3_2.index t (1 : Fin 2) * 64 + 1 * h.val; omega))

theorem sv3_flushed_eq (c : Dev nD) (t : Fin cfg3.N) (hf : (cfg3.win 2).flush t = true) :
    (dat3 (F := Ideal) V c).flushed 2 t
      = ((cfg3.win 2).blk t).view.read (Elt Ideal) (Cert.Spec.scatterK (sv3_dst V c) (sv3_msg V c)) :=
  sv3_block_of t _ _ (sv3_last V c t ((flush3_2 t).mp hf))

theorem sv3_mem_blk (t : Fin cfg3.N) (i : Cert.Spec.SH.Idx) :
    i ∈ ((cfg3.win 2).blk t).view.set ↔ ∀ a : Fin 2, win3_2.index t a * S2000x64.size a ≤ (i a).val
      ∧ (i a).val < win3_2.index t a * S2000x64.size a + S2000x64.size a := by
  show i ∈ ((View.whole (Pipeline.arrRef spec3 2)).slice (win3_2.rect t)).set ↔ _
  rw [View.set_slice_whole, Rect.mem_set_unit]
  exact Iff.rfl

/-- Every index of the output lies in the block written back at the last edge block of its node block's run. -/
theorem sv3_cover (i : Cert.Spec.SH.Idx) :
    ∃ t : Fin cfg3.N, (cfg3.win 2).flush t = true ∧ i ∈ ((cfg3.win 2).blk t).view.set := by
  have hi0 : (i 0 : ℕ) < 50000 := (i 0).isLt
  have hi1 : (i 1 : ℕ) < 64 := (i 1).isLt
  have hlt : (i 0 : ℕ) / 2000 * 208 + 207 < cfg3.N := by rw [show cfg3.N = 5200 from N_3]; omega
  have e4 : win3_2.index ⟨(i 0 : ℕ) / 2000 * 208 + 207, hlt⟩ (0 : Fin 2) = ((i 0 : ℕ) / 2000 * 208 + 207) / 208 := (sv3_idx_facts _).2.2.2.2.1
  have e5 : win3_2.index ⟨(i 0 : ℕ) / 2000 * 208 + 207, hlt⟩ (1 : Fin 2) = 0 := (sv3_idx_facts _).2.2.2.2.2.1
  refine ⟨⟨(i 0 : ℕ) / 2000 * 208 + 207, hlt⟩, (flush3_2 _).mpr (by show ((i 0 : ℕ) / 2000 * 208 + 207) % 208 = 207; omega), ?_⟩
  rw [sv3_mem_blk]
  intro a
  match a with
  | ⟨0, _⟩ =>
    show win3_2.index _ (0 : Fin 2) * 2000 ≤ (i 0 : ℕ) ∧ (i 0 : ℕ) < win3_2.index _ (0 : Fin 2) * 2000 + 2000
    rw [e4]; omega
  | ⟨1, _⟩ =>
    show win3_2.index _ (1 : Fin 2) * 64 ≤ (i 1 : ℕ) ∧ (i 1 : ℕ) < win3_2.index _ (1 : Fin 2) * 64 + 64
    rw [e5]; omega

theorem scatter_value3 (c : Dev nD) :
    (dat3 (F := Ideal) V c).arrAt 2 cfg3.N
      = Cert.Spec.scatterK (V c (Pipeline.arrRef spec3 0)) (V c (Pipeline.arrRef spec3 1)) :=
  (dat3 (F := Ideal) V c).arrAt_eq_of_cover 2 (Cert.Spec.scatterK (sv3_dst V c) (sv3_msg V c)) (sv3_flushed_eq V c)
    (fun i => sv3_cover i)

end Value

end Cert.KernelIdeal.Hand

end
-- ==== Proof.ScatterValue5.lean ====
import proofs.«139829_j5566277616457_1_alg».proof.Proof.Reg5
import proofs.«139829_j5566277616457_1_alg».proof.Proof.ScatterMath

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

section Value
variable (V : (c : Dev nD) → (b : Ref sig .tc) → Buf (Elt Ideal) ((c : Thread nD τ).loc b))

abbrev sv5_dst (c : Dev nD) : Cert.Spec.SE.Idx → BitVec 32 := V c (Pipeline.arrRef spec5 0)

abbrev sv5_msg (c : Dev nD) : Cert.Spec.SM.Idx → EReal := V c (Pipeline.arrRef spec5 1)

/-- The windows' block indices and the node-block coordinate in closed form, decided over the grid. -/
theorem sv5_idx_facts : ∀ t : Fin cfg5.N,
    win5_0.index t (0 : Fin 2) = 0 ∧ win5_0.index t (1 : Fin 2) = t.val % 208
    ∧ win5_1.index t (0 : Fin 2) = t.val % 208 ∧ win5_1.index t (1 : Fin 2) = 0
    ∧ win5_2.index t (0 : Fin 2) = t.val / 208 ∧ win5_2.index t (1 : Fin 2) = 0
    ∧ ((grid5.coords t) 0).val = t.val / 208 :=
  (by decide +kernel : ∀ t : Fin grid5.N, _)

theorem sv5_dblk_apply (c : Dev nD) (t : Fin cfg5.N) (k : Fin 4096) :
    iblk5 V c 0 t (ix2 (0 : Fin 1) k)
      = sv5_dst V c (ix2 (0 : Fin 1) (⟨t.val % 208 * 4096 + k.val, by have := k.isLt; omega⟩ : Fin 851968)) := by
  obtain ⟨e0, e1, -⟩ := sv5_idx_facts t
  exact congrArg (V c (Pipeline.arrRef spec5 0)) (Shape.idx_ext₂
    (by show win5_0.index t (0 : Fin 2) * 1 + 1 * 0 = 0; omega)
    (by show win5_0.index t (1 : Fin 2) * 4096 + 1 * k.val = t.val % 208 * 4096 + k.val; omega))

theorem sv5_mblk_apply (c : Dev nD) (t : Fin cfg5.N) (k : Fin 4096) (h : Fin 64) :
    iblk5 V c 1 t (ix2 k h)
      = sv5_msg V c (ix2 (⟨t.val % 208 * 4096 + k.val, by have := k.isLt; omega⟩ : Fin 851968) h) := by
  obtain ⟨-, -, e2, e3, -⟩ := sv5_idx_facts t
  exact congrArg (V c (Pipeline.arrRef spec5 1)) (Shape.idx_ext₂
    (by show win5_1.index t (0 : Fin 2) * 4096 + 1 * k.val = t.val % 208 * 4096 + k.val; omega)
    (by show win5_1.index t (1 : Fin 2) * 64 + 1 * h.val = h.val; omega))

/-- One step adds to the sum found this edge block's part of the reference's sum. -/
theorem sv5_step (c : Dev nD) (t : Fin cfg5.N) (s : Vec Ideal S2000x64 .f32) (r : Fin 2000) (h : Fin 64) :
    k1_pay2 (F := Ideal) (grid5.coords t) (iblk5 V c 0 t) (iblk5 V c 1 t) s (ix2 r h)
      = s (ix2 r h) + sv1_blockSum (sv5_dst V c) (sv5_msg V c) (BitVec.ofNat 32 (t.val / 208 * 2000 + r.val)) h (t.val % 208) := by
  refine (sv1_pay2_apply (grid5.coords t) (iblk5 V c 0 t) (iblk5 V c 1 t) s r h).trans ?_
  rw [(sv5_idx_facts t).2.2.2.2.2.2]
  unfold sv1_blockSum
  rw [dif_pos (Nat.mod_lt _ (by decide))]
  refine congrArg _ (Finset.sum_congr rfl fun k _ => ?_)
  rw [sv5_dblk_apply V c t k, sv5_mblk_apply V c t k h]

/-- The running sum is the sum of the parts of the edge blocks so far in the run. -/
theorem sv5_acc_apply (c : Dev nD) (n : ℕ) (hn : n < cfg5.N) (r : Fin 2000) (h : Fin 64) :
    accAt5 V c n hn (ix2 r h)
      = ∑ s ∈ Finset.range (n % 208 + 1),
          sv1_blockSum (sv5_dst V c) (sv5_msg V c) (BitVec.ofNat 32 (n / 208 * 2000 + r.val)) h s :=
  sv1_fold (fun n hn => accAt5 V c n hn (ix2 r h))
    (fun q s => sv1_blockSum (sv5_dst V c) (sv5_msg V c) (BitVec.ofNat 32 (q * 2000 + r.val)) h s)
    (fun n hn h0 => by
      refine ((congrFun (accAt5_first V c ⟨n, hn⟩ h0) _).trans (sv5_step V c ⟨n, hn⟩ _ r h)).trans ?_
      rw [sv1_pay1_apply, zero_add]
      show sv1_blockSum _ _ _ h (n % 208) = _
      rw [h0])
    (fun n hn hz => (congrFun (accAt5_next V c ⟨n + 1, hn⟩ hz) _).trans (sv5_step V c ⟨n + 1, hn⟩ _ r h)) n hn

/-- At the last edge block of a run the running sum is the reference's whole sum. -/
theorem sv5_last (c : Dev nD) (t : Fin cfg5.N) (h207 : t.val % 208 = 207) (r : Fin 2000) (h : Fin 64)
    (hb : t.val / 208 * 2000 + r.val < 50000) :
    accAt5 V c t.val t.isLt (ix2 r h)
      = Cert.Spec.scatterK (sv5_dst V c) (sv5_msg V c) (ix2 (⟨t.val / 208 * 2000 + r.val, hb⟩ : Fin 50000) h) := by
  rw [sv5_acc_apply V c t.val t.isLt r h, show t.val % 208 + 1 = 208 from by omega, sv1_blocks_sum, Cert.Spec.scatterK_apply]
  rfl

/-- A block that agrees with an array at the block's place in it is the array read through the block. -/
theorem sv5_block_of (t : Fin cfg5.N) (X : FVec Ideal S2000x64 .f32) (G : Cert.Spec.SH.Idx → EReal)
    (hXG : ∀ (r : Fin 2000) (h : Fin 64) (hb : t.val / 208 * 2000 + r.val < 50000),
      X (ix2 r h) = G (ix2 (⟨t.val / 208 * 2000 + r.val, hb⟩ : Fin 50000) h)) :
    (cfg5.win 2).cut (grid5.coords t) X = ((cfg5.win 2).blk t).view.read (Elt Ideal) G := by
  obtain ⟨-, -, -, -, e4, e5, -⟩ := sv5_idx_facts t
  have hN : t.val < 5200 := lt_of_lt_of_eq t.isLt N_5
  funext j
  obtain ⟨r, h, rfl⟩ : ∃ (r : Fin 2000) (h : Fin 64), j = ix2 r h := ⟨j 0, j 1, eq_ix2 j⟩
  show X (ix2 r h) = G (((cfg5.win 2).blk t).view.emb (ix2 r h))
  rw [hXG r h (by have := r.isLt; omega)]
  exact congrArg G (Shape.idx_ext₂ (by show t.val / 208 * 2000 + r.val = win5_2.index t (0 : Fin 2) * 2000 + 1 * r.val; omega)
    (by show h.val = win5_2.index t (1 : Fin 2) * 64 + 1 * h.val; omega))

theorem sv5_flushed_eq (c : Dev nD) (t : Fin cfg5.N) (hf : (cfg5.win 2).flush t = true) :
    (dat5 (F := Ideal) V c).flushed 2 t
      = ((cfg5.win 2).blk t).view.read (Elt Ideal) (Cert.Spec.scatterK (sv5_dst V c) (sv5_msg V c)) :=
  sv5_block_of t _ _ (sv5_last V c t ((flush5_2 t).mp hf))

theorem sv5_mem_blk (t : Fin cfg5.N) (i : Cert.Spec.SH.Idx) :
    i ∈ ((cfg5.win 2).blk t).view.set ↔ ∀ a : Fin 2, win5_2.index t a * S2000x64.size a ≤ (i a).val
      ∧ (i a).val < win5_2.index t a * S2000x64.size a + S2000x64.size a := by
  show i ∈ ((View.whole (Pipeline.arrRef spec5 2)).slice (win5_2.rect t)).set ↔ _
  rw [View.set_slice_whole, Rect.mem_set_unit]
  exact Iff.rfl

/-- Every index of the output lies in the block written back at the last edge block of its node block's run. -/
theorem sv5_cover (i : Cert.Spec.SH.Idx) :
    ∃ t : Fin cfg5.N, (cfg5.win 2).flush t = true ∧ i ∈ ((cfg5.win 2).blk t).view.set := by
  have hi0 : (i 0 : ℕ) < 50000 := (i 0).isLt
  have hi1 : (i 1 : ℕ) < 64 := (i 1).isLt
  have hlt : (i 0 : ℕ) / 2000 * 208 + 207 < cfg5.N := by rw [show cfg5.N = 5200 from N_5]; omega
  have e4 : win5_2.index ⟨(i 0 : ℕ) / 2000 * 208 + 207, hlt⟩ (0 : Fin 2) = ((i 0 : ℕ) / 2000 * 208 + 207) / 208 := (sv5_idx_facts _).2.2.2.2.1
  have e5 : win5_2.index ⟨(i 0 : ℕ) / 2000 * 208 + 207, hlt⟩ (1 : Fin 2) = 0 := (sv5_idx_facts _).2.2.2.2.2.1
  refine ⟨⟨(i 0 : ℕ) / 2000 * 208 + 207, hlt⟩, (flush5_2 _).mpr (by show ((i 0 : ℕ) / 2000 * 208 + 207) % 208 = 207; omega), ?_⟩
  rw [sv5_mem_blk]
  intro a
  match a with
  | ⟨0, _⟩ =>
    show win5_2.index _ (0 : Fin 2) * 2000 ≤ (i 0 : ℕ) ∧ (i 0 : ℕ) < win5_2.index _ (0 : Fin 2) * 2000 + 2000
    rw [e4]; omega
  | ⟨1, _⟩ =>
    show win5_2.index _ (1 : Fin 2) * 64 ≤ (i 1 : ℕ) ∧ (i 1 : ℕ) < win5_2.index _ (1 : Fin 2) * 64 + 64
    rw [e5]; omega

theorem scatter_value5 (c : Dev nD) :
    (dat5 (F := Ideal) V c).arrAt 2 cfg5.N
      = Cert.Spec.scatterK (V c (Pipeline.arrRef spec5 0)) (V c (Pipeline.arrRef spec5 1)) :=
  (dat5 (F := Ideal) V c).arrAt_eq_of_cover 2 (Cert.Spec.scatterK (sv5_dst V c) (sv5_msg V c)) (sv5_flushed_eq V c)
    (fun i => sv5_cover i)

end Value

end Cert.KernelIdeal.Hand

end
-- ==== Proof.KerValue.lean ====
import proofs.«139829_j5566277616457_1_alg».proof.Proof.Chain
import proofs.«139829_j5566277616457_1_alg».proof.Proof.KerArgs
import proofs.«139829_j5566277616457_1_alg».proof.Proof.KerHost
import proofs.«139829_j5566277616457_1_alg».proof.Proof.GatherValue0
import proofs.«139829_j5566277616457_1_alg».proof.Proof.GatherValue2
import proofs.«139829_j5566277616457_1_alg».proof.Proof.GatherValue4
import proofs.«139829_j5566277616457_1_alg».proof.Proof.ScatterValue1
import proofs.«139829_j5566277616457_1_alg».proof.Proof.ScatterValue3
import proofs.«139829_j5566277616457_1_alg».proof.Proof.ScatterValue5

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.ReferenceIdeal.RefRun (src2 dst2 norm elu conv res)

def agg (a1 : IVec S2x800000 32) (hp : FVec Ideal S50000x64 .f32) : FVec Ideal S50000x64 .f32 :=
  Cert.Spec.scatterK (Cert.Spec.padI (dst2 a1))
    (Cert.Spec.gatherK (Cert.Spec.padI (src2 a1)) (Cert.Spec.padF (norm (F := Ideal) a1)) hp)

variable (m : (ℓ : Loc nD τ sig) → Buf (Elt Ideal) ℓ) (c : Dev nD)

/-- The node features entering the three layers: the first projection, then each layer's output through the unit and the next projection. -/
abbrev x1 : FVec Ideal S50000x64 .f32 := Host.dotGeneral (F := Ideal) (φ₁ := .f32) (φ₂ := .f32) dot_S50000x128_S128x64_S50000x64_1_0_0_1_n_n none (m ((c.tc : Thread nD τ).loc main_arg0)) (m ((c.tc : Thread nD τ).loc main_arg2))
abbrev x2 : FVec Ideal S50000x64 .f32 := Host.dotGeneral (F := Ideal) (φ₁ := .f32) (φ₂ := .f32) dot_S50000x64_S64x64_S50000x64_1_0_0_1_n_n none (elu (F := Ideal) (conv (F := Ideal) (m ((c.tc : Thread nD τ).loc main_arg1)) (x1 m c) (m ((c.tc : Thread nD τ).loc main_arg3)))) (m ((c.tc : Thread nD τ).loc main_arg4))
abbrev x3 : FVec Ideal S50000x64 .f32 := Host.dotGeneral (F := Ideal) (φ₁ := .f32) (φ₂ := .f32) dot_S50000x64_S64x64_S50000x64_1_0_0_1_n_n none (elu (F := Ideal) (conv (F := Ideal) (m ((c.tc : Thread nD τ).loc main_arg1)) (x2 m c) (m ((c.tc : Thread nD τ).loc main_arg5)))) (m ((c.tc : Thread nD τ).loc main_arg6))

def ConvBridge : Prop :=
  ∀ (hp : FVec Ideal S50000x64 .f32) (b : FVec Ideal S64 .f32),
    conv (F := Ideal) (m ((c.tc : Thread nD τ).loc main_arg1)) hp b = addf (F := Ideal) (agg (m ((c.tc : Thread nD τ).loc main_arg1)) hp) (KerHost.biasRow (F := Ideal) b)

theorem B9_v33 : B9 m c (main_v33 : DevRef τ sig) = Cert.Spec.padI (src2 (m ((c.tc : Thread nD τ).loc main_arg1))) :=
  (KerHost.pre9_v33 (B0 m c)).trans (KerHost.padRowI_eq _)
theorem B9_v34 : B9 m c (main_v34 : DevRef τ sig) = Cert.Spec.padI (dst2 (m ((c.tc : Thread nD τ).loc main_arg1))) :=
  (KerHost.pre9_v34 (B0 m c)).trans (KerHost.padRowI_eq _)
theorem B9_v35 : B9 m c (main_v35 : DevRef τ sig) = Cert.Spec.padF (norm (F := Ideal) (m ((c.tc : Thread nD τ).loc main_arg1))) :=
  (KerHost.pre9_v35 (B0 m c)).trans (KerHost.padRowF_eq _)
theorem B9_v36 : B9 m c (main_v36 : DevRef τ sig) = x1 m c :=
  KerHost.pre9_v36 (B0 m c)

theorem B10_v33 : B10 m c (main_v33 : DevRef τ sig) = B9 m c (main_v33 : DevRef τ sig) :=
  (exitOf_arr launch0 _ _ c 0).trans (((dat0 (rd (B9 m)) c).arrAt_in 0 rfl _).trans (A_eq0 (rd (B9 m)) c 0))
theorem B10_v35 : B10 m c (main_v35 : DevRef τ sig) = B9 m c (main_v35 : DevRef τ sig) :=
  (exitOf_arr launch0 _ _ c 1).trans (((dat0 (rd (B9 m)) c).arrAt_in 1 rfl _).trans (A_eq0 (rd (B9 m)) c 1))
theorem B10_v34 : B10 m c (main_v34 : DevRef τ sig) = B9 m c (main_v34 : DevRef τ sig) :=
  exitOf_of_ne 0 _ _ c main_v34 (by decide)
theorem B11_v34 : B11 m c (main_v34 : DevRef τ sig) = B10 m c (main_v34 : DevRef τ sig) :=
  (exitOf_arr launch1 _ _ c 0).trans (((dat1 (rd (B10 m)) c).arrAt_in 0 rfl _).trans (A_eq1 (rd (B10 m)) c 0))
theorem B11_v33 : B11 m c (main_v33 : DevRef τ sig) = B10 m c (main_v33 : DevRef τ sig) :=
  exitOf_of_ne 1 _ _ c main_v33 (by decide)
theorem B11_v35 : B11 m c (main_v35 : DevRef τ sig) = B10 m c (main_v35 : DevRef τ sig) :=
  exitOf_of_ne 1 _ _ c main_v35 (by decide)
theorem B15_v33 : B15 m c (main_v33 : DevRef τ sig) = B14 m c (main_v33 : DevRef τ sig) :=
  (exitOf_arr launch2 _ _ c 0).trans (((dat2 (rd (B14 m)) c).arrAt_in 0 rfl _).trans (A_eq2 (rd (B14 m)) c 0))
theorem B15_v35 : B15 m c (main_v35 : DevRef τ sig) = B14 m c (main_v35 : DevRef τ sig) :=
  (exitOf_arr launch2 _ _ c 1).trans (((dat2 (rd (B14 m)) c).arrAt_in 1 rfl _).trans (A_eq2 (rd (B14 m)) c 1))
theorem B15_v34 : B15 m c (main_v34 : DevRef τ sig) = B14 m c (main_v34 : DevRef τ sig) :=
  exitOf_of_ne 2 _ _ c main_v34 (by decide)
theorem B16_v34 : B16 m c (main_v34 : DevRef τ sig) = B15 m c (main_v34 : DevRef τ sig) :=
  (exitOf_arr launch3 _ _ c 0).trans (((dat3 (rd (B15 m)) c).arrAt_in 0 rfl _).trans (A_eq3 (rd (B15 m)) c 0))
theorem B16_v33 : B16 m c (main_v33 : DevRef τ sig) = B15 m c (main_v33 : DevRef τ sig) :=
  exitOf_of_ne 3 _ _ c main_v33 (by decide)
theorem B16_v35 : B16 m c (main_v35 : DevRef τ sig) = B15 m c (main_v35 : DevRef τ sig) :=
  exitOf_of_ne 3 _ _ c main_v35 (by decide)
theorem B20_v33 : B20 m c (main_v33 : DevRef τ sig) = B19 m c (main_v33 : DevRef τ sig) :=
  (exitOf_arr launch4 _ _ c 0).trans (((dat4 (rd (B19 m)) c).arrAt_in 0 rfl _).trans (A_eq4 (rd (B19 m)) c 0))
theorem B20_v35 : B20 m c (main_v35 : DevRef τ sig) = B19 m c (main_v35 : DevRef τ sig) :=
  (exitOf_arr launch4 _ _ c 1).trans (((dat4 (rd (B19 m)) c).arrAt_in 1 rfl _).trans (A_eq4 (rd (B19 m)) c 1))
theorem B20_v34 : B20 m c (main_v34 : DevRef τ sig) = B19 m c (main_v34 : DevRef τ sig) :=
  exitOf_of_ne 4 _ _ c main_v34 (by decide)
theorem B21_v34 : B21 m c (main_v34 : DevRef τ sig) = B20 m c (main_v34 : DevRef τ sig) :=
  (exitOf_arr launch5 _ _ c 0).trans (((dat5 (rd (B20 m)) c).arrAt_in 0 rfl _).trans (A_eq5 (rd (B20 m)) c 0))
theorem B21_v33 : B21 m c (main_v33 : DevRef τ sig) = B20 m c (main_v33 : DevRef τ sig) :=
  exitOf_of_ne 5 _ _ c main_v33 (by decide)
theorem B21_v35 : B21 m c (main_v35 : DevRef τ sig) = B20 m c (main_v35 : DevRef τ sig) :=
  exitOf_of_ne 5 _ _ c main_v35 (by decide)

theorem B10_v34' : B10 m c (main_v34 : DevRef τ sig) = Cert.Spec.padI (dst2 (m ((c.tc : Thread nD τ).loc main_arg1))) :=
  (B10_v34 m c).trans (B9_v34 m c)
theorem B14_v33' : B14 m c (main_v33 : DevRef τ sig) = Cert.Spec.padI (src2 (m ((c.tc : Thread nD τ).loc main_arg1))) :=
  (KerHost.mid2_keep_v33 (B11 m c)).trans <| (B11_v33 m c).trans <| (B10_v33 m c).trans (B9_v33 m c)
theorem B14_v35' : B14 m c (main_v35 : DevRef τ sig) = Cert.Spec.padF (norm (F := Ideal) (m ((c.tc : Thread nD τ).loc main_arg1))) :=
  (KerHost.mid2_keep_v35 (B11 m c)).trans <| (B11_v35 m c).trans <| (B10_v35 m c).trans (B9_v35 m c)
theorem B15_v34' : B15 m c (main_v34 : DevRef τ sig) = Cert.Spec.padI (dst2 (m ((c.tc : Thread nD τ).loc main_arg1))) :=
  (B15_v34 m c).trans <| (KerHost.mid2_keep_v34 (B11 m c)).trans <| (B11_v34 m c).trans (B10_v34' m c)
theorem B19_v33' : B19 m c (main_v33 : DevRef τ sig) = Cert.Spec.padI (src2 (m ((c.tc : Thread nD τ).loc main_arg1))) :=
  (KerHost.mid4_keep_v33 (B16 m c)).trans <| (B16_v33 m c).trans <| (B15_v33 m c).trans (B14_v33' m c)
theorem B19_v35' : B19 m c (main_v35 : DevRef τ sig) = Cert.Spec.padF (norm (F := Ideal) (m ((c.tc : Thread nD τ).loc main_arg1))) :=
  (KerHost.mid4_keep_v35 (B16 m c)).trans <| (B16_v35 m c).trans <| (B15_v35 m c).trans (B14_v35' m c)
theorem B20_v34' : B20 m c (main_v34 : DevRef τ sig) = Cert.Spec.padI (dst2 (m ((c.tc : Thread nD τ).loc main_arg1))) :=
  (B20_v34 m c).trans <| (KerHost.mid4_keep_v34 (B16 m c)).trans <| (B16_v34 m c).trans (B15_v34' m c)

theorem B11_arg3 : B11 m c (main_arg3 : DevRef τ sig) = (m ((c.tc : Thread nD τ).loc main_arg3)) :=
  B11_of m c _ (args_untouched _ (by decide))
theorem B11_arg4 : B11 m c (main_arg4 : DevRef τ sig) = (m ((c.tc : Thread nD τ).loc main_arg4)) :=
  B11_of m c _ (args_untouched _ (by decide))
theorem B16_arg5 : B16 m c (main_arg5 : DevRef τ sig) = (m ((c.tc : Thread nD τ).loc main_arg5)) :=
  B16_of m c _ (args_untouched _ (by decide))
theorem B16_arg6 : B16 m c (main_arg6 : DevRef τ sig) = (m ((c.tc : Thread nD τ).loc main_arg6)) :=
  B16_of m c _ (args_untouched _ (by decide))
theorem B21_arg7 : B21 m c (main_arg7 : DevRef τ sig) = (m ((c.tc : Thread nD τ).loc main_arg7)) :=
  B21_of m c _ (args_untouched _ (by decide))
theorem B21_arg8 : B21 m c (main_arg8 : DevRef τ sig) = (m ((c.tc : Thread nD τ).loc main_arg8)) :=
  B21_of m c _ (args_untouched _ (by decide))
theorem B21_arg9 : B21 m c (main_arg9 : DevRef τ sig) = (m ((c.tc : Thread nD τ).loc main_arg9)) :=
  B21_of m c _ (args_untouched _ (by decide))

theorem reg0_out :
    B10 m c (main_v37 : DevRef τ sig) = Cert.Spec.gatherK (B9 m c (main_v33 : DevRef τ sig)) (B9 m c (main_v35 : DevRef τ sig)) (B9 m c (main_v36 : DevRef τ sig)) :=
  (exitOf_arr launch0 _ _ c 3).trans (gather_value0 (rd (B9 m)) c)
theorem reg1_out :
    B11 m c (main_v38 : DevRef τ sig) = Cert.Spec.scatterK (B10 m c (main_v34 : DevRef τ sig)) (B10 m c (main_v37 : DevRef τ sig)) :=
  (exitOf_arr launch1 _ _ c 2).trans (scatter_value1 (rd (B10 m)) c)
theorem reg2_out :
    B15 m c (main_v44 : DevRef τ sig) = Cert.Spec.gatherK (B14 m c (main_v33 : DevRef τ sig)) (B14 m c (main_v35 : DevRef τ sig)) (B14 m c (main_v43 : DevRef τ sig)) :=
  (exitOf_arr launch2 _ _ c 3).trans (gather_value2 (rd (B14 m)) c)
theorem reg3_out :
    B16 m c (main_v45 : DevRef τ sig) = Cert.Spec.scatterK (B15 m c (main_v34 : DevRef τ sig)) (B15 m c (main_v44 : DevRef τ sig)) :=
  (exitOf_arr launch3 _ _ c 2).trans (scatter_value3 (rd (B15 m)) c)
theorem reg4_out :
    B20 m c (main_v51 : DevRef τ sig) = Cert.Spec.gatherK (B19 m c (main_v33 : DevRef τ sig)) (B19 m c (main_v35 : DevRef τ sig)) (B19 m c (main_v50 : DevRef τ sig)) :=
  (exitOf_arr launch4 _ _ c 3).trans (gather_value4 (rd (B19 m)) c)
theorem reg5_out :
    B21 m c (main_v52 : DevRef τ sig) = Cert.Spec.scatterK (B20 m c (main_v34 : DevRef τ sig)) (B20 m c (main_v51 : DevRef τ sig)) :=
  (exitOf_arr launch5 _ _ c 2).trans (scatter_value5 (rd (B20 m)) c)

theorem layer1 :
    B11 m c (main_v38 : DevRef τ sig) = agg (m ((c.tc : Thread nD τ).loc main_arg1)) (x1 m c) := by
  rw [reg1_out m c, reg0_out m c, B10_v34' m c, B9_v33 m c, B9_v35 m c, B9_v36 m c]
  rfl

theorem layer2 (hconv : ConvBridge m c) :
    B14 m c (main_v43 : DevRef τ sig) = x2 m c := by
  refine (KerHost.mid2_v43 (B11 m c)).trans ?_
  rw [layer1 m c, B11_arg3 m c, B11_arg4 m c]
  exact congrArg (fun x => Host.dotGeneral (F := Ideal) (φ₁ := .f32) (φ₂ := .f32) dot_S50000x64_S64x64_S50000x64_1_0_0_1_n_n none (elu (F := Ideal) x) (m ((c.tc : Thread nD τ).loc main_arg4))) (hconv _ _).symm

theorem layer3 (hconv : ConvBridge m c) :
    B16 m c (main_v45 : DevRef τ sig) = agg (m ((c.tc : Thread nD τ).loc main_arg1)) (x2 m c) := by
  rw [reg3_out m c, reg2_out m c, B15_v34' m c, B14_v33' m c, B14_v35' m c, layer2 m c hconv]
  rfl

theorem layer4 (hconv : ConvBridge m c) :
    B19 m c (main_v50 : DevRef τ sig) = x3 m c := by
  refine (KerHost.mid4_v50 (B16 m c)).trans ?_
  rw [layer3 m c hconv, B16_arg5 m c, B16_arg6 m c]
  exact congrArg (fun x => Host.dotGeneral (F := Ideal) (φ₁ := .f32) (φ₂ := .f32) dot_S50000x64_S64x64_S50000x64_1_0_0_1_n_n none (elu (F := Ideal) x) (m ((c.tc : Thread nD τ).loc main_arg6))) (hconv _ _).symm

theorem layer5 (hconv : ConvBridge m c) :
    B21 m c (main_v52 : DevRef τ sig) = agg (m ((c.tc : Thread nD τ).loc main_arg1)) (x3 m c) := by
  rw [reg5_out m c, reg4_out m c, B20_v34' m c, B19_v33' m c, B19_v35' m c, layer4 m c hconv]
  rfl

theorem kernel_value (hconv : ConvBridge m c) :
    B22 m c (main_v59 : DevRef τ sig) = res (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (KerHost.tail6_v59 (B21 m c)).trans ?_
  rw [layer5 m c hconv, B21_arg7 m c, B21_arg8 m c, B21_arg9 m c]
  refine Eq.trans ?_ (KerHost.res_unfold (F := Ideal) _ _ _ _ _ _ _ _ _ _).symm
  exact congrArg (fun x => addf (F := Ideal) (Host.dotGeneral (F := Ideal) (φ₁ := .f32) (φ₂ := .f32) dot_S50000x64_S64x40_S50000x40_1_0_0_1_n_n none x (m ((c.tc : Thread nD τ).loc main_arg8))) (KerHost.biasRow40 (F := Ideal) (m ((c.tc : Thread nD τ).loc main_arg9)))) (hconv _ _).symm

end Cert.KernelIdeal.Hand

end
-- ==== Proof.Bridge.lean ====
import proofs.«139829_j5566277616457_1_alg».proof.Proof.RefRun
import proofs.«139829_j5566277616457_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

noncomputable section

open scoped BigOperators

namespace Cert.Bridge

open Cert.ReferenceIdeal Cert.ReferenceIdeal.Gen Cert.ReferenceIdeal.RefRun Idealize.ShloMosaic Idealize.ShloMosaic.ValueIdx

abbrev SD : ScatterDims S50000x64 S850000x1 S850000x64 := scatter_S50000x64_S850000x1_S850000x64_1_0_0_1

abbrev GD : GatherDims S50000x64 S850000x1 S850000x64 := gather_S50000x64_S850000x1_S850000x64_1_0_n_n_0_1_164

section Dims

variable (idx : IVec S850000x1 32) (e : Fin 850000) (h' : Fin 64)

theorem sd_siIdx (c : Fin SD.scatterDimsToOperandDims.length) : SD.siIdx (ix2 e h') c = ix2 e (0 : Fin 1) := by
  funext b; match b with
  | ⟨0, _⟩ => rfl
  | ⟨1, _⟩ => exact Fin.ext (Nat.lt_one_iff.1 c.2)

/-- Where update `(e, h')` lands on axis `a`. -/
abbrev sdPos (a : Fin 2) : Int := SD.start (ix2 e h') idx a + SD.window (ix2 e h') a

theorem sd_at : sdPos idx e h' 0 = (idx (ix2 e (0 : Fin 1))).toInt ∧ sdPos idx e h' 1 = h'.val := by
  unfold sdPos ScatterDims.start ScatterDims.window
  rw [dif_pos (show (0 : Fin 2) ∈ SD.scatterDimsToOperandDims by decide), sd_siIdx,
    dif_neg (show (1 : Fin 2) ∉ SD.scatterDimsToOperandDims by decide), dif_neg (show (0 : Fin 2) ∉ SD.sKept by decide),
    dif_pos (show (1 : Fin 2) ∈ SD.sKept by decide)]
  exact ⟨Int.add_zero _, Int.zero_add _⟩

/-- An update lands on `(n, h)` exactly when its index word is `n` and its column is `h`. -/
theorem sd_resultIdx_eq_some (n : Fin 50000) (h : Fin 64) :
    SD.resultIdx? (ix2 e h') idx = some (ix2 n h) ↔ (idx (ix2 e (0 : Fin 1))).toInt = (n.val : Int) ∧ h' = h := by
  obtain ⟨h0, h1⟩ := sd_at idx e h'
  have hn := n.isLt; have hh := h'.isLt
  unfold ScatterDims.resultIdx?
  split
  · rename_i hall
    have hb : 0 ≤ sdPos idx e h' 0 := (hall 0).1
    rw [Option.some.injEq, funext_iff, Fin.forall_fin_two, Fin.ext_iff, Fin.ext_iff, Fin.ext_iff]
    show (sdPos idx e h' 0).toNat = n.val ∧ (sdPos idx e h' 1).toNat = h.val ↔ _
    rw [h0] at hb; rw [h0, h1]; omega
  · rename_i hnot
    refine iff_of_false (fun hf => by simp at hf) fun ⟨hk, _⟩ => hnot ?_
    rw [Fin.forall_fin_two]
    show (0 ≤ sdPos idx e h' 0 ∧ sdPos idx e h' 0 < ((50000 : Nat) : Int)) ∧ 0 ≤ sdPos idx e h' 1 ∧ sdPos idx e h' 1 < ((64 : Nat) : Int)
    rw [h0, h1, hk]; omega

theorem gd_siIdx (c : Fin GD.startIndexMap.length) : GD.siIdx (ix2 e h') c = ix2 e (0 : Fin 1) := by
  funext b; match b with
  | ⟨0, _⟩ => rfl
  | ⟨1, _⟩ => exact Fin.ext (Nat.lt_one_iff.1 c.2)

/-- A gather whose index word is `k` reads row `k`. -/
theorem gd_operandIdx_of (k : Fin 50000) (hk : (idx (ix2 e (0 : Fin 1))).toInt = (k.val : Int)) :
    GD.operandIdx (ix2 e h') idx = ix2 k h' := by
  have hlt := k.isLt
  funext a; refine Fin.ext ?_
  match a with
  | ⟨0, _⟩ =>
    show GD.start (ix2 e h') idx 0 + GD.batchCoord (ix2 e h') 0 + GD.offCoord (ix2 e h') 0 = k.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ GD.startIndexMap by decide), gd_siIdx, hk]
    show min (k.val : Int).toNat 49999 + 0 + 0 = k.val
    omega
  | ⟨1, _⟩ =>
    show GD.start (ix2 e h') idx 1 + GD.batchCoord (ix2 e h') 1 + GD.offCoord (ix2 e h') 1 = h'.val
    rw [GatherDims.batchCoord_eq_zero _ _ _ List.not_mem_nil]
    unfold GatherDims.start GatherDims.offCoord
    rw [dif_neg (show (1 : Fin 2) ∉ GD.startIndexMap by decide), dif_pos (show (1 : Fin 2) ∈ GD.sKept by decide)]
    exact Nat.zero_add _

end Dims

theorem toInt_ofNat_small (n : Nat) (hn : n < 2 ^ 31) : (BitVec.ofNat 32 n).toInt = (n : Int) := by
  rw [BitVec.toInt_eq_toNat_cond, BitVec.toNat_ofNat, Nat.mod_eq_of_lt (by omega), if_pos (by omega)]

theorem ofNat_eq_iff_toInt (w : BitVec 32) (n : Nat) (hn : n < 2 ^ 31) : BitVec.ofNat 32 n = w ↔ w.toInt = (n : Int) :=
  ⟨fun h => h ▸ toInt_ofNat_small n hn, fun h => BitVec.eq_of_toInt_eq (by rw [h, toInt_ofNat_small n hn])⟩

theorem col_apply {α : Type} (v : S850000.Idx → α) (e : Fin 850000) :
    broadcastInDim S850000x1 ![0] bcast_S850000_S850000x1_0 v (ix2 e (0 : Fin 1)) = v (ix1 e) :=
  broadcastInDim_apply _ _ _ _ (ix1 e) (fun a => by match a with | ⟨0, _⟩ => exact (if_neg (show ¬ ((850000 : Nat) = 1) by decide)).symm)

theorem col_spread_apply {α : Type} (v : S850000.Idx → α) (e : Fin 850000) (h' : Fin 64) :
    broadcastInDim S850000x64 ![0, 1] bcast_S850000x1_S850000x64_0_1
      (broadcastInDim S850000x1 ![0] bcast_S850000_S850000x1_0 v) (ix2 e h') = v (ix1 e) :=
  (broadcastInDim_apply _ _ _ _ (ix2 e (0 : Fin 1)) (fun a => by
    match a with
    | ⟨0, _⟩ => exact (if_neg (show ¬ ((850000 : Nat) = 1) by decide)).symm
    | ⟨1, _⟩ => exact (if_pos rfl).symm)).trans (col_apply v e)

theorem wrap_of_nonneg (x : IVec S850000 32) (e : Fin 850000) (h : 0 ≤ (x (ix1 e)).toInt) :
    wrap x (ix2 e (0 : Fin 1)) = x (ix1 e) := by
  have hc : IntOp.cmpi .slt (x (ix1 e)) 0#32 = 0#1 := by
    have hn : ¬ (x (ix1 e)).toInt < (0#32 : BitVec 32).toInt := by
      rw [show (0#32 : BitVec 32).toInt = 0 from rfl]; omega
    simp only [IntOp.cmpi, BitVec.slt, decide_eq_false hn]
    rfl
  refine (col_apply _ e).trans ?_
  show Scalar.select (IntOp.cmpi .slt (x (ix1 e)) 0#32) _ _ = _
  rw [hc, select_zero]

theorem msgAt_pad (srcP : IVec Cert.Spec.SE 32) (nrm : S850000.Idx → EReal) (hp : S50000x64.Idx → EReal)
    (e : Fin 851968) (he : ¬ e.val < 850000) (h : Fin 64) :
    Cert.Spec.msgAt srcP (Cert.Spec.padF nrm) hp e h = 0 := by
  unfold Cert.Spec.msgAt
  rw [show Cert.Spec.padF nrm (ix2 (0 : Fin 1) e) = 0 from dif_neg he]
  exact Finset.sum_eq_zero fun n' _ => by rw [ite_self, zero_mul]

theorem sum_pad {M : Type*} [AddCommMonoid M] {a b : Nat} (hab : a ≤ b) (G : Fin a → M) :
    ∑ e : Fin b, (if h : e.val < a then G ⟨e.val, h⟩ else 0) = ∑ e : Fin a, G e := by
  have key := Fin.sum_univ_eq_sum_range fun i => if h : i < a then G ⟨i, h⟩ else 0
  exact ((key b).trans (Finset.sum_subset (Finset.range_mono hab)
    (by intro i _ hi; exact dif_neg (by simpa using hi))).symm).trans
    ((key a).symm.trans (Finset.sum_congr rfl fun e _ => dif_pos e.isLt))

section Edges

variable (a1 : IVec S2x800000 32)

theorem src2_lo (e : Fin 850000) (he : e.val < 800000) :
    src2 a1 (ix1 e) = a1 (ix2 (0 : Fin 2) (⟨e.val, he⟩ : Fin 800000)) := by
  unfold src2
  rw [concatenate_pair_apply_left (t := S850000) (s₁ := S800000) (s₂ := S50000) (0 : Fin 1) _ _
    concatenates_S800000_S50000_S850000_d0 (ix1 e) rfl
    (ix1 (⟨e.val, he⟩ : Fin 800000)) (fun b => by match b with | ⟨0, _⟩ => rfl)]
  rw [shapeCast_1a_a_apply]
  exact extractStridedSlice_apply _ _ _ _ (ix2 (0 : Fin 2) (⟨e.val, he⟩ : Fin 800000))
    (fun a => by
      match a with
      | ⟨0, _⟩ => rfl
      | ⟨1, _⟩ => exact (Nat.zero_add _).symm)

theorem src2_hi (e : Fin 850000) (he : 800000 ≤ e.val) :
    src2 a1 (ix1 e) = BitVec.ofNat 32 (e.val - 800000) := by
  unfold src2
  rw [concatenate_pair_apply_right (t := S850000) (s₁ := S800000) (s₂ := S50000) (0 : Fin 1) _ _
    concatenates_S800000_S50000_S850000_d0 (ix1 e) rfl rfl
    (ix1 (⟨e.val - 800000, by have := e.isLt; omega⟩ : Fin 50000))
    (fun b hb => by match b with | ⟨0, _⟩ => exact absurd rfl hb)
    (by show e.val - 800000 + 800000 = e.val; omega)]
  rfl

abbrev upd (hp : FVec Ideal S50000x64 .f32) : FVec Ideal S850000x64 .f32 :=
  mulf (F := Ideal)
    (broadcastInDim S850000x64 ![0, 1] bcast_S850000x1_S850000x64_0_1
      (broadcastInDim S850000x1 ![0] bcast_S850000_S850000x1_0 (norm (F := Ideal) a1)))
    (Host.gather gather_S50000x64_S850000x1_S850000x64_1_0_n_n_0_1_164 hp (wrap (src2 a1)))

variable (hsrc : ∀ e : Fin 800000, 0 ≤ (a1 (ix2 (0 : Fin 2) e)).toInt ∧ (a1 (ix2 (0 : Fin 2) e)).toInt < 50000)
include hsrc

theorem src2_range (e : Fin 850000) : 0 ≤ (src2 a1 (ix1 e)).toInt ∧ (src2 a1 (ix1 e)).toInt < 50000 := by
  by_cases he : e.val < 800000
  · rw [src2_lo a1 e he]; exact hsrc _
  · have hlt := e.isLt
    rw [src2_hi a1 e (by omega), toInt_ofNat_small _ (by omega)]
    omega

def srcNode (e : Fin 850000) : Fin 50000 :=
  ⟨(src2 a1 (ix1 e)).toInt.toNat, by have := src2_range a1 hsrc e; omega⟩

theorem srcNode_val (e : Fin 850000) : (src2 a1 (ix1 e)).toInt = ((srcNode a1 hsrc e).val : Int) := by
  have hr := src2_range a1 hsrc e
  show _ = (((src2 a1 (ix1 e)).toInt.toNat : Nat) : Int)
  omega

theorem upd_apply (hp : FVec Ideal S50000x64 .f32) (e : Fin 850000) (h' : Fin 64) :
    upd a1 hp (ix2 e h') = norm (F := Ideal) a1 (ix1 e) * hp (ix2 (srcNode a1 hsrc e) h') := by
  rw [upd, mulf_apply, col_spread_apply]
  show _ * hp (GD.operandIdx (ix2 e h') (wrap (src2 a1))) = _
  rw [gd_operandIdx_of (wrap (src2 a1)) e h' (srcNode a1 hsrc e)
    (by rw [wrap_of_nonneg (src2 a1) e (src2_range a1 hsrc e).1]; exact srcNode_val a1 hsrc e)]

theorem msgAt_real (nrm : S850000.Idx → EReal) (hp : S50000x64.Idx → EReal) (e : Fin 851968) (he : e.val < 850000) (h : Fin 64) :
    Cert.Spec.msgAt (Cert.Spec.padI (src2 a1)) (Cert.Spec.padF nrm) hp e h
      = nrm (ix1 ⟨e.val, he⟩) * hp (ix2 (srcNode a1 hsrc ⟨e.val, he⟩) h) := by
  have hv := srcNode_val a1 hsrc ⟨e.val, he⟩
  have hlt : ∀ n : Fin 50000, n.val < 2 ^ 31 := fun n => by have := n.isLt; omega
  unfold Cert.Spec.msgAt
  rw [show Cert.Spec.padI (src2 a1) (ix2 (0 : Fin 1) e) = src2 a1 (ix1 ⟨e.val, he⟩) from dif_pos he,
    show Cert.Spec.padF nrm (ix2 (0 : Fin 1) e) = nrm (ix1 ⟨e.val, he⟩) from dif_pos he,
    Finset.sum_eq_single (srcNode a1 hsrc ⟨e.val, he⟩) _ (fun hn => absurd (Finset.mem_univ _) hn),
    if_pos ((ofNat_eq_iff_toInt _ _ (hlt _)).2 hv)]
  intro n' _ hne
  rw [if_neg (fun heq => hne (Fin.ext (by have := (ofNat_eq_iff_toInt _ _ (hlt n')).1 heq; omega))), zero_mul]

/-- Both sides are the sum over the edges into `n` of the edge's weight times its source row. -/
theorem scatter_agg (hp : FVec Ideal S50000x64 .f32) (n : Fin 50000) (h : Fin 64) :
    Host.scatterAdd (F := Ideal) scatter_S50000x64_S850000x1_S850000x64_1_0_0_1
        (broadcastInDim S50000x64 ![] bcast_S_S50000x64 (constant (F := Ideal) S_ .f32 0x00000000#32))
        (broadcastInDim S850000x1 ![0] bcast_S850000_S850000x1_0 (dst2 a1)) (upd a1 hp) (ix2 n h)
      = Cert.Spec.aggAt (Cert.Spec.padI (dst2 a1))
        (Cert.Spec.gatherK (Cert.Spec.padI (src2 a1)) (Cert.Spec.padF (norm (F := Ideal) a1)) hp) n h := by
  have hn := n.isLt
  trans ∑ e : Fin 850000, if (dst2 a1 (ix1 e)).toInt = (n.val : Int)
    then norm (F := Ideal) a1 (ix1 e) * hp (ix2 (srcNode a1 hsrc e) h) else 0
  · rw [Host.scatterAdd, Ideal.hostScatterAdd_def]
    unfold Ideal.hostScatterAdd
    rw [broadcastInDim_scalar_apply, constant_apply, Ideal.ofBits_zero_f32, zero_add, Finset.sum_filter, sum_idx2]
    refine Finset.sum_congr rfl (fun e _ => ?_)
    have hc := col_apply (dst2 a1) e
    simp only [sd_resultIdx_eq_some]
    rw [hc]
    by_cases hk : (dst2 a1 (ix1 e)).toInt = (n.val : Int)
    · simp only [hk, true_and, if_true, Finset.sum_ite_eq', Finset.mem_univ, upd_apply a1 hsrc hp]
    · simp only [hk, false_and, if_false, Finset.sum_const_zero]
  · unfold Cert.Spec.aggAt
    rw [← sum_pad (a := 850000) (b := 851968) (by omega)]
    refine Finset.sum_congr rfl (fun e _ => ?_)
    rw [Cert.Spec.gatherK_apply]
    by_cases he : e.val < 850000
    · rw [dif_pos he, msgAt_real a1 hsrc _ _ e he h,
        show Cert.Spec.padI (dst2 a1) (ix2 (0 : Fin 1) e) = dst2 a1 (ix1 ⟨e.val, he⟩) from dif_pos he]
      simp only [ofNat_eq_iff_toInt _ _ (show n.val < 2 ^ 31 by omega), ite_mul, one_mul, zero_mul]
    · rw [dif_neg he, msgAt_pad _ _ _ e he h, mul_zero]

end Edges

theorem conv_eq (a1 : IVec S2x800000 32)
    (hsrc : ∀ e : Fin 800000, 0 ≤ (a1 (ix2 (0 : Fin 2) e)).toInt ∧ (a1 (ix2 (0 : Fin 2) e)).toInt < 50000)
    (hp : FVec Ideal S50000x64 .f32) (b : FVec Ideal S64 .f32) :
    conv (F := Ideal) a1 hp b
      = addf (F := Ideal)
          (Cert.Spec.scatterK (Cert.Spec.padI (dst2 a1))
            (Cert.Spec.gatherK (Cert.Spec.padI (src2 a1)) (Cert.Spec.padF (norm (F := Ideal) a1)) hp))
          (broadcastInDim S50000x64 ![0, 1] bcast_S1x64_S50000x64_0_1 (broadcastInDim S1x64 ![1] bcast_S64_S1x64_1 b)) := by
  unfold conv
  refine congrArg (fun x => addf (F := Ideal) x _) (funext fun j => ?_)
  obtain ⟨n, h, rfl⟩ : ∃ n h, j = ix2 n h := ⟨j 0, j 1, eq_ix2 j⟩
  exact scatter_agg a1 hsrc hp n h

end Cert.Bridge

end
-- ==== Proof.K.GatherBody0.lean ====
import proofs.«139829_j5566277616457_1_alg».proof.Proof.Gen.Kernel.Skeleton
import proofs.«139829_j5566277616457_1_alg».proof.Proof.Gen.Kernel.Launch
import Idealize.ShloMosaic.Lib.Pipeline.Frame
import Idealize.ShloMosaic.Lib.Tactic
import Idealize.ShloMosaic.Lib.Pipeline.FrameBody
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev first0 (i : grid0.Coords) : Prop :=
  (Scalar.cmpi .ne (Scalar.extui (Scalar.cmpi .eq (BitVec.ofNat 32 (i 1).val) 0#32)) 0#32) = 1#1

abbrev last0 (i : grid0.Coords) : Prop := k0_cond2 i = 1#1

theorem gather0_hz : (![0, 0] : Fin 2 → Nat) = fun _ => 0 := funext fun a => by fin_cases a <;> rfl

/-- The running sum after a step: this step's product added to zeros at the first step of a run, else to the sum found. -/
abbrev gather0_acc (i : grid0.Coords) (x2 : Vec F S1x4096 .i32) (x3 : Vec F S1x4096 .f32) (x4 : Vec F S2000x64 .f32)
    (s : Vec F S4096x64 .f32) : FVec F S4096x64 .f32 :=
  k0_pay2 i x2 x3 x4 (if first0 i then k0_pay1 (F := F) else s)

set_option maxHeartbeats 1000000 in
/-- One step of the body: the scratch ends at the running sum, and at the last step of a run the output block at that sum cast. -/
theorem gather0_body (c : Dev nD) (E : Set ℕ) (i : grid0.Coords)
    (arg2 : Memref sig .tc .vmem S1x4096 .i32) (harg2 : arg2.IsWhole) (arg3 : Memref sig .tc .vmem S1x4096 .f32) (harg3 : arg3.IsWhole)
    (arg4 : Memref sig .tc .vmem S2000x64 .f32) (harg4 : arg4.IsWhole) (arg5 : Memref sig .tc .vmem S4096x64 .bf16) (harg5 : arg5.IsWhole)
    (arg6 : Memref sig .tc .vmem S4096x64 .f32) (harg6 : arg6.IsWhole) (hfl : first0 i → ¬last0 i)
    (x2 : Vec F S1x4096 .i32) (x3 : Vec F S1x4096 .f32) (x4 : Vec F S2000x64 .f32) (x5 : Vec F S4096x64 .bf16) (s : Vec F S4096x64 .f32)
    (K : PUnit → sProp 𝕄) :
    iprop(owns (c : Thread nD τ) arg2 fullShare x2 ∗ owns (c : Thread nD τ) arg3 fullShare x3 ∗ owns (c : Thread nD τ) arg4 fullShare x4
        ∗ owns (c : Thread nD τ) arg5 fullShare x5 ∗ owns (c : Thread nD τ) arg6 fullShare s
        ∗ (iprop(owns (c : Thread nD τ) arg2 fullShare x2 ∗ owns (c : Thread nD τ) arg3 fullShare x3 ∗ owns (c : Thread nD τ) arg4 fullShare x4
            ∗ owns (c : Thread nD τ) arg5 fullShare (if last0 i then k0_pay3 (gather0_acc i x2 x3 x4 s) else x5)
            ∗ owns (c : Thread nD τ) arg6 fullShare (gather0_acc i x2 x3 x4 s)) -∗ K ⟨⟩))
      ⊢ wp frame (wpE (defs₀ (F := F)) Variants.none c none) E (cc0_kernel i arg2 harg2 arg3 harg3 arg4 harg4 arg5 harg5 arg6 harg6) K := by
  simp only [cc0_kernel_eq_skeleton]; unfold cc0_kernel_skel owns gather0_acc
  iintro ⟨⟨%f2, %hf2, H2⟩, ⟨%f3, %hf3, H3⟩, ⟨%f4, %hf4, H4⟩, ⟨%f5, %hf5, H5⟩, ⟨%f6, %hf6, H6⟩, Hk⟩
  obtain rfl := harg2.eq_unread hf2; obtain rfl := harg3.eq_unread hf3; obtain rfl := harg4.eq_unread hf4
  obtain rfl := harg6.eq_unread hf6
  by_cases hc0 : first0 i <;> by_cases hc1 : last0 i
  · exact absurd hc1 (hfl hc0)
  all_goals
    first | rw [if_pos hc0] | rw [if_neg hc0]
    first | rw [if_pos hc1] | rw [if_neg hc1]
    sl_exec (disch := first | exact hc0 | exact hc1)
    sl_step
    iapply Hk
    isplitl [H2]; · iexists _; isplitr; · ipureintro; exact harg2.read_unread _
                    iexact H2
    isplitl [H3]; · iexists _; isplitr; · ipureintro; exact harg3.read_unread _
                    iexact H3
    isplitl [H4]; · iexists _; isplitr; · ipureintro; exact harg4.read_unread _
                    iexact H4
    isplitl [H5]
    · first
      | (iexists f5; isplitr; · ipureintro; exact hf5
         iexact H5)
      | (iexists _; isplitr; swap; · iexact H5
         ipureintro; try sl_unfold_words
         rw [View.read_writes_eq_canon _ _ _ (fun y => ⟨_, List.Mem.head _, View.mem_set_unit_zero gather0_hz inb_S4096x64_S4096x64_0_0 y⟩)]
         simp only [View.canon_cons_unit_zero (S := S4096x64) gather0_hz, View.canon_unit_zero (S := S4096x64) gather0_hz,
           View.readCov_unit_zero (S := S4096x64) _ gather0_hz, View.readAt_eq_ld, harg2.read_unread, harg3.read_unread,
           harg4.read_unread, harg6.read_unread, View.ld_unit_zero (S := S1x4096) gather0_hz,
           View.ld_unit_zero (S := S2000x64) gather0_hz, View.ld_unit_zero (S := S4096x64) gather0_hz])
    iexists _; isplitr; swap; · iexact H6
    ipureintro; try sl_unfold_words
    rw [View.read_writes_eq_canon _ _ _ (fun y => ⟨_, List.Mem.head _, View.mem_set_unit_zero gather0_hz inb_S4096x64_S4096x64_0_0 y⟩)]
    simp only [View.canon_cons_unit_zero (S := S4096x64) gather0_hz, View.canon_unit_zero (S := S4096x64) gather0_hz,
      View.readCov_unit_zero (S := S4096x64) _ gather0_hz, View.readAt_eq_ld, harg2.read_unread, harg3.read_unread,
      harg4.read_unread, harg6.read_unread, View.ld_unit_zero (S := S1x4096) gather0_hz,
      View.ld_unit_zero (S := S2000x64) gather0_hz, View.ld_unit_zero (S := S4096x64) gather0_hz]

end Cert.Kernel.Hand

end
-- ==== Proof.K.Reg0.lean ====
import proofs.«139829_j5566277616457_1_alg».proof.Proof.Gen.Kernel.Skeleton
import proofs.«139829_j5566277616457_1_alg».proof.Proof.Gen.Kernel.Launch
import proofs.«139829_j5566277616457_1_alg».proof.Proof.Gen.Kernel.Points
import proofs.«139829_j5566277616457_1_alg».proof.Proof.K.GatherBody0
import Idealize.ShloMosaic.Lib.Pipeline.Frame
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running sum after point `n`: it restarts from zeros where the point's node-block coordinate is 0. -/
def accAt0 (c : Dev nD) : (n : ℕ) → n < cfg0.N → FVec F S4096x64 .f32
  | 0, hn => k0_pay2 (grid0.coords ⟨0, hn⟩) (iblk0 V c 0 ⟨0, hn⟩) (iblk0 V c 1 ⟨0, hn⟩) (iblk0 V c 2 ⟨0, hn⟩) (k0_pay1 (F := F))
  | n + 1, hn => k0_pay2 (grid0.coords ⟨n + 1, hn⟩) (iblk0 V c 0 ⟨n + 1, hn⟩) (iblk0 V c 1 ⟨n + 1, hn⟩) (iblk0 V c 2 ⟨n + 1, hn⟩)
      (if (n + 1) % 25 = 0 then (k0_pay1 (F := F)) else accAt0 c n (Nat.lt_of_succ_lt hn))

abbrev scM0 : Memref sig .tc .vmem S4096x64 .f32 := Memref.whole cc0_scratch0

/-- Before point `n` the scratch holds some sum, which after a point is that point's running sum. -/
def PhiS0 (c : Dev nD) (n : ℕ) (hn : n ≤ cfg0.N) : sProp 𝕄 :=
  iprop(((∃ s, ⌜∀ h : 0 < n, s = accAt0 V c (n - 1) (by omega)⌝ ∗ owns (c : Thread nD τ) scM0 fullShare s)
      ∗ Pipeline.scopedRestBut (Ix := Unit) (Name := ℕ) (U := UR sig nD τ) (Lvl := ℕ) (Val := Elt F) spec0 c [cc0_scratch0])
    ∗ (∃ r, prngReg c r))

/-- The region's proof data: the inputs keep their blocks, the output holds the running sum cast. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (accAt0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := rfl

theorem after0_3 (c : Dev nD) (t : Fin cfg0.N) : (dat0 V c).after 3 t = k0_pay3 (accAt0 V c t.val t.isLt) := rfl

/-- The two branch conditions in closed form, decided over the grid. -/
theorem hfirst0 : ∀ t : Fin cfg0.N, first0 (grid0.coords t) ↔ t.val % 25 = 0 :=
  (by decide +kernel : ∀ t : Fin grid0.N, first0 (grid0.coords t) ↔ t.val % 25 = 0)

theorem hlast0 : ∀ t : Fin cfg0.N, last0 (grid0.coords t) ↔ t.val % 25 = 24 :=
  (by decide +kernel : ∀ t : Fin grid0.N, last0 (grid0.coords t) ↔ t.val % 25 = 24)

theorem accAt0_first (c : Dev nD) (t : Fin cfg0.N) (h : t.val % 25 = 0) :
    accAt0 V c t.val t.isLt = k0_pay2 (grid0.coords t) (iblk0 V c 0 t) (iblk0 V c 1 t) (iblk0 V c 2 t) (k0_pay1 (F := F)) := by
  obtain ⟨n, hn⟩ := t
  cases n with
  | zero => rfl
  | succ n => exact congrArg (k0_pay2 _ _ _ _) (if_pos h)

theorem accAt0_next (c : Dev nD) (t : Fin cfg0.N) (h : ¬t.val % 25 = 0) :
    accAt0 V c t.val t.isLt = k0_pay2 (grid0.coords t) (iblk0 V c 0 t) (iblk0 V c 1 t) (iblk0 V c 2 t)
      (accAt0 V c (t.val - 1) (Nat.lt_of_le_of_lt (Nat.sub_le _ _) t.isLt)) := by
  obtain ⟨n, hn⟩ := t
  cases n with
  | zero => exact absurd (Nat.zero_mod _) h
  | succ n => exact congrArg (k0_pay2 _ _ _ _) (if_neg h)

/-- One step of the body's sum from what the invariant holds is the running sum: by the two unfoldings. -/
theorem accAt0_step (c : Dev nD) (t : Fin cfg0.N) (s : FVec F S4096x64 .f32)
    (hs : ∀ h : 0 < t.val, s = accAt0 V c (t.val - 1) (by omega)) :
    gather0_acc (grid0.coords t) (iblk0 V c 0 t) (iblk0 V c 1 t) (iblk0 V c 2 t) s = accAt0 V c t.val t.isLt := by
  unfold gather0_acc
  by_cases h0 : t.val % 25 = 0
  · rw [if_pos ((hfirst0 t).mpr h0), accAt0_first V c t h0]
  · rw [if_neg (mt (hfirst0 t).mp h0), accAt0_next V c t h0, hs (by omega)]

/-- The entry invariant with the scratch named. -/
theorem PhiA0_eq (c : Dev nD) :
    (Pipeline.ΦA spec0 c : sProp 𝕄)
      = iprop(iprop(iprop((∃ d, owns (c : Thread nD τ) scM0 fullShare d))
          ∗ Pipeline.scopedRestBut (Ix := Unit) (Name := ℕ) (U := UR sig nD τ) (Lvl := ℕ) (Val := Elt F) spec0 c [cc0_scratch0])
        ∗ (∃ r, prngReg c r)) := by
  unfold Pipeline.ΦA; rw [scopedRest0_split]; simp only [scM0, owns_whole]; try rfl

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

abbrev ms0_0 (t : Fin cfg0.N) : Memref sig .tc .vmem S1x4096 .i32 := win0_0.stage (cfg0.slots t 0)
abbrev ms0_1 (t : Fin cfg0.N) : Memref sig .tc .vmem S1x4096 .f32 := win0_1.stage (cfg0.slots t 1)
abbrev ms0_2 (t : Fin cfg0.N) : Memref sig .tc .vmem S2000x64 .f32 := win0_2.stage (cfg0.slots t 2)
abbrev ms0_3 (t : Fin cfg0.N) : Memref sig .tc .vmem S4096x64 .bf16 := win0_3.stage (cfg0.slots t 3)

/-- The body at any point: `gather0_body`, then the sum's unfolding and the output window's two cases. -/
theorem sound_body0 (c : Dev nD) (t : Fin cfg0.N) :
    iprop(PhiS0 V c t.val (Nat.le_of_lt t.isLt) ∗ (dat0 V c).owesAt () t.castSucc
      ∗ (∃ d, owns (c : Thread nD τ) (ms0_0 t) fullShare ((dat0 V c).before 0 t d))
      ∗ (∃ d, owns (c : Thread nD τ) (ms0_1 t) fullShare ((dat0 V c).before 1 t d))
      ∗ (∃ d, owns (c : Thread nD τ) (ms0_2 t) fullShare ((dat0 V c).before 2 t d))
      ∗ (∃ d, owns (c : Thread nD τ) (ms0_3 t) fullShare ((dat0 V c).before 3 t d)))
    ⊢ wp frame (wpE (defs₀ (F := F)) Variants.none c none) Set.univ (bodyAt0 t) (fun _ =>
      iprop(PhiS0 V c (t.val + 1) t.isLt ∗ (dat0 V c).owesAt () t.castSucc
        ∗ owns (c : Thread nD τ) (ms0_0 t) fullShare (iblk0 V c 0 t)
        ∗ owns (c : Thread nD τ) (ms0_1 t) fullShare (iblk0 V c 1 t)
        ∗ owns (c : Thread nD τ) (ms0_2 t) fullShare (iblk0 V c 2 t)
        ∗ (dat0 V c).leavesExact 3 t)) := by
  simp only [before0_0, before0_1, before0_2]
  unfold PhiS0 bodyAt0
  iintro ⟨⟨⟨⟨%s, %hs, HS⟩, HR⟩, Hg⟩, Ho, ⟨%d0, H0⟩, ⟨%d1, H1⟩, ⟨%d2, H2⟩, ⟨%d3, H3⟩⟩
  iapply (gather0_body c Set.univ (grid0.coords t) (ms0_0 t) (hstage0_0 ((cfg0.slots t 0).cast nbuf0_0)) (ms0_1 t) (hstage0_1 ((cfg0.slots t 1).cast nbuf0_1))
    (ms0_2 t) (hstage0_2 ((cfg0.slots t 2).cast nbuf0_2)) (ms0_3 t) (hstage0_3 ((cfg0.slots t 3).cast nbuf0_3)) scM0 (Memref.isWhole_whole _)
    (fun h0 h1 => by have := (hfirst0 t).mp h0; have := (hlast0 t).mp h1; omega)
    (iblk0 V c 0 t) (iblk0 V c 1 t) (iblk0 V c 2 t) ((dat0 V c).before 3 t d3) s _)
  iframe H0 H1 H2 H3 HS
  iintro ⟨H0, H1, H2, H3, HS⟩
  rw [accAt0_step V c t s hs]
  iframe HR Hg Ho H0 H1 H2
  isplitl [HS]
  · iexists _; iframe; ipureintro; exact fun _ => rfl
  by_cases h1 : last0 (grid0.coords t)
  · rw [if_pos h1]; unfold Dat.leavesExact
    rw [show cfg0.idle 3 (grid0.coords t) = false from by
      show (!(k0_cond2 _ == 1#1)) = false; rw [Bool.not_eq_false', beq_iff_eq]; exact h1]
    iexact H3
  · rw [if_neg h1, Dat.leavesExact_idle (dat0 V c) 3 t
      (by show (!(k0_cond2 _ == 1#1)) = true; rw [Bool.not_eq_true', beq_eq_false_iff_ne]; exact h1)
      (Bool.eq_false_iff.mpr fun hf => h1 ((hlast0 t).mpr ((flush0_3 t).mp hf)))]
    iexists _; iexact H3

theorem body_obligation0 (c : Dev nD) : BodyObligation (dat0 (F := F) V c) (defs₀ (F := F)) Variants.none () Set.univ := fun t => by
  rw [bigSep_W0, bigSep_W0]
  exact sound_body0 V c t

/-- Before the first point nothing is claimed of the scratch's contents, -/
theorem hin0 (c : Dev nD) : Pipeline.ΦA spec0 c ⊢ (dat0 V c).Φ 0 := by
  rw [PhiA0_eq]; dsimp only [dat0, PhiS0]
  iintro ⟨⟨⟨%d, HS⟩, HR⟩, Hg⟩
  iframe HR Hg
  iexists d; iframe HS; ipureintro; exact fun h => absurd h (Nat.lt_irrefl _)

/-- and after the last they are forgotten. -/
theorem hout0 (c : Dev nD) : (dat0 V c).Φ (Fin.last cfg0.N) ⊢ Pipeline.ΦA spec0 c := by
  rw [PhiA0_eq]; dsimp only [dat0, PhiS0]
  iintro ⟨⟨⟨%s, -, HS⟩, HR⟩, Hg⟩
  iframe HR Hg
  iexists s; iexact HS

end Region

end Cert.Kernel.Hand

end
-- ==== Proof.K.ScatterBody1.lean ====
import proofs.«139829_j5566277616457_1_alg».proof.Proof.Gen.Kernel.Skeleton
import proofs.«139829_j5566277616457_1_alg».proof.Proof.Gen.Kernel.Launch
import Idealize.ShloMosaic.Lib.Pipeline.Frame
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Every access is at offset zero: of the whole block. -/
theorem scatter1_hz : (![0, 0] : Fin 2 → Nat) = fun _ => 0 := funext fun a => by fin_cases a <;> rfl

/-- A list of writes whose last is of the whole block covers the block. -/
theorem scatter1_cover (p : Vec F S2000x64 .f32) (L : List (View.Piece (Elt F) S2000x64 .f32)) (y : S2000x64.Idx) :
    ∃ pc ∈ ((⟨Rect.unit (s := S2000x64) ![0, 0] S2000x64.size Facts₀.inb_S2000x64_S2000x64_0_0, p⟩ : View.Piece (Elt F) S2000x64 .f32) :: L),
      y ∈ pc.1.set :=
  ⟨_, List.mem_cons_self .., View.mem_set_unit_zero scatter1_hz Facts₀.inb_S2000x64_S2000x64_0_0 y⟩

/-- The first, -/
abbrev first1 (i : grid1.Coords) : Prop :=
  (Scalar.cmpi .ne (Scalar.extui (Scalar.cmpi .eq (BitVec.ofNat 32 (i 1).val) 0#32)) 0#32) = 1#1
/-- and the last step of a reduction. -/
abbrev last1 (i : grid1.Coords) : Prop := k1_cond2 i = 1#1

/-- The body at any grid point: the scratch restarts at a first step, gains the step's product, and is copied out at a last step. -/
theorem scatter1 (c : Dev nD) (E : Set ℕ) (i : grid1.Coords)
    (arg2 : Memref sig .tc .vmem S1x4096 .i32) (harg2 : arg2.IsWhole) (arg3 : Memref sig .tc .vmem S4096x64 .bf16) (harg3 : arg3.IsWhole)
    (arg4 : Memref sig .tc .vmem S2000x64 .f32) (harg4 : arg4.IsWhole) (arg5 : Memref sig .tc .vmem S2000x64 .f32) (harg5 : arg5.IsWhole)
    (x2 : Vec F S1x4096 .i32) (x3 : Vec F S4096x64 .bf16) (x4 s : Vec F S2000x64 .f32) (K : PUnit → sProp 𝕄) :
    iprop(owns (c : Thread nD τ) arg2 fullShare x2 ∗ owns (c : Thread nD τ) arg3 fullShare x3
        ∗ owns (c : Thread nD τ) arg4 fullShare x4 ∗ owns (c : Thread nD τ) arg5 fullShare s
        ∗ (iprop(owns (c : Thread nD τ) arg2 fullShare x2 ∗ owns (c : Thread nD τ) arg3 fullShare x3
            ∗ owns (c : Thread nD τ) arg4 fullShare
                (if last1 i then k1_pay2 i x2 x3 (if first1 i then k1_pay1 (F := F) else s) else x4)
            ∗ owns (c : Thread nD τ) arg5 fullShare (k1_pay2 i x2 x3 (if first1 i then k1_pay1 (F := F) else s))) -∗ K ⟨⟩))
      ⊢ wp frame (wpE (defs₀ (F := F)) Variants.none c none) E (cc1_kernel i arg2 harg2 arg3 harg3 arg4 harg4 arg5 harg5) K := by
  by_cases hc0 : first1 i <;> by_cases hc1 : last1 i <;>
  · first | rw [if_pos hc0] | rw [if_neg hc0]
    first | rw [if_pos hc1] | rw [if_neg hc1]
    simp only [cc1_kernel_eq_skeleton]; unfold cc1_kernel_skel owns
    iintro ⟨⟨%f2, %hf2, H2⟩, ⟨%f3, %hf3, H3⟩, ⟨%f4, %hf4, H4⟩, ⟨%f5, %hf5, H5⟩, Hk⟩
    subst hf2 hf3 hf4 hf5
    sl_exec
    sl_step
    iapply Hk
    isplitl [H2]; · iexists _; iframe; ipureintro; rfl
    isplitl [H3]; · iexists _; iframe; ipureintro; rfl
    isplitl [H4] <;>
    · iexists _; iframe; ipureintro; sl_unfold_words
      simp only [View.read_writes_eq_canon _ _ _ (scatter1_cover _ _), View.readCov_eq_canon_ld _ _ _ (scatter1_cover _ _),
        View.canon_cons_unit_zero (S := S2000x64) scatter1_hz, View.readAt_eq_ld, View.ld_unit_zero (S := S1x4096) scatter1_hz,
        View.ld_unit_zero (S := S4096x64) scatter1_hz, View.ld_unit_zero (S := S2000x64) scatter1_hz]

end Cert.Kernel.Hand

end
-- ==== Proof.K.Reg1.lean ====
import proofs.«139829_j5566277616457_1_alg».proof.Proof.Gen.Kernel.Skeleton
import proofs.«139829_j5566277616457_1_alg».proof.Proof.Gen.Kernel.Launch
import proofs.«139829_j5566277616457_1_alg».proof.Proof.Gen.Kernel.Points
import proofs.«139829_j5566277616457_1_alg».proof.Proof.K.ScatterBody1
import Idealize.ShloMosaic.Lib.Pipeline.Frame
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The running sum after point `n`: it restarts from zeros where the point's edge-block coordinate is 0. -/
def accAt1 (c : Dev nD) : (n : ℕ) → n < cfg1.N → FVec F S2000x64 .f32
  | 0, hn => k1_pay2 (grid1.coords ⟨0, hn⟩) (iblk1 V c 0 ⟨0, hn⟩) (iblk1 V c 1 ⟨0, hn⟩) (k1_pay1 (F := F))
  | n + 1, hn => k1_pay2 (grid1.coords ⟨n + 1, hn⟩) (iblk1 V c 0 ⟨n + 1, hn⟩) (iblk1 V c 1 ⟨n + 1, hn⟩)
      (if (n + 1) % 208 = 0 then (k1_pay1 (F := F)) else accAt1 c n (Nat.lt_of_succ_lt hn))

abbrev scM1 : Memref sig .tc .vmem S2000x64 .f32 := Memref.whole cc1_scratch0

/-- Before point `n` the scratch holds some sum, which after a point is that point's running sum. -/
def PhiS1 (c : Dev nD) (n : ℕ) (hn : n ≤ cfg1.N) : sProp 𝕄 :=
  iprop(((∃ s, ⌜∀ h : 0 < n, s = accAt1 V c (n - 1) (by omega)⌝ ∗ owns (c : Thread nD τ) scM1 fullShare s)
      ∗ Pipeline.scopedRestBut (Ix := Unit) (Name := ℕ) (U := UR sig nD τ) (Lvl := ℕ) (Val := Elt F) spec1 c [cc1_scratch0])
    ∗ (∃ r, prngReg c r))

/-- The region's proof data: the inputs keep their blocks, the output holds the running sum. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := rfl

theorem after1_2 (c : Dev nD) (t : Fin cfg1.N) : (dat1 V c).after 2 t = accAt1 V c t.val t.isLt := rfl

/-- The two branch conditions in closed form, decided over the grid. -/
theorem hfirst1 : ∀ t : Fin cfg1.N, first1 (grid1.coords t) ↔ t.val % 208 = 0 :=
  (by decide +kernel : ∀ t : Fin grid1.N, first1 (grid1.coords t) ↔ t.val % 208 = 0)

theorem hlast1 : ∀ t : Fin cfg1.N, last1 (grid1.coords t) ↔ t.val % 208 = 207 :=
  (by decide +kernel : ∀ t : Fin grid1.N, last1 (grid1.coords t) ↔ t.val % 208 = 207)

theorem accAt1_first (c : Dev nD) (t : Fin cfg1.N) (h : t.val % 208 = 0) :
    accAt1 V c t.val t.isLt = k1_pay2 (grid1.coords t) (iblk1 V c 0 t) (iblk1 V c 1 t) (k1_pay1 (F := F)) := by
  obtain ⟨n, hn⟩ := t
  cases n with
  | zero => rfl
  | succ n => exact congrArg (k1_pay2 _ _ _) (if_pos h)

theorem accAt1_next (c : Dev nD) (t : Fin cfg1.N) (h : ¬t.val % 208 = 0) :
    accAt1 V c t.val t.isLt = k1_pay2 (grid1.coords t) (iblk1 V c 0 t) (iblk1 V c 1 t)
      (accAt1 V c (t.val - 1) (Nat.lt_of_le_of_lt (Nat.sub_le _ _) t.isLt)) := by
  obtain ⟨n, hn⟩ := t
  cases n with
  | zero => exact absurd (Nat.zero_mod _) h
  | succ n => exact congrArg (k1_pay2 _ _ _) (if_neg h)

/-- One step of the body's sum from what the invariant holds is the running sum: by the two unfoldings. -/
theorem accAt1_step (c : Dev nD) (t : Fin cfg1.N) (s : FVec F S2000x64 .f32)
    (hs : ∀ h : 0 < t.val, s = accAt1 V c (t.val - 1) (by omega)) :
    k1_pay2 (grid1.coords t) (iblk1 V c 0 t) (iblk1 V c 1 t) (if first1 (grid1.coords t) then k1_pay1 (F := F) else s)
      = accAt1 V c t.val t.isLt := by
  by_cases h0 : t.val % 208 = 0
  · rw [if_pos ((hfirst1 t).mpr h0), accAt1_first V c t h0]
  · rw [if_neg (mt (hfirst1 t).mp h0), accAt1_next V c t h0, hs (by omega)]

/-- The entry invariant with the scratch named. -/
theorem PhiA1_eq (c : Dev nD) :
    (Pipeline.ΦA spec1 c : sProp 𝕄)
      = iprop(iprop(iprop((∃ d, owns (c : Thread nD τ) scM1 fullShare d))
          ∗ Pipeline.scopedRestBut (Ix := Unit) (Name := ℕ) (U := UR sig nD τ) (Lvl := ℕ) (Val := Elt F) spec1 c [cc1_scratch0])
        ∗ (∃ r, prngReg c r)) := by
  unfold Pipeline.ΦA; rw [scopedRest1_split]; simp only [scM1, owns_whole]; try rfl

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d

abbrev ms1_0 (t : Fin cfg1.N) : Memref sig .tc .vmem S1x4096 .i32 := win1_0.stage (cfg1.slots t 0)
abbrev ms1_1 (t : Fin cfg1.N) : Memref sig .tc .vmem S4096x64 .bf16 := win1_1.stage (cfg1.slots t 1)
abbrev ms1_2 (t : Fin cfg1.N) : Memref sig .tc .vmem S2000x64 .f32 := win1_2.stage (cfg1.slots t 2)

/-- The body at any point: `scatter1`, then the sum's unfolding and the output window's two cases. -/
theorem sound_body1 (c : Dev nD) (t : Fin cfg1.N) :
    iprop(PhiS1 V c t.val (Nat.le_of_lt t.isLt) ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d)))
    ⊢ wp frame (wpE (defs₀ (F := F)) Variants.none c none) Set.univ (bodyAt1 t) (fun _ =>
      iprop(PhiS1 V c (t.val + 1) t.isLt ∗ (dat1 V c).owesAt () t.castSucc
        ∗ owns (c : Thread nD τ) (ms1_0 t) fullShare (iblk1 V c 0 t)
        ∗ owns (c : Thread nD τ) (ms1_1 t) fullShare (iblk1 V c 1 t)
        ∗ (dat1 V c).leavesExact 2 t)) := by
  simp only [before1_0, before1_1]
  unfold PhiS1 bodyAt1
  iintro ⟨⟨⟨⟨%s, %hs, HS⟩, HR⟩, Hg⟩, Ho, ⟨%d0, H0⟩, ⟨%d1, H1⟩, ⟨%d2, H2⟩⟩
  iapply (scatter1 c Set.univ (grid1.coords t) (ms1_0 t) (hstage1_0 ((cfg1.slots t 0).cast nbuf1_0)) (ms1_1 t) (hstage1_1 ((cfg1.slots t 1).cast nbuf1_1))
    (ms1_2 t) (hstage1_2 ((cfg1.slots t 2).cast nbuf1_2)) scM1 (Memref.isWhole_whole _) (iblk1 V c 0 t) (iblk1 V c 1 t) ((dat1 V c).before 2 t d2) s _)
  iframe H0 H1 H2 HS
  iintro ⟨H0, H1, H2, HS⟩
  rw [accAt1_step V c t s hs]
  iframe HR Hg Ho H0 H1
  isplitl [HS]
  · iexists _; iframe; ipureintro; exact fun _ => rfl
  by_cases h1 : last1 (grid1.coords t)
  · rw [if_pos h1]; unfold Dat.leavesExact
    rw [show cfg1.idle 2 (grid1.coords t) = false from by
      show (!(k1_cond2 _ == 1#1)) = false; rw [Bool.not_eq_false', beq_iff_eq]; exact h1]
    iexact H2
  · rw [if_neg h1, Dat.leavesExact_idle (dat1 V c) 2 t
      (by show (!(k1_cond2 _ == 1#1)) = true; rw [Bool.not_eq_true', beq_eq_false_iff_ne]; exact h1)
      (Bool.eq_false_iff.mpr fun hf => h1 ((hlast1 t).mpr ((flush1_2 t).mp hf)))]
    iexists _; iexact H2

theorem body_obligation1 (c : Dev nD) : BodyObligation (dat1 (F := F) V c) (defs₀ (F := F)) Variants.none () Set.univ := fun t => by
  rw [bigSep_W1, bigSep_W1]
  exact sound_body1 V c t

/-- Before the first point nothing is claimed of the scratch's contents, -/
theorem hin1 (c : Dev nD) : Pipeline.ΦA spec1 c ⊢ (dat1 V c).Φ 0 := by
  rw [PhiA1_eq]; dsimp only [dat1, PhiS1]
  iintro ⟨⟨⟨%d, HS⟩, HR⟩, Hg⟩
  iframe HR Hg
  iexists d; iframe HS; ipureintro; exact fun h => absurd h (Nat.lt_irrefl _)

/-- and after the last they are forgotten. -/
theorem hout1 (c : Dev nD) : (dat1 V c).Φ (Fin.last cfg1.N) ⊢ Pipeline.ΦA spec1 c := by
  rw [PhiA1_eq]; dsimp only [dat1, PhiS1]
  iintro ⟨⟨⟨%s, -, HS⟩, HR⟩, Hg⟩
  iframe HR Hg
  iexists s; iexact HS

end Region

end Cert.Kernel.Hand

end
-- ==== Proof.K.Reg2.lean ====
import proofs.«139829_j5566277616457_1_alg».proof.Proof.Gen.Kernel.Skeleton
import proofs.«139829_j5566277616457_1_alg».proof.Proof.Gen.Kernel.Launch
import proofs.«139829_j5566277616457_1_alg».proof.Proof.Gen.Kernel.Points
import proofs.«139829_j5566277616457_1_alg».proof.Proof.K.GatherBody0
import Idealize.ShloMosaic.Lib.Pipeline.Frame
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The running sum after point `n`: it restarts from zeros where the point's node-block coordinate is 0. -/
def accAt2 (c : Dev nD) : (n : ℕ) → n < cfg2.N → FVec F S4096x64 .f32
  | 0, hn => k0_pay2 (grid2.coords ⟨0, hn⟩) (iblk2 V c 0 ⟨0, hn⟩) (iblk2 V c 1 ⟨0, hn⟩) (iblk2 V c 2 ⟨0, hn⟩) (k0_pay1 (F := F))
  | n + 1, hn => k0_pay2 (grid2.coords ⟨n + 1, hn⟩) (iblk2 V c 0 ⟨n + 1, hn⟩) (iblk2 V c 1 ⟨n + 1, hn⟩) (iblk2 V c 2 ⟨n + 1, hn⟩)
      (if (n + 1) % 25 = 0 then (k0_pay1 (F := F)) else accAt2 c n (Nat.lt_of_succ_lt hn))

abbrev scM2 : Memref sig .tc .vmem S4096x64 .f32 := Memref.whole cc2_scratch0

/-- Before point `n` the scratch holds some sum, which after a point is that point's running sum. -/
def PhiS2 (c : Dev nD) (n : ℕ) (hn : n ≤ cfg2.N) : sProp 𝕄 :=
  iprop(((∃ s, ⌜∀ h : 0 < n, s = accAt2 V c (n - 1) (by omega)⌝ ∗ owns (c : Thread nD τ) scM2 fullShare s)
      ∗ Pipeline.scopedRestBut (Ix := Unit) (Name := ℕ) (U := UR sig nD τ) (Lvl := ℕ) (Val := Elt F) spec2 c [cc2_scratch0])
    ∗ (∃ r, prngReg c r))

/-- The region's proof data: the inputs keep their blocks, the output holds the running sum cast. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k0_pay3 (accAt2 V c t.val t.isLt)
  Φ t := PhiS2 V c t.val (Nat.le_of_lt_succ t.isLt)
  q _ := fullShare
  owed _ := 0

theorem A_eq2 (c : Dev nD) (w : Fin cfg2.W) : (dat2 V c).A w = V c (Pipeline.arrRef spec2 w) := rfl

theorem after2_3 (c : Dev nD) (t : Fin cfg2.N) : (dat2 V c).after 3 t = k0_pay3 (accAt2 V c t.val t.isLt) := rfl

/-- The two branch conditions in closed form, decided over the grid. -/
theorem hfirst2 : ∀ t : Fin cfg2.N, first0 (grid2.coords t) ↔ t.val % 25 = 0 :=
  (by decide +kernel : ∀ t : Fin grid2.N, first0 (grid2.coords t) ↔ t.val % 25 = 0)

theorem hlast2 : ∀ t : Fin cfg2.N, last0 (grid2.coords t) ↔ t.val % 25 = 24 :=
  (by decide +kernel : ∀ t : Fin grid2.N, last0 (grid2.coords t) ↔ t.val % 25 = 24)

theorem accAt2_first (c : Dev nD) (t : Fin cfg2.N) (h : t.val % 25 = 0) :
    accAt2 V c t.val t.isLt = k0_pay2 (grid2.coords t) (iblk2 V c 0 t) (iblk2 V c 1 t) (iblk2 V c 2 t) (k0_pay1 (F := F)) := by
  obtain ⟨n, hn⟩ := t
  cases n with
  | zero => rfl
  | succ n => exact congrArg (k0_pay2 _ _ _ _) (if_pos h)

theorem accAt2_next (c : Dev nD) (t : Fin cfg2.N) (h : ¬t.val % 25 = 0) :
    accAt2 V c t.val t.isLt = k0_pay2 (grid2.coords t) (iblk2 V c 0 t) (iblk2 V c 1 t) (iblk2 V c 2 t)
      (accAt2 V c (t.val - 1) (Nat.lt_of_le_of_lt (Nat.sub_le _ _) t.isLt)) := by
  obtain ⟨n, hn⟩ := t
  cases n with
  | zero => exact absurd (Nat.zero_mod _) h
  | succ n => exact congrArg (k0_pay2 _ _ _ _) (if_neg h)

/-- One step of the body's sum from what the invariant holds is the running sum: by the two unfoldings. -/
theorem accAt2_step (c : Dev nD) (t : Fin cfg2.N) (s : FVec F S4096x64 .f32)
    (hs : ∀ h : 0 < t.val, s = accAt2 V c (t.val - 1) (by omega)) :
    gather0_acc (grid2.coords t) (iblk2 V c 0 t) (iblk2 V c 1 t) (iblk2 V c 2 t) s = accAt2 V c t.val t.isLt := by
  unfold gather0_acc
  by_cases h0 : t.val % 25 = 0
  · rw [if_pos ((hfirst2 t).mpr h0), accAt2_first V c t h0]
  · rw [if_neg (mt (hfirst2 t).mp h0), accAt2_next V c t h0, hs (by omega)]

/-- The entry invariant with the scratch named. -/
theorem PhiA2_eq (c : Dev nD) :
    (Pipeline.ΦA spec2 c : sProp 𝕄)
      = iprop(iprop(iprop((∃ d, owns (c : Thread nD τ) scM2 fullShare d))
          ∗ Pipeline.scopedRestBut (Ix := Unit) (Name := ℕ) (U := UR sig nD τ) (Lvl := ℕ) (Val := Elt F) spec2 c [cc2_scratch0])
        ∗ (∃ r, prngReg c r)) := by
  unfold Pipeline.ΦA; rw [scopedRest2_split]; simp only [scM2, owns_whole]; try rfl

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d

abbrev ms2_0 (t : Fin cfg2.N) : Memref sig .tc .vmem S1x4096 .i32 := win2_0.stage (cfg2.slots t 0)
abbrev ms2_1 (t : Fin cfg2.N) : Memref sig .tc .vmem S1x4096 .f32 := win2_1.stage (cfg2.slots t 1)
abbrev ms2_2 (t : Fin cfg2.N) : Memref sig .tc .vmem S2000x64 .f32 := win2_2.stage (cfg2.slots t 2)
abbrev ms2_3 (t : Fin cfg2.N) : Memref sig .tc .vmem S4096x64 .bf16 := win2_3.stage (cfg2.slots t 3)

/-- The body at any point: `gather0_body`, then the sum's unfolding and the output window's two cases. -/
theorem sound_body2 (c : Dev nD) (t : Fin cfg2.N) :
    iprop(PhiS2 V c t.val (Nat.le_of_lt t.isLt) ∗ (dat2 V c).owesAt () t.castSucc
      ∗ (∃ d, owns (c : Thread nD τ) (ms2_0 t) fullShare ((dat2 V c).before 0 t d))
      ∗ (∃ d, owns (c : Thread nD τ) (ms2_1 t) fullShare ((dat2 V c).before 1 t d))
      ∗ (∃ d, owns (c : Thread nD τ) (ms2_2 t) fullShare ((dat2 V c).before 2 t d))
      ∗ (∃ d, owns (c : Thread nD τ) (ms2_3 t) fullShare ((dat2 V c).before 3 t d)))
    ⊢ wp frame (wpE (defs₀ (F := F)) Variants.none c none) Set.univ (bodyAt2 t) (fun _ =>
      iprop(PhiS2 V c (t.val + 1) t.isLt ∗ (dat2 V c).owesAt () t.castSucc
        ∗ owns (c : Thread nD τ) (ms2_0 t) fullShare (iblk2 V c 0 t)
        ∗ owns (c : Thread nD τ) (ms2_1 t) fullShare (iblk2 V c 1 t)
        ∗ owns (c : Thread nD τ) (ms2_2 t) fullShare (iblk2 V c 2 t)
        ∗ (dat2 V c).leavesExact 3 t)) := by
  simp only [before2_0, before2_1, before2_2]
  unfold PhiS2 bodyAt2
  iintro ⟨⟨⟨⟨%s, %hs, HS⟩, HR⟩, Hg⟩, Ho, ⟨%d0, H0⟩, ⟨%d1, H1⟩, ⟨%d2, H2⟩, ⟨%d3, H3⟩⟩
  iapply (gather0_body c Set.univ (grid2.coords t) (ms2_0 t) (hstage2_0 ((cfg2.slots t 0).cast nbuf2_0)) (ms2_1 t) (hstage2_1 ((cfg2.slots t 1).cast nbuf2_1))
    (ms2_2 t) (hstage2_2 ((cfg2.slots t 2).cast nbuf2_2)) (ms2_3 t) (hstage2_3 ((cfg2.slots t 3).cast nbuf2_3)) scM2 (Memref.isWhole_whole _)
    (fun h0 h1 => by have := (hfirst2 t).mp h0; have := (hlast2 t).mp h1; omega)
    (iblk2 V c 0 t) (iblk2 V c 1 t) (iblk2 V c 2 t) ((dat2 V c).before 3 t d3) s _)
  iframe H0 H1 H2 H3 HS
  iintro ⟨H0, H1, H2, H3, HS⟩
  rw [accAt2_step V c t s hs]
  iframe HR Hg Ho H0 H1 H2
  isplitl [HS]
  · iexists _; iframe; ipureintro; exact fun _ => rfl
  by_cases h1 : last0 (grid2.coords t)
  · rw [if_pos h1]; unfold Dat.leavesExact
    rw [show cfg2.idle 3 (grid2.coords t) = false from by
      show (!(k0_cond2 _ == 1#1)) = false; rw [Bool.not_eq_false', beq_iff_eq]; exact h1]
    iexact H3
  · rw [if_neg h1, Dat.leavesExact_idle (dat2 V c) 3 t
      (by show (!(k0_cond2 _ == 1#1)) = true; rw [Bool.not_eq_true', beq_eq_false_iff_ne]; exact h1)
      (Bool.eq_false_iff.mpr fun hf => h1 ((hlast2 t).mpr ((flush2_3 t).mp hf)))]
    iexists _; iexact H3

theorem body_obligation2 (c : Dev nD) : BodyObligation (dat2 (F := F) V c) (defs₀ (F := F)) Variants.none () Set.univ := fun t => by
  rw [bigSep_W2, bigSep_W2]
  exact sound_body2 V c t

/-- Before the first point nothing is claimed of the scratch's contents, -/
theorem hin2 (c : Dev nD) : Pipeline.ΦA spec2 c ⊢ (dat2 V c).Φ 0 := by
  rw [PhiA2_eq]; dsimp only [dat2, PhiS2]
  iintro ⟨⟨⟨%d, HS⟩, HR⟩, Hg⟩
  iframe HR Hg
  iexists d; iframe HS; ipureintro; exact fun h => absurd h (Nat.lt_irrefl _)

/-- and after the last they are forgotten. -/
theorem hout2 (c : Dev nD) : (dat2 V c).Φ (Fin.last cfg2.N) ⊢ Pipeline.ΦA spec2 c := by
  rw [PhiA2_eq]; dsimp only [dat2, PhiS2]
  iintro ⟨⟨⟨%s, -, HS⟩, HR⟩, Hg⟩
  iframe HR Hg
  iexists s; iexact HS

end Region

end Cert.Kernel.Hand

end
-- ==== Proof.K.Reg3.lean ====
import proofs.«139829_j5566277616457_1_alg».proof.Proof.Gen.Kernel.Skeleton
import proofs.«139829_j5566277616457_1_alg».proof.Proof.Gen.Kernel.Launch
import proofs.«139829_j5566277616457_1_alg».proof.Proof.Gen.Kernel.Points
import proofs.«139829_j5566277616457_1_alg».proof.Proof.K.ScatterBody1
import Idealize.ShloMosaic.Lib.Pipeline.Frame
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The running sum after point `n`: it restarts from zeros where the point's edge-block coordinate is 0. -/
def accAt3 (c : Dev nD) : (n : ℕ) → n < cfg3.N → FVec F S2000x64 .f32
  | 0, hn => k1_pay2 (grid3.coords ⟨0, hn⟩) (iblk3 V c 0 ⟨0, hn⟩) (iblk3 V c 1 ⟨0, hn⟩) (k1_pay1 (F := F))
  | n + 1, hn => k1_pay2 (grid3.coords ⟨n + 1, hn⟩) (iblk3 V c 0 ⟨n + 1, hn⟩) (iblk3 V c 1 ⟨n + 1, hn⟩)
      (if (n + 1) % 208 = 0 then (k1_pay1 (F := F)) else accAt3 c n (Nat.lt_of_succ_lt hn))

abbrev scM3 : Memref sig .tc .vmem S2000x64 .f32 := Memref.whole cc3_scratch0

/-- Before point `n` the scratch holds some sum, which after a point is that point's running sum. -/
def PhiS3 (c : Dev nD) (n : ℕ) (hn : n ≤ cfg3.N) : sProp 𝕄 :=
  iprop(((∃ s, ⌜∀ h : 0 < n, s = accAt3 V c (n - 1) (by omega)⌝ ∗ owns (c : Thread nD τ) scM3 fullShare s)
      ∗ Pipeline.scopedRestBut (Ix := Unit) (Name := ℕ) (U := UR sig nD τ) (Lvl := ℕ) (Val := Elt F) spec3 c [cc3_scratch0])
    ∗ (∃ r, prngReg c r))

/-- The region's proof data: the inputs keep their blocks, the output holds the running sum. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => accAt3 V c t.val t.isLt
  Φ t := PhiS3 V c t.val (Nat.le_of_lt_succ t.isLt)
  q _ := fullShare
  owed _ := 0

theorem A_eq3 (c : Dev nD) (w : Fin cfg3.W) : (dat3 V c).A w = V c (Pipeline.arrRef spec3 w) := rfl

theorem after3_2 (c : Dev nD) (t : Fin cfg3.N) : (dat3 V c).after 2 t = accAt3 V c t.val t.isLt := rfl

/-- The two branch conditions in closed form, decided over the grid. -/
theorem hfirst3 : ∀ t : Fin cfg3.N, first1 (grid3.coords t) ↔ t.val % 208 = 0 :=
  (by decide +kernel : ∀ t : Fin grid3.N, first1 (grid3.coords t) ↔ t.val % 208 = 0)

theorem hlast3 : ∀ t : Fin cfg3.N, last1 (grid3.coords t) ↔ t.val % 208 = 207 :=
  (by decide +kernel : ∀ t : Fin grid3.N, last1 (grid3.coords t) ↔ t.val % 208 = 207)

theorem accAt3_first (c : Dev nD) (t : Fin cfg3.N) (h : t.val % 208 = 0) :
    accAt3 V c t.val t.isLt = k1_pay2 (grid3.coords t) (iblk3 V c 0 t) (iblk3 V c 1 t) (k1_pay1 (F := F)) := by
  obtain ⟨n, hn⟩ := t
  cases n with
  | zero => rfl
  | succ n => exact congrArg (k1_pay2 _ _ _) (if_pos h)

theorem accAt3_next (c : Dev nD) (t : Fin cfg3.N) (h : ¬t.val % 208 = 0) :
    accAt3 V c t.val t.isLt = k1_pay2 (grid3.coords t) (iblk3 V c 0 t) (iblk3 V c 1 t)
      (accAt3 V c (t.val - 1) (Nat.lt_of_le_of_lt (Nat.sub_le _ _) t.isLt)) := by
  obtain ⟨n, hn⟩ := t
  cases n with
  | zero => exact absurd (Nat.zero_mod _) h
  | succ n => exact congrArg (k1_pay2 _ _ _) (if_neg h)

/-- One step of the body's sum from what the invariant holds is the running sum: by the two unfoldings. -/
theorem accAt3_step (c : Dev nD) (t : Fin cfg3.N) (s : FVec F S2000x64 .f32)
    (hs : ∀ h : 0 < t.val, s = accAt3 V c (t.val - 1) (by omega)) :
    k1_pay2 (grid3.coords t) (iblk3 V c 0 t) (iblk3 V c 1 t) (if first1 (grid3.coords t) then k1_pay1 (F := F) else s)
      = accAt3 V c t.val t.isLt := by
  by_cases h0 : t.val % 208 = 0
  · rw [if_pos ((hfirst3 t).mpr h0), accAt3_first V c t h0]
  · rw [if_neg (mt (hfirst3 t).mp h0), accAt3_next V c t h0, hs (by omega)]

/-- The entry invariant with the scratch named. -/
theorem PhiA3_eq (c : Dev nD) :
    (Pipeline.ΦA spec3 c : sProp 𝕄)
      = iprop(iprop(iprop((∃ d, owns (c : Thread nD τ) scM3 fullShare d))
          ∗ Pipeline.scopedRestBut (Ix := Unit) (Name := ℕ) (U := UR sig nD τ) (Lvl := ℕ) (Val := Elt F) spec3 c [cc3_scratch0])
        ∗ (∃ r, prngReg c r)) := by
  unfold Pipeline.ΦA; rw [scopedRest3_split]; simp only [scM3, owns_whole]; try rfl

theorem before3_0 (c : Dev nD) (t : Fin cfg3.N) (d) : (dat3 V c).before 0 t d = iblk3 V c 0 t :=
  (dat3 V c).before_in_eq_fetched 0 rfl (fun _ => rfl) (fun _ _ _ => rfl) (fun _ => rfl) t d
theorem before3_1 (c : Dev nD) (t : Fin cfg3.N) (d) : (dat3 V c).before 1 t d = iblk3 V c 1 t :=
  (dat3 V c).before_in_eq_fetched 1 rfl (fun _ => rfl) (fun _ _ _ => rfl) (fun _ => rfl) t d

abbrev ms3_0 (t : Fin cfg3.N) : Memref sig .tc .vmem S1x4096 .i32 := win3_0.stage (cfg3.slots t 0)
abbrev ms3_1 (t : Fin cfg3.N) : Memref sig .tc .vmem S4096x64 .bf16 := win3_1.stage (cfg3.slots t 1)
abbrev ms3_2 (t : Fin cfg3.N) : Memref sig .tc .vmem S2000x64 .f32 := win3_2.stage (cfg3.slots t 2)

/-- The body at any point: `scatter1`, then the sum's unfolding and the output window's two cases. -/
theorem sound_body3 (c : Dev nD) (t : Fin cfg3.N) :
    iprop(PhiS3 V c t.val (Nat.le_of_lt t.isLt) ∗ (dat3 V c).owesAt () t.castSucc
      ∗ (∃ d, owns (c : Thread nD τ) (ms3_0 t) fullShare ((dat3 V c).before 0 t d))
      ∗ (∃ d, owns (c : Thread nD τ) (ms3_1 t) fullShare ((dat3 V c).before 1 t d))
      ∗ (∃ d, owns (c : Thread nD τ) (ms3_2 t) fullShare ((dat3 V c).before 2 t d)))
    ⊢ wp frame (wpE (defs₀ (F := F)) Variants.none c none) Set.univ (bodyAt3 t) (fun _ =>
      iprop(PhiS3 V c (t.val + 1) t.isLt ∗ (dat3 V c).owesAt () t.castSucc
        ∗ owns (c : Thread nD τ) (ms3_0 t) fullShare (iblk3 V c 0 t)
        ∗ owns (c : Thread nD τ) (ms3_1 t) fullShare (iblk3 V c 1 t)
        ∗ (dat3 V c).leavesExact 2 t)) := by
  simp only [before3_0, before3_1]
  unfold PhiS3 bodyAt3
  iintro ⟨⟨⟨⟨%s, %hs, HS⟩, HR⟩, Hg⟩, Ho, ⟨%d0, H0⟩, ⟨%d1, H1⟩, ⟨%d2, H2⟩⟩
  iapply (scatter1 c Set.univ (grid3.coords t) (ms3_0 t) (hstage3_0 ((cfg3.slots t 0).cast nbuf3_0)) (ms3_1 t) (hstage3_1 ((cfg3.slots t 1).cast nbuf3_1))
    (ms3_2 t) (hstage3_2 ((cfg3.slots t 2).cast nbuf3_2)) scM3 (Memref.isWhole_whole _) (iblk3 V c 0 t) (iblk3 V c 1 t) ((dat3 V c).before 2 t d2) s _)
  iframe H0 H1 H2 HS
  iintro ⟨H0, H1, H2, HS⟩
  rw [accAt3_step V c t s hs]
  iframe HR Hg Ho H0 H1
  isplitl [HS]
  · iexists _; iframe; ipureintro; exact fun _ => rfl
  by_cases h1 : last1 (grid3.coords t)
  · rw [if_pos h1]; unfold Dat.leavesExact
    rw [show cfg3.idle 2 (grid3.coords t) = false from by
      show (!(k1_cond2 _ == 1#1)) = false; rw [Bool.not_eq_false', beq_iff_eq]; exact h1]
    iexact H2
  · rw [if_neg h1, Dat.leavesExact_idle (dat3 V c) 2 t
      (by show (!(k1_cond2 _ == 1#1)) = true; rw [Bool.not_eq_true', beq_eq_false_iff_ne]; exact h1)
      (Bool.eq_false_iff.mpr fun hf => h1 ((hlast3 t).mpr ((flush3_2 t).mp hf)))]
    iexists _; iexact H2

theorem body_obligation3 (c : Dev nD) : BodyObligation (dat3 (F := F) V c) (defs₀ (F := F)) Variants.none () Set.univ := fun t => by
  rw [bigSep_W3, bigSep_W3]
  exact sound_body3 V c t

/-- Before the first point nothing is claimed of the scratch's contents, -/
theorem hin3 (c : Dev nD) : Pipeline.ΦA spec3 c ⊢ (dat3 V c).Φ 0 := by
  rw [PhiA3_eq]; dsimp only [dat3, PhiS3]
  iintro ⟨⟨⟨%d, HS⟩, HR⟩, Hg⟩
  iframe HR Hg
  iexists d; iframe HS; ipureintro; exact fun h => absurd h (Nat.lt_irrefl _)

/-- and after the last they are forgotten. -/
theorem hout3 (c : Dev nD) : (dat3 V c).Φ (Fin.last cfg3.N) ⊢ Pipeline.ΦA spec3 c := by
  rw [PhiA3_eq]; dsimp only [dat3, PhiS3]
  iintro ⟨⟨⟨%s, -, HS⟩, HR⟩, Hg⟩
  iframe HR Hg
  iexists s; iexact HS

end Region

end Cert.Kernel.Hand

end
-- ==== Proof.K.Reg4.lean ====
import proofs.«139829_j5566277616457_1_alg».proof.Proof.Gen.Kernel.Skeleton
import proofs.«139829_j5566277616457_1_alg».proof.Proof.Gen.Kernel.Launch
import proofs.«139829_j5566277616457_1_alg».proof.Proof.Gen.Kernel.Points
import proofs.«139829_j5566277616457_1_alg».proof.Proof.K.GatherBody0
import Idealize.ShloMosaic.Lib.Pipeline.Frame
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The running sum after point `n`: it restarts from zeros where the point's node-block coordinate is 0. -/
def accAt4 (c : Dev nD) : (n : ℕ) → n < cfg4.N → FVec F S4096x64 .f32
  | 0, hn => k0_pay2 (grid4.coords ⟨0, hn⟩) (iblk4 V c 0 ⟨0, hn⟩) (iblk4 V c 1 ⟨0, hn⟩) (iblk4 V c 2 ⟨0, hn⟩) (k0_pay1 (F := F))
  | n + 1, hn => k0_pay2 (grid4.coords ⟨n + 1, hn⟩) (iblk4 V c 0 ⟨n + 1, hn⟩) (iblk4 V c 1 ⟨n + 1, hn⟩) (iblk4 V c 2 ⟨n + 1, hn⟩)
      (if (n + 1) % 25 = 0 then (k0_pay1 (F := F)) else accAt4 c n (Nat.lt_of_succ_lt hn))

abbrev scM4 : Memref sig .tc .vmem S4096x64 .f32 := Memref.whole cc4_scratch0

/-- Before point `n` the scratch holds some sum, which after a point is that point's running sum. -/
def PhiS4 (c : Dev nD) (n : ℕ) (hn : n ≤ cfg4.N) : sProp 𝕄 :=
  iprop(((∃ s, ⌜∀ h : 0 < n, s = accAt4 V c (n - 1) (by omega)⌝ ∗ owns (c : Thread nD τ) scM4 fullShare s)
      ∗ Pipeline.scopedRestBut (Ix := Unit) (Name := ℕ) (U := UR sig nD τ) (Lvl := ℕ) (Val := Elt F) spec4 c [cc4_scratch0])
    ∗ (∃ r, prngReg c r))

/-- The region's proof data: the inputs keep their blocks, the output holds the running sum cast. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k0_pay3 (accAt4 V c t.val t.isLt)
  Φ t := PhiS4 V c t.val (Nat.le_of_lt_succ t.isLt)
  q _ := fullShare
  owed _ := 0

theorem A_eq4 (c : Dev nD) (w : Fin cfg4.W) : (dat4 V c).A w = V c (Pipeline.arrRef spec4 w) := rfl

theorem after4_3 (c : Dev nD) (t : Fin cfg4.N) : (dat4 V c).after 3 t = k0_pay3 (accAt4 V c t.val t.isLt) := rfl

/-- The two branch conditions in closed form, decided over the grid. -/
theorem hfirst4 : ∀ t : Fin cfg4.N, first0 (grid4.coords t) ↔ t.val % 25 = 0 :=
  (by decide +kernel : ∀ t : Fin grid4.N, first0 (grid4.coords t) ↔ t.val % 25 = 0)

theorem hlast4 : ∀ t : Fin cfg4.N, last0 (grid4.coords t) ↔ t.val % 25 = 24 :=
  (by decide +kernel : ∀ t : Fin grid4.N, last0 (grid4.coords t) ↔ t.val % 25 = 24)

theorem accAt4_first (c : Dev nD) (t : Fin cfg4.N) (h : t.val % 25 = 0) :
    accAt4 V c t.val t.isLt = k0_pay2 (grid4.coords t) (iblk4 V c 0 t) (iblk4 V c 1 t) (iblk4 V c 2 t) (k0_pay1 (F := F)) := by
  obtain ⟨n, hn⟩ := t
  cases n with
  | zero => rfl
  | succ n => exact congrArg (k0_pay2 _ _ _ _) (if_pos h)

theorem accAt4_next (c : Dev nD) (t : Fin cfg4.N) (h : ¬t.val % 25 = 0) :
    accAt4 V c t.val t.isLt = k0_pay2 (grid4.coords t) (iblk4 V c 0 t) (iblk4 V c 1 t) (iblk4 V c 2 t)
      (accAt4 V c (t.val - 1) (Nat.lt_of_le_of_lt (Nat.sub_le _ _) t.isLt)) := by
  obtain ⟨n, hn⟩ := t
  cases n with
  | zero => exact absurd (Nat.zero_mod _) h
  | succ n => exact congrArg (k0_pay2 _ _ _ _) (if_neg h)

/-- One step of the body's sum from what the invariant holds is the running sum: by the two unfoldings. -/
theorem accAt4_step (c : Dev nD) (t : Fin cfg4.N) (s : FVec F S4096x64 .f32)
    (hs : ∀ h : 0 < t.val, s = accAt4 V c (t.val - 1) (by omega)) :
    gather0_acc (grid4.coords t) (iblk4 V c 0 t) (iblk4 V c 1 t) (iblk4 V c 2 t) s = accAt4 V c t.val t.isLt := by
  unfold gather0_acc
  by_cases h0 : t.val % 25 = 0
  · rw [if_pos ((hfirst4 t).mpr h0), accAt4_first V c t h0]
  · rw [if_neg (mt (hfirst4 t).mp h0), accAt4_next V c t h0, hs (by omega)]

/-- The entry invariant with the scratch named. -/
theorem PhiA4_eq (c : Dev nD) :
    (Pipeline.ΦA spec4 c : sProp 𝕄)
      = iprop(iprop(iprop((∃ d, owns (c : Thread nD τ) scM4 fullShare d))
          ∗ Pipeline.scopedRestBut (Ix := Unit) (Name := ℕ) (U := UR sig nD τ) (Lvl := ℕ) (Val := Elt F) spec4 c [cc4_scratch0])
        ∗ (∃ r, prngReg c r)) := by
  unfold Pipeline.ΦA; rw [scopedRest4_split]; simp only [scM4, owns_whole]; try rfl

theorem before4_0 (c : Dev nD) (t : Fin cfg4.N) (d) : (dat4 V c).before 0 t d = iblk4 V c 0 t :=
  (dat4 V c).before_in_eq_fetched 0 rfl (fun _ => rfl) (fun _ _ _ => rfl) (fun _ => rfl) t d
theorem before4_1 (c : Dev nD) (t : Fin cfg4.N) (d) : (dat4 V c).before 1 t d = iblk4 V c 1 t :=
  (dat4 V c).before_in_eq_fetched 1 rfl (fun _ => rfl) (fun _ _ _ => rfl) (fun _ => rfl) t d
theorem before4_2 (c : Dev nD) (t : Fin cfg4.N) (d) : (dat4 V c).before 2 t d = iblk4 V c 2 t :=
  (dat4 V c).before_in_eq_fetched 2 rfl (fun _ => rfl) (fun _ _ _ => rfl) (fun _ => rfl) t d

abbrev ms4_0 (t : Fin cfg4.N) : Memref sig .tc .vmem S1x4096 .i32 := win4_0.stage (cfg4.slots t 0)
abbrev ms4_1 (t : Fin cfg4.N) : Memref sig .tc .vmem S1x4096 .f32 := win4_1.stage (cfg4.slots t 1)
abbrev ms4_2 (t : Fin cfg4.N) : Memref sig .tc .vmem S2000x64 .f32 := win4_2.stage (cfg4.slots t 2)
abbrev ms4_3 (t : Fin cfg4.N) : Memref sig .tc .vmem S4096x64 .bf16 := win4_3.stage (cfg4.slots t 3)

/-- The body at any point: `gather0_body`, then the sum's unfolding and the output window's two cases. -/
theorem sound_body4 (c : Dev nD) (t : Fin cfg4.N) :
    iprop(PhiS4 V c t.val (Nat.le_of_lt t.isLt) ∗ (dat4 V c).owesAt () t.castSucc
      ∗ (∃ d, owns (c : Thread nD τ) (ms4_0 t) fullShare ((dat4 V c).before 0 t d))
      ∗ (∃ d, owns (c : Thread nD τ) (ms4_1 t) fullShare ((dat4 V c).before 1 t d))
      ∗ (∃ d, owns (c : Thread nD τ) (ms4_2 t) fullShare ((dat4 V c).before 2 t d))
      ∗ (∃ d, owns (c : Thread nD τ) (ms4_3 t) fullShare ((dat4 V c).before 3 t d)))
    ⊢ wp frame (wpE (defs₀ (F := F)) Variants.none c none) Set.univ (bodyAt4 t) (fun _ =>
      iprop(PhiS4 V c (t.val + 1) t.isLt ∗ (dat4 V c).owesAt () t.castSucc
        ∗ owns (c : Thread nD τ) (ms4_0 t) fullShare (iblk4 V c 0 t)
        ∗ owns (c : Thread nD τ) (ms4_1 t) fullShare (iblk4 V c 1 t)
        ∗ owns (c : Thread nD τ) (ms4_2 t) fullShare (iblk4 V c 2 t)
        ∗ (dat4 V c).leavesExact 3 t)) := by
  simp only [before4_0, before4_1, before4_2]
  unfold PhiS4 bodyAt4
  iintro ⟨⟨⟨⟨%s, %hs, HS⟩, HR⟩, Hg⟩, Ho, ⟨%d0, H0⟩, ⟨%d1, H1⟩, ⟨%d2, H2⟩, ⟨%d3, H3⟩⟩
  iapply (gather0_body c Set.univ (grid4.coords t) (ms4_0 t) (hstage4_0 ((cfg4.slots t 0).cast nbuf4_0)) (ms4_1 t) (hstage4_1 ((cfg4.slots t 1).cast nbuf4_1))
    (ms4_2 t) (hstage4_2 ((cfg4.slots t 2).cast nbuf4_2)) (ms4_3 t) (hstage4_3 ((cfg4.slots t 3).cast nbuf4_3)) scM4 (Memref.isWhole_whole _)
    (fun h0 h1 => by have := (hfirst4 t).mp h0; have := (hlast4 t).mp h1; omega)
    (iblk4 V c 0 t) (iblk4 V c 1 t) (iblk4 V c 2 t) ((dat4 V c).before 3 t d3) s _)
  iframe H0 H1 H2 H3 HS
  iintro ⟨H0, H1, H2, H3, HS⟩
  rw [accAt4_step V c t s hs]
  iframe HR Hg Ho H0 H1 H2
  isplitl [HS]
  · iexists _; iframe; ipureintro; exact fun _ => rfl
  by_cases h1 : last0 (grid4.coords t)
  · rw [if_pos h1]; unfold Dat.leavesExact
    rw [show cfg4.idle 3 (grid4.coords t) = false from by
      show (!(k0_cond2 _ == 1#1)) = false; rw [Bool.not_eq_false', beq_iff_eq]; exact h1]
    iexact H3
  · rw [if_neg h1, Dat.leavesExact_idle (dat4 V c) 3 t
      (by show (!(k0_cond2 _ == 1#1)) = true; rw [Bool.not_eq_true', beq_eq_false_iff_ne]; exact h1)
      (Bool.eq_false_iff.mpr fun hf => h1 ((hlast4 t).mpr ((flush4_3 t).mp hf)))]
    iexists _; iexact H3

theorem body_obligation4 (c : Dev nD) : BodyObligation (dat4 (F := F) V c) (defs₀ (F := F)) Variants.none () Set.univ := fun t => by
  rw [bigSep_W4, bigSep_W4]
  exact sound_body4 V c t

/-- Before the first point nothing is claimed of the scratch's contents, -/
theorem hin4 (c : Dev nD) : Pipeline.ΦA spec4 c ⊢ (dat4 V c).Φ 0 := by
  rw [PhiA4_eq]; dsimp only [dat4, PhiS4]
  iintro ⟨⟨⟨%d, HS⟩, HR⟩, Hg⟩
  iframe HR Hg
  iexists d; iframe HS; ipureintro; exact fun h => absurd h (Nat.lt_irrefl _)

/-- and after the last they are forgotten. -/
theorem hout4 (c : Dev nD) : (dat4 V c).Φ (Fin.last cfg4.N) ⊢ Pipeline.ΦA spec4 c := by
  rw [PhiA4_eq]; dsimp only [dat4, PhiS4]
  iintro ⟨⟨⟨%s, -, HS⟩, HR⟩, Hg⟩
  iframe HR Hg
  iexists s; iexact HS

end Region

end Cert.Kernel.Hand

end
-- ==== Proof.K.Reg5.lean ====
import proofs.«139829_j5566277616457_1_alg».proof.Proof.Gen.Kernel.Skeleton
import proofs.«139829_j5566277616457_1_alg».proof.Proof.Gen.Kernel.Launch
import proofs.«139829_j5566277616457_1_alg».proof.Proof.Gen.Kernel.Points
import proofs.«139829_j5566277616457_1_alg».proof.Proof.K.ScatterBody1
import Idealize.ShloMosaic.Lib.Pipeline.Frame
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window `w`'s block at point `t`, read off its array as the region finds it. -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The running sum after point `n`: it restarts from zeros where the point's edge-block coordinate is 0. -/
def accAt5 (c : Dev nD) : (n : ℕ) → n < cfg5.N → FVec F S2000x64 .f32
  | 0, hn => k1_pay2 (grid5.coords ⟨0, hn⟩) (iblk5 V c 0 ⟨0, hn⟩) (iblk5 V c 1 ⟨0, hn⟩) (k1_pay1 (F := F))
  | n + 1, hn => k1_pay2 (grid5.coords ⟨n + 1, hn⟩) (iblk5 V c 0 ⟨n + 1, hn⟩) (iblk5 V c 1 ⟨n + 1, hn⟩)
      (if (n + 1) % 208 = 0 then (k1_pay1 (F := F)) else accAt5 c n (Nat.lt_of_succ_lt hn))

abbrev scM5 : Memref sig .tc .vmem S2000x64 .f32 := Memref.whole cc5_scratch0

/-- Before point `n` the scratch holds some sum, which after a point is that point's running sum. -/
def PhiS5 (c : Dev nD) (n : ℕ) (hn : n ≤ cfg5.N) : sProp 𝕄 :=
  iprop(((∃ s, ⌜∀ h : 0 < n, s = accAt5 V c (n - 1) (by omega)⌝ ∗ owns (c : Thread nD τ) scM5 fullShare s)
      ∗ Pipeline.scopedRestBut (Ix := Unit) (Name := ℕ) (U := UR sig nD τ) (Lvl := ℕ) (Val := Elt F) spec5 c [cc5_scratch0])
    ∗ (∃ r, prngReg c r))

/-- The region's proof data: the inputs keep their blocks, the output holds the running sum. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => accAt5 V c t.val t.isLt
  Φ t := PhiS5 V c t.val (Nat.le_of_lt_succ t.isLt)
  q _ := fullShare
  owed _ := 0

theorem A_eq5 (c : Dev nD) (w : Fin cfg5.W) : (dat5 V c).A w = V c (Pipeline.arrRef spec5 w) := rfl

theorem after5_2 (c : Dev nD) (t : Fin cfg5.N) : (dat5 V c).after 2 t = accAt5 V c t.val t.isLt := rfl

/-- The two branch conditions in closed form, decided over the grid. -/
theorem hfirst5 : ∀ t : Fin cfg5.N, first1 (grid5.coords t) ↔ t.val % 208 = 0 :=
  (by decide +kernel : ∀ t : Fin grid5.N, first1 (grid5.coords t) ↔ t.val % 208 = 0)

theorem hlast5 : ∀ t : Fin cfg5.N, last1 (grid5.coords t) ↔ t.val % 208 = 207 :=
  (by decide +kernel : ∀ t : Fin grid5.N, last1 (grid5.coords t) ↔ t.val % 208 = 207)

theorem accAt5_first (c : Dev nD) (t : Fin cfg5.N) (h : t.val % 208 = 0) :
    accAt5 V c t.val t.isLt = k1_pay2 (grid5.coords t) (iblk5 V c 0 t) (iblk5 V c 1 t) (k1_pay1 (F := F)) := by
  obtain ⟨n, hn⟩ := t
  cases n with
  | zero => rfl
  | succ n => exact congrArg (k1_pay2 _ _ _) (if_pos h)

theorem accAt5_next (c : Dev nD) (t : Fin cfg5.N) (h : ¬t.val % 208 = 0) :
    accAt5 V c t.val t.isLt = k1_pay2 (grid5.coords t) (iblk5 V c 0 t) (iblk5 V c 1 t)
      (accAt5 V c (t.val - 1) (Nat.lt_of_le_of_lt (Nat.sub_le _ _) t.isLt)) := by
  obtain ⟨n, hn⟩ := t
  cases n with
  | zero => exact absurd (Nat.zero_mod _) h
  | succ n => exact congrArg (k1_pay2 _ _ _) (if_neg h)

/-- One step of the body's sum from what the invariant holds is the running sum: by the two unfoldings. -/
theorem accAt5_step (c : Dev nD) (t : Fin cfg5.N) (s : FVec F S2000x64 .f32)
    (hs : ∀ h : 0 < t.val, s = accAt5 V c (t.val - 1) (by omega)) :
    k1_pay2 (grid5.coords t) (iblk5 V c 0 t) (iblk5 V c 1 t) (if first1 (grid5.coords t) then k1_pay1 (F := F) else s)
      = accAt5 V c t.val t.isLt := by
  by_cases h0 : t.val % 208 = 0
  · rw [if_pos ((hfirst5 t).mpr h0), accAt5_first V c t h0]
  · rw [if_neg (mt (hfirst5 t).mp h0), accAt5_next V c t h0, hs (by omega)]

/-- The entry invariant with the scratch named. -/
theorem PhiA5_eq (c : Dev nD) :
    (Pipeline.ΦA spec5 c : sProp 𝕄)
      = iprop(iprop(iprop((∃ d, owns (c : Thread nD τ) scM5 fullShare d))
          ∗ Pipeline.scopedRestBut (Ix := Unit) (Name := ℕ) (U := UR sig nD τ) (Lvl := ℕ) (Val := Elt F) spec5 c [cc5_scratch0])
        ∗ (∃ r, prngReg c r)) := by
  unfold Pipeline.ΦA; rw [scopedRest5_split]; simp only [scM5, owns_whole]; try rfl

theorem before5_0 (c : Dev nD) (t : Fin cfg5.N) (d) : (dat5 V c).before 0 t d = iblk5 V c 0 t :=
  (dat5 V c).before_in_eq_fetched 0 rfl (fun _ => rfl) (fun _ _ _ => rfl) (fun _ => rfl) t d
theorem before5_1 (c : Dev nD) (t : Fin cfg5.N) (d) : (dat5 V c).before 1 t d = iblk5 V c 1 t :=
  (dat5 V c).before_in_eq_fetched 1 rfl (fun _ => rfl) (fun _ _ _ => rfl) (fun _ => rfl) t d

abbrev ms5_0 (t : Fin cfg5.N) : Memref sig .tc .vmem S1x4096 .i32 := win5_0.stage (cfg5.slots t 0)
abbrev ms5_1 (t : Fin cfg5.N) : Memref sig .tc .vmem S4096x64 .bf16 := win5_1.stage (cfg5.slots t 1)
abbrev ms5_2 (t : Fin cfg5.N) : Memref sig .tc .vmem S2000x64 .f32 := win5_2.stage (cfg5.slots t 2)

/-- The body at any point: `scatter1`, then the sum's unfolding and the output window's two cases. -/
theorem sound_body5 (c : Dev nD) (t : Fin cfg5.N) :
    iprop(PhiS5 V c t.val (Nat.le_of_lt t.isLt) ∗ (dat5 V c).owesAt () t.castSucc
      ∗ (∃ d, owns (c : Thread nD τ) (ms5_0 t) fullShare ((dat5 V c).before 0 t d))
      ∗ (∃ d, owns (c : Thread nD τ) (ms5_1 t) fullShare ((dat5 V c).before 1 t d))
      ∗ (∃ d, owns (c : Thread nD τ) (ms5_2 t) fullShare ((dat5 V c).before 2 t d)))
    ⊢ wp frame (wpE (defs₀ (F := F)) Variants.none c none) Set.univ (bodyAt5 t) (fun _ =>
      iprop(PhiS5 V c (t.val + 1) t.isLt ∗ (dat5 V c).owesAt () t.castSucc
        ∗ owns (c : Thread nD τ) (ms5_0 t) fullShare (iblk5 V c 0 t)
        ∗ owns (c : Thread nD τ) (ms5_1 t) fullShare (iblk5 V c 1 t)
        ∗ (dat5 V c).leavesExact 2 t)) := by
  simp only [before5_0, before5_1]
  unfold PhiS5 bodyAt5
  iintro ⟨⟨⟨⟨%s, %hs, HS⟩, HR⟩, Hg⟩, Ho, ⟨%d0, H0⟩, ⟨%d1, H1⟩, ⟨%d2, H2⟩⟩
  iapply (scatter1 c Set.univ (grid5.coords t) (ms5_0 t) (hstage5_0 ((cfg5.slots t 0).cast nbuf5_0)) (ms5_1 t) (hstage5_1 ((cfg5.slots t 1).cast nbuf5_1))
    (ms5_2 t) (hstage5_2 ((cfg5.slots t 2).cast nbuf5_2)) scM5 (Memref.isWhole_whole _) (iblk5 V c 0 t) (iblk5 V c 1 t) ((dat5 V c).before 2 t d2) s _)
  iframe H0 H1 H2 HS
  iintro ⟨H0, H1, H2, HS⟩
  rw [accAt5_step V c t s hs]
  iframe HR Hg Ho H0 H1
  isplitl [HS]
  · iexists _; iframe; ipureintro; exact fun _ => rfl
  by_cases h1 : last1 (grid5.coords t)
  · rw [if_pos h1]; unfold Dat.leavesExact
    rw [show cfg5.idle 2 (grid5.coords t) = false from by
      show (!(k1_cond2 _ == 1#1)) = false; rw [Bool.not_eq_false', beq_iff_eq]; exact h1]
    iexact H2
  · rw [if_neg h1, Dat.leavesExact_idle (dat5 V c) 2 t
      (by show (!(k1_cond2 _ == 1#1)) = true; rw [Bool.not_eq_true', beq_eq_false_iff_ne]; exact h1)
      (Bool.eq_false_iff.mpr fun hf => h1 ((hlast5 t).mpr ((flush5_2 t).mp hf)))]
    iexists _; iexact H2

theorem body_obligation5 (c : Dev nD) : BodyObligation (dat5 (F := F) V c) (defs₀ (F := F)) Variants.none () Set.univ := fun t => by
  rw [bigSep_W5, bigSep_W5]
  exact sound_body5 V c t

/-- Before the first point nothing is claimed of the scratch's contents, -/
theorem hin5 (c : Dev nD) : Pipeline.ΦA spec5 c ⊢ (dat5 V c).Φ 0 := by
  rw [PhiA5_eq]; dsimp only [dat5, PhiS5]
  iintro ⟨⟨⟨%d, HS⟩, HR⟩, Hg⟩
  iframe HR Hg
  iexists d; iframe HS; ipureintro; exact fun h => absurd h (Nat.lt_irrefl _)

/-- and after the last they are forgotten. -/
theorem hout5 (c : Dev nD) : (dat5 V c).Φ (Fin.last cfg5.N) ⊢ Pipeline.ΦA spec5 c := by
  rw [PhiA5_eq]; dsimp only [dat5, PhiS5]
  iintro ⟨⟨⟨%s, -, HS⟩, HR⟩, Hg⟩
  iframe HR Hg
  iexists s; iexact HS

end Region

end Cert.Kernel.Hand

end
-- ==== Proof.K.Chain.lean ====
import proofs.«139829_j5566277616457_1_alg».proof.Proof.K.Reg0
import proofs.«139829_j5566277616457_1_alg».proof.Proof.K.Reg1
import proofs.«139829_j5566277616457_1_alg».proof.Proof.K.Reg2
import proofs.«139829_j5566277616457_1_alg».proof.Proof.K.Reg3
import proofs.«139829_j5566277616457_1_alg».proof.Proof.K.Reg4
import proofs.«139829_j5566277616457_1_alg».proof.Proof.K.Reg5
import proofs.«139829_j5566277616457_1_alg».proof.Proof.Gen.Kernel.Regions
import Idealize.ShloMosaic.Lib.Pipeline.FrameSuffix
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev rd (B : Dev nD → Valuation τ sig (Elt F)) : (c : Dev nD) → (b : Ref sig .tc) → Buf (Elt F) ((c : Thread nD τ).loc b) :=
  fun c b => B c b

abbrev B0 : Dev nD → Valuation τ sig (Elt F) := fun c b => m (c, b)

abbrev B1 : Dev nD → Valuation τ sig (Elt F) := fun c => StableHlo.after hostOps0 (B0 m c)

abbrev B2 : Dev nD → Valuation τ sig (Elt F) := fun c => StableHlo.after hostOps0_1 (B1 m c)

abbrev B3 : Dev nD → Valuation τ sig (Elt F) := fun c => StableHlo.after hostOps0_2 (B2 m c)

abbrev B4 : Dev nD → Valuation τ sig (Elt F) := fun c => StableHlo.after hostOps0_3 (B3 m c)

abbrev B5 : Dev nD → Valuation τ sig (Elt F) := fun c => StableHlo.after hostOps0_4 (B4 m c)

abbrev B6 : Dev nD → Valuation τ sig (Elt F) := fun c => StableHlo.after hostOps0_5 (B5 m c)

abbrev B7 : Dev nD → Valuation τ sig (Elt F) := fun c => StableHlo.after hostOps0_6 (B6 m c)

abbrev B8 : Dev nD → Valuation τ sig (Elt F) := fun c => StableHlo.after hostOps0_7 (B7 m c)

abbrev B9 : Dev nD → Valuation τ sig (Elt F) := fun c => StableHlo.after hostOps0_8 (B8 m c)

/-- The contents after region `p` with proof data `dat` entered at `B`: the region's arrays at the region's results, everything else as at entry. -/
def exitOf (p : Fin 6)
    (dat : ((c : Dev nD) → (b : Ref sig .tc) → Buf (Elt F) ((c : Thread nD τ).loc b)) → (c : Dev nD) → Dat τ (Elt F) Unit ℕ (UR sig nD τ) ℕ (cfgs p) c)
    (B : Dev nD → Valuation τ sig (Elt F)) (c : Dev nD) : Valuation τ sig (Elt F) :=
  Pipeline.withArrays (cfgs p).spec c (B c) fun w => (dat (rd B) c).arrAt w (cfgs p).N
theorem exitOf_arr {p : Fin 6} (hl : Pipeline.LaunchFacts (nD := nD) (τ := τ) cfgs p) (dat) (B : Dev nD → Valuation τ sig (Elt F)) (c : Dev nD)
    (w : Fin (cfgs p).W) : exitOf p dat B c (Proc.devRef .tc (Pipeline.arrRef (cfgs p).spec w)) = (dat (rd B) c).arrAt w (cfgs p).N :=
  Pipeline.withArrays_arr _ hl.win.arr_inj c _ _ w
theorem exitOf_of_ne (p : Fin 6) (dat) (B : Dev nD → Valuation τ sig (Elt F)) (c : Dev nD) (b : Ref sig .tc)
    (hb : ∀ w, Pipeline.arrRef (cfgs p).spec w ≠ b) : exitOf p dat B c (Proc.devRef .tc b) = B c (Proc.devRef .tc b) :=
  Pipeline.withArrays_of_ne _ c _ _ b hb

def B10 := exitOf 0 dat0 (B9 m)

def B11 := exitOf 1 dat1 (B10 m)

abbrev B12 : Dev nD → Valuation τ sig (Elt F) := fun c => StableHlo.after hostOps2 (B11 m c)

abbrev B13 : Dev nD → Valuation τ sig (Elt F) := fun c => StableHlo.after hostOps2_1 (B12 m c)

abbrev B14 : Dev nD → Valuation τ sig (Elt F) := fun c => StableHlo.after hostOps2_2 (B13 m c)

def B15 := exitOf 2 dat2 (B14 m)

def B16 := exitOf 3 dat3 (B15 m)

abbrev B17 : Dev nD → Valuation τ sig (Elt F) := fun c => StableHlo.after hostOps4 (B16 m c)

abbrev B18 : Dev nD → Valuation τ sig (Elt F) := fun c => StableHlo.after hostOps4_1 (B17 m c)

abbrev B19 : Dev nD → Valuation τ sig (Elt F) := fun c => StableHlo.after hostOps4_2 (B18 m c)

def B20 := exitOf 4 dat4 (B19 m)

def B21 := exitOf 5 dat5 (B20 m)

abbrev B22 : Dev nD → Valuation τ sig (Elt F) := fun c => StableHlo.after hostOps6 (B21 m c)

def pdats : (p : Fin 6) → (c : Dev nD) → Dat τ (Elt F) Unit ℕ (UR sig nD τ) ℕ (Pipeline.pin (pcfgs (F := F)) adm p) c
  | ⟨0, _⟩ => fun c => dat0 (rd (B9 m)) c
  | ⟨1, _⟩ => fun c => dat1 (rd (B10 m)) c
  | ⟨2, _⟩ => fun c => dat2 (rd (B14 m)) c
  | ⟨3, _⟩ => fun c => dat3 (rd (B15 m)) c
  | ⟨4, _⟩ => fun c => dat4 (rd (B19 m)) c
  | ⟨5, _⟩ => fun c => dat5 (rd (B20 m)) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.K.Seg.lean ====
import proofs.«139829_j5566277616457_1_alg».proof.Proof.K.Chain

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.ProofMode
open Idealize.ShloMosaic.Pipeline (BodyObligation)

variable {F : FTy → Type} [FloatOps F] (m : (ℓ : Loc nD τ sig) → Buf (Elt F) ℓ)

theorem pdats_std (p : Fin 6) (c : Dev nD) : (∀ w, (pdats m p c).q w = fullShare) ∧ (∀ t, (pdats m p c).owed t = 0)
    ∧ ∀ t x, x ∈ (pdats m p c).recorded t := by
  fin_cases p <;> exact ⟨fun _ => rfl, fun _ => rfl, fun _ _ => trivial⟩

/-- The contents after region `p` entered at `B`: the region's arrays at the region's results, everything else as at entry. -/
abbrev exitAt (p : Fin 6) (B : Dev nD → Valuation τ sig (Elt F)) (c : Dev nD) : Valuation τ sig (Elt F) :=
  Pipeline.withArrays (cfgs p).spec c (B c) fun w => (pdats m p c).arrAt w (cfgs p).N

/-- Region `p` as one step of the program's run from the contents `B`. -/
def regSeg (p : Fin 6) (hl : Pipeline.LaunchFacts (nD := nD) (τ := τ) cfgs p) (B : Dev nD → Valuation τ sig (Elt F))
    (hbody : ∀ c, BodyObligation (pdats m p c) defs₀ Variants.none () Set.univ)
    (hin : ∀ c, Pipeline.ΦA (cfgs p).spec c ⊢ (pdats m p c).Φ 0)
    (hout : ∀ c, (pdats m p c).Φ (Fin.last (cfgs p).N) ⊢ Pipeline.ΦA (cfgs p).spec c)
    (hA : ∀ c w, (pdats m p c).A w = rd B c (Pipeline.arrRef (cfgs p).spec w)) :
    Pipeline.RegionSeg pcfgs adm (pdats m) () defs₀ 𝒱₀ L lv p where
  win := hl.win.to₀
  block_pos := hl.block_pos
  stage_whole := hl.stage_whole
  K := PEmpty
  osem k := k.elim
  ho := Pipeline.OwnSemFacts.none _
  hbody c := (hbody c).loose
  hwaits := Pipeline.hwaits_of_owed_zero _ _ _ _ L lv p fun c => (pdats_std m p c).2.1
  pre c := iprop(StableHlo.held (c : Thread nD τ) (Pipeline.ucRefs τ sig) (B c) ∗ R c)
  post c := iprop(StableHlo.held (c : Thread nD τ) (Pipeline.ucRefs τ sig) (exitAt m p B c) ∗ R c)
  X c := iprop(∃ r, prngReg c r)
  Y c := iprop(∃ r, prngReg c r)
  Z c := Pipeline.unscopedRest (cfgs p).spec c (rd B c)
  hentry c := by
    unfold Pipeline.Dat.owesAt
    rw [← Pipeline.unscopedBufs_held, (pdats_std m p c).2.1]
    iintro ⟨⟨Hub, Hp, %W, HO⟩, -⟩
    ihave ⟨Ha, Hrest⟩ := (Pipeline.arrays_of_unscopedBufs (p := p) pcfgs adm (pdats m) hl.win hl.arr_whole c
      ((pdats m p c).share_full (pdats_std m p c).1) (rd B c) (hA c)) $$ Hub
    imodintro
    iframe Ha Hp Hrest
    isplitr; · iempintro
    iexists W; iframe; ipureintro; exact fun _ _ => Or.inl ((pdats_std m p c).2.2 _ _)
  hin c := by
    iintro ⟨Hp, -, Hr⟩
    iapply (hin c)
    unfold Pipeline.ΦA
    iframe
  hout c := by
    refine (hout c).trans ?_
    unfold Pipeline.ΦA
    iintro ⟨Hr, Hp⟩
    iframe; iempintro
  hexit c := by
    unfold Pipeline.Dat.owesAt
    rw [← Pipeline.unscopedBufs_held, (pdats_std m p c).2.1]
    iintro ⟨Ha, ⟨%W, -, HO⟩, HY, Hrest⟩
    imodintro
    isplitl [Ha Hrest]
    · iapply (Pipeline.unscopedBufs_of_arrays (p := p) pcfgs adm hl.win hl.arr_whole c (pdats m)
        ((pdats m p c).share_full (pdats_std m p c).1) (rd B c) (rd (exitAt m p B) c) _
        (fun w => (Pipeline.withArrays_arr _ hl.win.arr_inj c _ _ w).symm)
        fun b hb => Pipeline.withArrays_of_ne _ c _ _ b fun w e => hb (Finset.mem_image.mpr ⟨w, Finset.mem_univ _, e⟩))
      iframe
    isplitl [HY]; · iexact HY
    iexists W; iexact HO

def reg0 := regSeg m 0 launch0 (B9 m) (body_obligation0 _) (hin0 _) (hout0 _) fun _ _ => rfl
def reg1 := regSeg m 1 launch1 (B10 m) (body_obligation1 _) (hin1 _) (hout1 _) fun _ _ => rfl
def reg2 := regSeg m 2 launch2 (B14 m) (body_obligation2 _) (hin2 _) (hout2 _) fun _ _ => rfl
def reg3 := regSeg m 3 launch3 (B15 m) (body_obligation3 _) (hin3 _) (hout3 _) fun _ _ => rfl
def reg4 := regSeg m 4 launch4 (B19 m) (body_obligation4 _) (hin4 _) (hout4 _) fun _ _ => rfl
def reg5 := regSeg m 5 launch5 (B20 m) (body_obligation5 _) (hin5 _) (hout5 _) fun _ _ => rfl

end Cert.Kernel.Hand

end
-- ==== Proof.K.Run.lean ====
import proofs.«139829_j5566277616457_1_alg».proof.Proof.K.Seg

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev segs : List (Pipeline.Seg (pcfgs (F := F)) adm (pdats m) () defs₀ 𝒱₀ L lv) :=
  [ .host (hseg hostOps0 hostOps0_sub hostOps0_fresh (B0 m)),
    .host (hseg hostOps0_1 hostOps0_1_sub hostOps0_1_fresh (B1 m)),
    .host (hseg hostOps0_2 hostOps0_2_sub hostOps0_2_fresh (B2 m)),
    .host (hseg hostOps0_3 hostOps0_3_sub hostOps0_3_fresh (B3 m)),
    .host (hseg hostOps0_4 hostOps0_4_sub hostOps0_4_fresh (B4 m)),
    .host (hseg hostOps0_5 hostOps0_5_sub hostOps0_5_fresh (B5 m)),
    .host (hseg hostOps0_6 hostOps0_6_sub hostOps0_6_fresh (B6 m)),
    .host (hseg hostOps0_7 hostOps0_7_sub hostOps0_7_fresh (B7 m)),
    .host (hseg hostOps0_8 hostOps0_8_sub hostOps0_8_fresh (B8 m)),
    .region (reg0 m),
    .region (reg1 m),
    .host (hseg hostOps2 hostOps2_sub hostOps2_fresh (B11 m)),
    .host (hseg hostOps2_1 hostOps2_1_sub hostOps2_1_fresh (B12 m)),
    .host (hseg hostOps2_2 hostOps2_2_sub hostOps2_2_fresh (B13 m)),
    .region (reg2 m),
    .region (reg3 m),
    .host (hseg hostOps4 hostOps4_sub hostOps4_fresh (B16 m)),
    .host (hseg hostOps4_1 hostOps4_1_sub hostOps4_1_fresh (B17 m)),
    .host (hseg hostOps4_2 hostOps4_2_sub hostOps4_2_fresh (B18 m)),
    .region (reg4 m),
    .region (reg5 m),
    .host (hseg hostOps6 hostOps6_sub hostOps6_fresh (B21 m)) ]

theorem main_run (c : Dev nD) : main (F := F) c = Pipeline.Seg.run (segs m) := (main_chain c).trans (by chain_rfl)

abbrev Tlast (c : Dev nD) : sProp 𝕄 := iprop(StableHlo.held (c : Thread nD τ) (Pipeline.ucRefs τ sig) (B22 m c) ∗ ∃ r, prngReg c r)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = B22 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tlast m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (B22 m c) ∗ R c)
        ⊢ iprop(Tlast m c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B22 m c b)
    (hfin := fun c s' => by
      iintro ⟨⟨Hh, -⟩, HSI⟩
      unfold StableHlo.held
      imodintro
      iapply (pointsTo_read_all (Pipeline.ucRefs τ sig) (fun b => (((c : Thread nD τ)).1, b)) (B22 m c) s')
      isplitl [Hh] <;> iassumption)
    (hQ := fun s h c => h c)

end Cert.Kernel.Hand

end
-- ==== Proof.K.KerArgs.lean ====
import proofs.«139829_j5566277616457_1_alg».proof.Proof.K.Chain

noncomputable section

namespace Cert.Kernel.Hand

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- No host stretch of the program writes `b`, and `b` is among no region's arrays. -/
abbrev Untouched (b : Ref sig .tc) : Prop :=
  b ∉ hostOps0_W ∧ b ∉ hostOps0_1_W ∧ b ∉ hostOps0_2_W ∧ b ∉ hostOps0_3_W ∧ b ∉ hostOps0_4_W ∧ b ∉ hostOps0_5_W
    ∧ b ∉ hostOps0_6_W ∧ b ∉ hostOps0_7_W ∧ b ∉ hostOps0_8_W ∧ b ∉ hostOps2_W ∧ b ∉ hostOps2_1_W ∧ b ∉ hostOps2_2_W
    ∧ b ∉ hostOps4_W ∧ b ∉ hostOps4_1_W ∧ b ∉ hostOps4_2_W ∧ b ∉ hostOps6_W
    ∧ (∀ w, Pipeline.arrRef spec0 w ≠ b) ∧ (∀ w, Pipeline.arrRef spec1 w ≠ b) ∧ (∀ w, Pipeline.arrRef spec2 w ≠ b)
    ∧ (∀ w, Pipeline.arrRef spec3 w ≠ b) ∧ (∀ w, Pipeline.arrRef spec4 w ≠ b) ∧ (∀ w, Pipeline.arrRef spec5 w ≠ b)

abbrev argRefs : List (Ref sig .tc) :=
  [main_arg0, main_arg1, main_arg2, main_arg3, main_arg4, main_arg5, main_arg6, main_arg7, main_arg8, main_arg9]

theorem args_untouched : ∀ b ∈ argRefs, Untouched b := by decide

/-- An untouched buffer holds the launch contents after the first pair of regions, -/
theorem B11_of (c : Dev nD) (b : Ref sig .tc) (h : Untouched b) : B11 m c (Proc.devRef .tc b) = m ((c.tc : Thread nD τ).loc b) := by
  obtain ⟨h0, h1, h2, h3, h4, h5, h6, h7, h8, -, -, -, -, -, -, -, r0, r1, -⟩ := h
  exact (exitOf_of_ne 1 _ _ c b r1).trans <| (exitOf_of_ne 0 _ _ c b r0).trans <|
    (StableHlo.after_of_writes_sub hostOps0_8 _ hostOps0_8_writes h8).trans <|
    (StableHlo.after_of_writes_sub hostOps0_7 _ hostOps0_7_writes h7).trans <|
    (StableHlo.after_of_writes_sub hostOps0_6 _ hostOps0_6_writes h6).trans <|
    (StableHlo.after_of_writes_sub hostOps0_5 _ hostOps0_5_writes h5).trans <|
    (StableHlo.after_of_writes_sub hostOps0_4 _ hostOps0_4_writes h4).trans <|
    (StableHlo.after_of_writes_sub hostOps0_3 _ hostOps0_3_writes h3).trans <|
    (StableHlo.after_of_writes_sub hostOps0_2 _ hostOps0_2_writes h2).trans <|
    (StableHlo.after_of_writes_sub hostOps0_1 _ hostOps0_1_writes h1).trans <|
    (StableHlo.after_of_writes_sub hostOps0 _ hostOps0_writes h0)

/-- after the second, -/
theorem B16_of (c : Dev nD) (b : Ref sig .tc) (h : Untouched b) : B16 m c (Proc.devRef .tc b) = m ((c.tc : Thread nD τ).loc b) := by
  have hp := B11_of m c b h
  obtain ⟨-, -, -, -, -, -, -, -, -, g0, g1, g2, -, -, -, -, -, -, r2, r3, -⟩ := h
  exact (exitOf_of_ne 3 _ _ c b r3).trans <| (exitOf_of_ne 2 _ _ c b r2).trans <|
    (StableHlo.after_of_writes_sub hostOps2_2 _ hostOps2_2_writes g2).trans <|
    (StableHlo.after_of_writes_sub hostOps2_1 _ hostOps2_1_writes g1).trans <|
    (StableHlo.after_of_writes_sub hostOps2 _ hostOps2_writes g0).trans hp

/-- after the third, -/
theorem B21_of (c : Dev nD) (b : Ref sig .tc) (h : Untouched b) : B21 m c (Proc.devRef .tc b) = m ((c.tc : Thread nD τ).loc b) := by
  have hp := B16_of m c b h
  obtain ⟨-, -, -, -, -, -, -, -, -, -, -, -, g0, g1, g2, -, -, -, -, -, r4, r5⟩ := h
  exact (exitOf_of_ne 5 _ _ c b r5).trans <| (exitOf_of_ne 4 _ _ c b r4).trans <|
    (StableHlo.after_of_writes_sub hostOps4_2 _ hostOps4_2_writes g2).trans <|
    (StableHlo.after_of_writes_sub hostOps4_1 _ hostOps4_1_writes g1).trans <|
    (StableHlo.after_of_writes_sub hostOps4 _ hostOps4_writes g0).trans hp

/-- and at the program's end. -/
theorem B22_of (c : Dev nD) (b : Ref sig .tc) (h : Untouched b) : B22 m c (Proc.devRef .tc b) = m ((c.tc : Thread nD τ).loc b) :=
  (StableHlo.after_of_writes_sub hostOps6 _ hostOps6_writes h.2.2.2.2.2.2.2.2.2.2.2.2.2.2.2.1).trans <| B21_of m c b h

theorem kernel_args (c : Dev nD) :
    B22 m c (main_arg0 : DevRef τ sig) = m ((c.tc : Thread nD τ).loc main_arg0)
    ∧ B22 m c (main_arg1 : DevRef τ sig) = m ((c.tc : Thread nD τ).loc main_arg1)
    ∧ B22 m c (main_arg2 : DevRef τ sig) = m ((c.tc : Thread nD τ).loc main_arg2)
    ∧ B22 m c (main_arg3 : DevRef τ sig) = m ((c.tc : Thread nD τ).loc main_arg3)
    ∧ B22 m c (main_arg4 : DevRef τ sig) = m ((c.tc : Thread nD τ).loc main_arg4)
    ∧ B22 m c (main_arg5 : DevRef τ sig) = m ((c.tc : Thread nD τ).loc main_arg5)
    ∧ B22 m c (main_arg6 : DevRef τ sig) = m ((c.tc : Thread nD τ).loc main_arg6)
    ∧ B22 m c (main_arg7 : DevRef τ sig) = m ((c.tc : Thread nD τ).loc main_arg7)
    ∧ B22 m c (main_arg8 : DevRef τ sig) = m ((c.tc : Thread nD τ).loc main_arg8)
    ∧ B22 m c (main_arg9 : DevRef τ sig) = m ((c.tc : Thread nD τ).loc main_arg9) :=
  ⟨B22_of m c _ (args_untouched _ (by decide)), B22_of m c _ (args_untouched _ (by decide)), B22_of m c _ (args_untouched _ (by decide)), B22_of m c _ (args_untouched _ (by decide)), B22_of m c _ (args_untouched _ (by decide)), B22_of m c _ (args_untouched _ (by decide)), B22_of m c _ (args_untouched _ (by decide)), B22_of m c _ (args_untouched _ (by decide)), B22_of m c _ (args_untouched _ (by decide)), B22_of m c _ (args_untouched _ (by decide))⟩

end Cert.Kernel.Hand

end
-- ==== Proof.lean ====
import proofs.«139829_j5566277616457_1_alg».proof.Defs
import proofs.«139829_j5566277616457_1_alg».proof.Proof.Gen.Kernel
import proofs.«139829_j5566277616457_1_alg».proof.Proof.Gen.Kernel.Skeleton
import proofs.«139829_j5566277616457_1_alg».proof.Proof.Gen.Kernel.Launch
import proofs.«139829_j5566277616457_1_alg».proof.Proof.Gen.Kernel.Regions
import proofs.«139829_j5566277616457_1_alg».proof.Proof.Gen.Kernel.Points
import proofs.«139829_j5566277616457_1_alg».proof.Proof.Gen.KernelIdeal
import proofs.«139829_j5566277616457_1_alg».proof.Proof.Gen.KernelIdeal.Skeleton
import proofs.«139829_j5566277616457_1_alg».proof.Proof.Gen.KernelIdeal.Launch
import proofs.«139829_j5566277616457_1_alg».proof.Proof.Gen.KernelIdeal.Regions
import proofs.«139829_j5566277616457_1_alg».proof.Proof.Gen.KernelIdeal.Points
import proofs.«139829_j5566277616457_1_alg».proof.Proof.Gen.ReferenceIdeal
import proofs.«139829_j5566277616457_1_alg».proof.Proof.Gen.Pre_finite_inputs
import proofs.«139829_j5566277616457_1_alg».proof.Proof.RefRun
import proofs.«139829_j5566277616457_1_alg».proof.Proof.PreRange
import proofs.«139829_j5566277616457_1_alg».proof.Proof.Run
import proofs.«139829_j5566277616457_1_alg».proof.Proof.KerArgs
import proofs.«139829_j5566277616457_1_alg».proof.Proof.KerValue
import proofs.«139829_j5566277616457_1_alg».proof.Proof.Bridge
import proofs.«139829_j5566277616457_1_alg».proof.Proof.K.Run
import proofs.«139829_j5566277616457_1_alg».proof.Proof.K.KerArgs
import Idealize.ShloMosaic.Adequacy
import Idealize.ShloMosaic.Init

noncomputable section

namespace Cert.Proof

open Idealize.ShloMosaic Idealize.ShloMosaic.TcCoe Idealize.SL.Sem

section Printed
open Cert.Kernel Cert.Kernel.Hand

theorem frame_k : Cert.frame_Kernel := fun m ρ _ => by

  have hrun := run_all (F := Bits) m ρ

  exact (θ_run _ _ _).mono (fun r h c => by
    obtain ⟨a0, a1, a2, a3, a4, a5, a6, a7, a8, a9⟩ := kernel_args m c
    exact ⟨(h c _ (mem_uc main_arg0 (by decide))).trans a0,
      (h c _ (mem_uc main_arg1 (by decide))).trans a1,
      (h c _ (mem_uc main_arg2 (by decide))).trans a2,
      (h c _ (mem_uc main_arg3 (by decide))).trans a3,
      (h c _ (mem_uc main_arg4 (by decide))).trans a4,
      (h c _ (mem_uc main_arg5 (by decide))).trans a5,
      (h c _ (mem_uc main_arg6 (by decide))).trans a6,
      (h c _ (mem_uc main_arg7 (by decide))).trans a7,
      (h c _ (mem_uc main_arg8 (by decide))).trans a8,
      (h c _ (mem_uc main_arg9 (by decide))).trans a9⟩) hrun

end Printed

section Idealized
open Cert.KernelIdeal Cert.KernelIdeal.Hand

theorem run_ki (m : (ℓ : Loc nD τ sig) → Buf (Elt Ideal) ℓ) (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v59) = Cert.ReferenceIdeal.RefRun.res (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by

  have hrun := run_all (F := Ideal) m ρ

  have hsrc : ∀ (c : Dev nD) (e : Fin 800000), 0 ≤ ((m ((c.tc : Thread nD τ).loc main_arg1)) (ValueIdx.ix2 (0 : Fin 2) e)).toInt
      ∧ ((m ((c.tc : Thread nD τ).loc main_arg1)) (ValueIdx.ix2 (0 : Fin 2) e)).toInt < 50000 :=
    fun c => Cert.PreRange.src_range _ _ _ _ _ _ _ _ _ _ (hpre c)

  have hval : ∀ c : Dev nD, B22 m c (Proc.devRef .tc main_v59) = Cert.ReferenceIdeal.RefRun.res (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
    fun c => kernel_value m c fun hp b => Cert.Bridge.conv_eq _ (hsrc c) hp b
  exact (θ_run _ _ _).mono (fun r h c => by
    obtain ⟨a0, a1, a2, a3, a4, a5, a6, a7, a8, a9⟩ := kernel_args m c
    exact ⟨(h c _ (mem_uc main_v59 (by decide))).trans (hval c),
      (h c _ (mem_uc main_arg0 (by decide))).trans a0,
      (h c _ (mem_uc main_arg1 (by decide))).trans a1,
      (h c _ (mem_uc main_arg2 (by decide))).trans a2,
      (h c _ (mem_uc main_arg3 (by decide))).trans a3,
      (h c _ (mem_uc main_arg4 (by decide))).trans a4,
      (h c _ (mem_uc main_arg5 (by decide))).trans a5,
      (h c _ (mem_uc main_arg6 (by decide))).trans a6,
      (h c _ (mem_uc main_arg7 (by decide))).trans a7,
      (h c _ (mem_uc main_arg8 (by decide))).trans a8,
      (h c _ (mem_uc main_arg9 (by decide))).trans a9⟩) hrun

theorem frame_ki : Cert.frame_KernelIdeal := fun m ρ hpre =>
  (θ_run _ _ _).mono (fun _ h c => (h c).2) (run_ki m ρ hpre)

end Idealized

theorem frame_ri : Cert.frame_ReferenceIdeal := fun m ρ _ =>
  (θ_run Cert.ReferenceIdeal.defs _ _).mono (fun _ h c => (h c).2) (Cert.ReferenceIdeal.RefRun.run (F := Ideal) m ρ)

theorem algebraic : Cert.algebraic_KernelIdeal_ReferenceIdeal := by
  intro m ρ m' ρ' hpre hagree
  refine ⟨_, run_ki m ρ hpre, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7, e8, e9⟩ := hagree c
  rw [e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
